-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v303)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v303) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v306) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S3x8192 : Shape := ⟨2, ![3, 8192]⟩
abbrev S8192 : Shape := ⟨1, ![8192]⟩
abbrev S3x1x512 : Shape := ⟨3, ![3, 1, 512]⟩
abbrev S4x2x512x1 : Shape := ⟨4, ![4, 2, 512, 1]⟩
abbrev S_ : Shape := ⟨0, ![]⟩
abbrev S1x8192 : Shape := ⟨2, ![1, 8192]⟩
abbrev S8192x1 : Shape := ⟨2, ![8192, 1]⟩
abbrev S8192x512 : Shape := ⟨2, ![8192, 512]⟩
abbrev S512x8192 : Shape := ⟨2, ![512, 8192]⟩
abbrev S8192x8192 : Shape := ⟨2, ![8192, 8192]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S8192 : S_.BroadcastsInDim S8192 (![] : Fin 0 → Fin S8192.rank)
  reducesTo_S8192_S_d0 : S8192.ReducesTo [0] S_
  bcast_S_S3x1x512 : S_.BroadcastsInDim S3x1x512 (![] : Fin 0 → Fin S3x1x512.rank)
  reducesTo_S3x1x512_S_d0_1_2 : S3x1x512.ReducesTo [0, 1, 2] S_
  bcast_S_S4x2x512x1 : S_.BroadcastsInDim S4x2x512x1 (![] : Fin 0 → Fin S4x2x512x1.rank)
  reducesTo_S4x2x512x1_S_d0_1_2_3 : S4x2x512x1.ReducesTo [0, 1, 2, 3] S_
  slices_S3x8192_S1x8192_0_0 : S3x8192.Slices ![0, 0] S1x8192
  shapeCasts_S1x8192_S8192 : S1x8192.ShapeCasts S8192
  slices_S3x8192_S1x8192_1_0 : S3x8192.Slices ![1, 0] S1x8192
  slices_S3x8192_S1x8192_2_0 : S3x8192.Slices ![2, 0] S1x8192
  bcast_S8192_S8192x1_0 : S8192.BroadcastsInDim S8192x1 (![0] : Fin 1 → Fin S8192x1.rank)
  bcast_S8192x1_S8192x512_0_1 : S8192x1.BroadcastsInDim S8192x512 (![0, 1] : Fin 2 → Fin S8192x512.rank)
  bcast_S_S8192x512 : S_.BroadcastsInDim S8192x512 (![] : Fin 0 → Fin S8192x512.rank)
  transposes_S8192x512_S512x8192_1_0 : S8192x512.Transposes [1, 0] S512x8192
  reducesTo_S8192x8192_S8192_d1 : S8192x8192.ReducesTo [1] S8192
  gather_S4096x512_S8192x1_S8192x512_1_0_n_n_0_1_1512_wf : GatherDims.WF S4096x512 S8192x1 S8192x512 [1] [0] [] [0] [] 1 ![1, 512]
  scatter_S8192x512_S8192x1_S8192x512_1_0_0_1_wf : ScatterDims.WF S8192x512 S8192x1 S8192x512 [1] [0] [0] 1
  dot_S8192x512_S512x8192_S8192x8192_1_0_0_1_n_n_wf : DotDims.WF S8192x512 S512x8192 S8192x8192 [1] [0] [0] [1] [] []

variable [Facts]

def gather_S4096x512_S8192x1_S8192x512_1_0_n_n_0_1_1512 : GatherDims S4096x512 S8192x1 S8192x512 where
  offsetDims := [1]
  collapsedSliceDims := [0]
  operandBatchingDims := []
  startIndicesBatchingDims := []
  startIndexMap := [0]
  indexVectorDim := 1
  sliceSizes := ![1, 512]
  wf := gather_S4096x512_S8192x1_S8192x512_1_0_n_n_0_1_1512_wf
def scatter_S8192x512_S8192x1_S8192x512_1_0_0_1 : ScatterDims S8192x512 S8192x1 S8192x512 where
  updateWindowDims := [1]
  insertedWindowDims := [0]
  scatterDimsToOperandDims := [0]
  indexVectorDim := 1
  wf := scatter_S8192x512_S8192x1_S8192x512_1_0_0_1_wf
def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf
def fn_part3 {F : FTy → Type} [FloatOps F] (main_arg2 : FVec F S8192 .f32) (main_v22 : IVec S_ 1) (main_v54 : FVec F S8192x512 .f32) : IVec S_ 1 :=
  let main_v55 : FVec F S8192x1 .f32 := broadcastInDim S8192x1 ![0] bcast_S8192_S8192x1_0 main_arg2
  let main_v56 : FVec F S8192x512 .f32 := broadcastInDim S8192x512 ![0, 1] bcast_S8192x1_S8192x512_0_1 main_v55
  let main_v57 : FVec F S8192x512 .f32 := Host.divf main_v54 main_v56
  let main_v58 : FVec F S512x8192 .f32 := (transpose S512x8192 [1, 0] · transposes_S8192x512_S512x8192_1_0) main_v57
  let main_v59 : FVec F S8192x8192 .f32 := (fun l r => Host.dotGeneral dot_S8192x512_S512x8192_S8192x8192_1_0_0_1_n_n none l r) main_v57 main_v58
  let main_cst_15 : FVec F S_ .f32 := constant S_ .f32 0x00000000#32
  let main_v60 : FVec F S8192 .f32 := (fun x v => Host.reduceAdd x v reducesTo_S8192x8192_S8192_d1 h_S_) main_v59 main_cst_15
  let main_cst_16 : FVec F S_ .f32 := constant S_ .f32 0x00000000#32
  let main_v61 : FVec F S8192 .f32 := broadcastInDim S8192 ![] bcast_S_S8192 main_cst_16
  let main_v62 : IVec S8192 1 := cmpf .une main_v60 main_v61
  let main_c_17 : IVec S_ 1 := constantI S_ 1 1#1
  let main_v63 : IVec S_ 1 := (fun x v => Host.reduce IntOp.andi x v reducesTo_S8192_S_d0 h_S_) main_v62 main_c_17
  let main_v64 : IVec S_ 1 := andi main_v22 main_v63
  main_v64

def fn_part2 {F : FTy → Type} [FloatOps F] (main_arg0 : FVec F S4096x512 .f32) (main_arg2 : FVec F S8192 .f32) (main_v22 : IVec S_ 1) (main_v24 : IVec S8192 32) (main_v26 : IVec S8192 32) (main_v35 : FVec F S8192x512 .f32) : IVec S_ 1 :=
  let main_c_10 : IVec S_ 32 := constantI S_ 32 0#32
  let main_v36 : IVec S8192 32 := broadcastInDim S8192 ![] bcast_S_S8192 main_c_10
  let main_v37 : IVec S8192 1 := cmpi .slt main_v24 main_v36
  let main_c_11 : IVec S_ 32 := constantI S_ 32 4096#32
  let main_v38 : IVec S8192 32 := broadcastInDim S8192 ![] bcast_S_S8192 main_c_11
  let main_v39 : IVec S8192 32 := addi main_v24 main_v38
  let main_v40 : IVec S8192 32 := select main_v37 main_v39 main_v24
  let main_v41 : IVec S8192x1 32 := broadcastInDim S8192x1 ![0] bcast_S8192_S8192x1_0 main_v40
  let main_v42 : FVec F S8192x512 .f32 := (fun x i => Host.gather gather_S4096x512_S8192x1_S8192x512_1_0_n_n_0_1_1512 x i) main_arg0 main_v41
  let main_v43 : FVec F S8192x512 .f32 := subf main_v35 main_v42
  let main_v44 : FVec F S8192x1 .f32 := broadcastInDim S8192x1 ![0] bcast_S8192_S8192x1_0 main_arg2
  let main_v45 : FVec F S8192x512 .f32 := broadcastInDim S8192x512 ![0, 1] bcast_S8192x1_S8192x512_0_1 main_v44
  let main_v46 : FVec F S8192x512 .f32 := Host.divf main_v43 main_v45
  let main_cst_12 : FVec F S_ .f32 := constant S_ .f32 0x00000000#32
  let main_v47 : FVec F S8192x512 .f32 := broadcastInDim S8192x512 ![] bcast_S_S8192x512 main_cst_12
  let main_c_13 : IVec S_ 32 := constantI S_ 32 0#32
  let main_v48 : IVec S8192 32 := broadcastInDim S8192 ![] bcast_S_S8192 main_c_13
  let main_v49 : IVec S8192 1 := cmpi .slt main_v26 main_v48
  let main_c_14 : IVec S_ 32 := constantI S_ 32 8192#32
  let main_v50 : IVec S8192 32 := broadcastInDim S8192 ![] bcast_S_S8192 main_c_14
  let main_v51 : IVec S8192 32 := addi main_v26 main_v50
  let main_v52 : IVec S8192 32 := select main_v49 main_v51 main_v26
  let main_v53 : IVec S8192x1 32 := broadcastInDim S8192x1 ![0] bcast_S8192_S8192x1_0 main_v52
  let main_v54 : FVec F S8192x512 .f32 := (fun x i u => Host.scatterAdd scatter_S8192x512_S8192x1_S8192x512_1_0_0_1 x i u) main_v47 main_v53 main_v46
  fn_part3 (F := F) main_arg2 main_v22 main_v54

def fn_part1 {F : FTy → Type} [FloatOps F] (main_arg0 : FVec F S4096x512 .f32) (main_arg1 : IVec S3x8192 32) (main_arg2 : FVec F S8192 .f32) (main_v13 : IVec S_ 1) (main_v16 : IVec S4x2x512x1 1) : IVec S_ 1 :=
  let main_c_5 : IVec S_ 1 := constantI S_ 1 1#1
  let main_v17 : IVec S_ 1 := (fun x v => Host.reduce IntOp.andi x v reducesTo_S4x2x512x1_S_d0_1_2_3 h_S_) main_v16 main_c_5
  let main_v18 : IVec S_ 1 := andi main_v13 main_v17
  let main_cst_6 : FVec F S_ .f32 := constant S_ .f32 0x00000000#32
  let main_v19 : FVec F S8192 .f32 := broadcastInDim S8192 ![] bcast_S_S8192 main_cst_6
  let main_v20 : IVec S8192 1 := cmpf .une main_arg2 main_v19
  let main_c_7 : IVec S_ 1 := constantI S_ 1 1#1
  let main_v21 : IVec S_ 1 := (fun x v => Host.reduce IntOp.andi x v reducesTo_S8192_S_d0 h_S_) main_v20 main_c_7
  let main_v22 : IVec S_ 1 := andi main_v18 main_v21
  let main_v23 : IVec S1x8192 32 := (extractStridedSlice S1x8192 ![0, 0] · slices_S3x8192_S1x8192_0_0) main_arg1
  let main_v24 : IVec S8192 32 := shapeCast S8192 main_v23 shapeCasts_S1x8192_S8192
  let main_v25 : IVec S1x8192 32 := (extractStridedSlice S1x8192 ![1, 0] · slices_S3x8192_S1x8192_1_0) main_arg1
  let main_v26 : IVec S8192 32 := shapeCast S8192 main_v25 shapeCasts_S1x8192_S8192
  let main_v27 : IVec S1x8192 32 := (extractStridedSlice S1x8192 ![2, 0] · slices_S3x8192_S1x8192_2_0) main_arg1
  let main_v28 : IVec S8192 32 := shapeCast S8192 main_v27 shapeCasts_S1x8192_S8192
  let main_c_8 : IVec S_ 32 := constantI S_ 32 0#32
  let main_v29 : IVec S8192 32 := broadcastInDim S8192 ![] bcast_S_S8192 main_c_8
  let main_v30 : IVec S8192 1 := cmpi .slt main_v28 main_v29
  let main_c_9 : IVec S_ 32 := constantI S_ 32 4096#32
  let main_v31 : IVec S8192 32 := broadcastInDim S8192 ![] bcast_S_S8192 main_c_9
  let main_v32 : IVec S8192 32 := addi main_v28 main_v31
  let main_v33 : IVec S8192 32 := select main_v30 main_v32 main_v28
  let main_v34 : IVec S8192x1 32 := broadcastInDim S8192x1 ![0] bcast_S8192_S8192x1_0 main_v33
  let main_v35 : FVec F S8192x512 .f32 := (fun x i => Host.gather gather_S4096x512_S8192x1_S8192x512_1_0_n_n_0_1_1512 x i) main_arg0 main_v34
  fn_part2 (F := F) main_arg0 main_arg2 main_v22 main_v24 main_v26 main_v35

def fn {F : FTy → Type} [FloatOps F] (main_arg0 : FVec F S4096x512 .f32) (main_arg1 : IVec S3x8192 32) (main_arg2 : FVec F S8192 .f32) (main_arg3 : FVec F S3x1x512 .f32) (main_arg4 : FVec F S4x2x512x1 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S8192 .f32 := Host.absf main_arg2
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S3x1x512 .f32 := Host.absf main_arg3
  let main_cst_2 : FVec F S_ .f32 := constant S_ .f32 0x7F800000#32
  let main_v10 : FVec F S3x1x512 .f32 := broadcastInDim S3x1x512 ![] bcast_S_S3x1x512 main_cst_2
  let main_v11 : IVec S3x1x512 1 := cmpf .olt main_v9 main_v10
  let main_c_3 : IVec S_ 1 := constantI S_ 1 1#1
  let main_v12 : IVec S_ 1 := (fun x v => Host.reduce IntOp.andi x v reducesTo_S3x1x512_S_d0_1_2 h_S_) main_v11 main_c_3
  let main_v13 : IVec S_ 1 := andi main_v8 main_v12
  let main_v14 : FVec F S4x2x512x1 .f32 := Host.absf main_arg4
  let main_cst_4 : FVec F S_ .f32 := constant S_ .f32 0x7F800000#32
  let main_v15 : FVec F S4x2x512x1 .f32 := broadcastInDim S4x2x512x1 ![] bcast_S_S4x2x512x1 main_cst_4
  let main_v16 : IVec S4x2x512x1 1 := cmpf .olt main_v14 main_v15
  fn_part1 (F := F) main_arg0 main_arg1 main_arg2 main_v13 main_v16
-- ==== Kernel.lean ====
abbrev S4096x512 : Shape := ⟨2, ![4096, 512]⟩
abbrev S3x8192 : Shape := ⟨2, ![3, 8192]⟩
abbrev S8192 : Shape := ⟨1, ![8192]⟩
abbrev S3x1x512 : Shape := ⟨3, ![3, 1, 512]⟩
abbrev S4x2x512x1 : Shape := ⟨4, ![4, 2, 512, 1]⟩
abbrev S1x8192 : Shape := ⟨2, ![1, 8192]⟩
abbrev S_ : Shape := ⟨0, ![]⟩
abbrev S8192x1 : Shape := ⟨2, ![8192, 1]⟩
abbrev S8192x512 : Shape := ⟨2, ![8192, 512]⟩
abbrev S1x512 : Shape := ⟨2, ![1, 512]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩
abbrev S2048x1 : Shape := ⟨2, ![2048, 1]⟩
abbrev S512x2048 : Shape := ⟨2, ![512, 2048]⟩
abbrev S1x1x512x1 : Shape := ⟨4, ![1, 1, 512, 1]⟩
abbrev S4096 : Shape := ⟨1, ![4096]⟩
abbrev S4096x1 : Shape := ⟨2, ![4096, 1]⟩
abbrev S1x1x512 : Shape := ⟨3, ![1, 1, 512]⟩
abbrev S1x4096x512 : Shape := ⟨3, ![1, 4096, 512]⟩
abbrev S4x4096x512 : Shape := ⟨3, ![4, 4096, 512]⟩

abbrev nBuf : Space → Nat
  | .hbm => 400
  | .vmem => 16
  | .smem => 0
  | _ => 0

abbrev hbmTy0_0 (i : Nat) : BufTy := match i % 128 with
  | 0 => ⟨S4096x512, .f32⟩
  | 1 => ⟨S3x8192, .i32⟩
  | 2 => ⟨S8192, .f32⟩
  | 3 => ⟨S3x1x512, .f32⟩
  | 4 => ⟨S4x2x512x1, .f32⟩
  | 5 => ⟨S1x8192, .i32⟩
  | 6 => ⟨S8192, .i32⟩
  | 7 => ⟨S1x8192, .i32⟩
  | 8 => ⟨S8192, .i32⟩
  | 9 => ⟨S1x8192, .i32⟩
  | 10 => ⟨S8192, .i32⟩
  | 11 => ⟨S_, .i32⟩
  | 12 => ⟨S8192, .i32⟩
  | 13 => ⟨S8192, .i1⟩
  | 14 => ⟨S_, .i32⟩
  | 15 => ⟨S8192, .i32⟩
  | 16 => ⟨S8192, .i32⟩
  | 17 => ⟨S8192, .i32⟩
  | 18 => ⟨S8192x1, .i32⟩
  | 19 => ⟨S8192x512, .f32⟩
  | 20 => ⟨S_, .i32⟩
  | 21 => ⟨S8192, .i32⟩
  | 22 => ⟨S8192, .i1⟩
  | 23 => ⟨S_, .i32⟩
  | 24 => ⟨S8192, .i32⟩
  | 25 => ⟨S8192, .i32⟩
  | 26 => ⟨S8192, .i32⟩
  | 27 => ⟨S8192x1, .i32⟩
  | 28 => ⟨S8192x512, .f32⟩
  | 29 => ⟨S8192x512, .f32⟩
  | 30 => ⟨S8192x1, .f32⟩
  | 31 => ⟨S8192x512, .f32⟩
  | 32 => ⟨S8192x512, .f32⟩
  | 33 => ⟨S_, .f32⟩
  | 34 => ⟨S8192x512, .f32⟩
  | 35 => ⟨S_, .i32⟩
  | 36 => ⟨S8192, .i32⟩
  | 37 => ⟨S8192, .i1⟩
  | 38 => ⟨S_, .i32⟩
  | 39 => ⟨S8192, .i32⟩
  | 40 => ⟨S8192, .i32⟩
  | 41 => ⟨S8192, .i32⟩
  | 42 => ⟨S8192x1, .i32⟩
  | 43 => ⟨S8192x512, .f32⟩
  | 44 => ⟨S8192x1, .f32⟩
  | 45 => ⟨S8192x512, .f32⟩
  | 46 => ⟨S8192x512, .f32⟩
  | 47 => ⟨S1x512, .f32⟩
  | 48 => ⟨S512x1, .f32⟩
  | 49 => ⟨S512x512, .f32⟩
  | 50 => ⟨S8192x512, .f32⟩
  | 51 => ⟨S_, .i32⟩
  | 52 => ⟨S8192, .i32⟩
  | 53 => ⟨S8192, .i1⟩
  | 54 => ⟨S_, .i32⟩
  | 55 => ⟨S8192, .i32⟩
  | 56 => ⟨S8192, .i32⟩
  | 57 => ⟨S8192, .i32⟩
  | 58 => ⟨S8192x1, .i32⟩
  | 59 => ⟨S8192x512, .f32⟩
  | 60 => ⟨S1x1x512x1, .f32⟩
  | 61 => ⟨S512x1, .f32⟩
  | 62 => ⟨S8192x1, .f32⟩
  | 63 => ⟨S_, .i32⟩
  | 64 => ⟨S8192, .i32⟩
  | 65 => ⟨S8192, .i1⟩
  | 66 => ⟨S_, .i32⟩
  | 67 => ⟨S8192, .i32⟩
  | 68 => ⟨S8192, .i32⟩
  | 69 => ⟨S8192, .i32⟩
  | 70 => ⟨S8192x1, .i32⟩
  | 71 => ⟨S8192x512, .f32⟩
  | 72 => ⟨S1x1x512x1, .f32⟩
  | 73 => ⟨S512x1, .f32⟩
  | 74 => ⟨S8192x1, .f32⟩
  | 75 => ⟨S8192x1, .f32⟩
  | 76 => ⟨S8192, .f32⟩
  | 77 => ⟨S_, .f32⟩
  | 78 => ⟨S_, .f32⟩
  | 79 => ⟨S8192, .f32⟩
  | 80 => ⟨S8192, .i1⟩
  | 81 => ⟨S_, .f32⟩
  | 82 => ⟨S8192, .f32⟩
  | 83 => ⟨S8192, .f32⟩
  | 84 => ⟨S8192, .f32⟩
  | 85 => ⟨S8192, .f32⟩
  | 86 => ⟨S8192, .f32⟩
  | 87 => ⟨S_, .f32⟩
  | 88 => ⟨S4096, .f32⟩
  | 89 => ⟨S_, .i32⟩
  | 90 => ⟨S8192, .i32⟩
  | 91 => ⟨S8192, .i1⟩
  | 92 => ⟨S_, .i32⟩
  | 93 => ⟨S8192, .i32⟩
  | 94 => ⟨S8192, .i32⟩
  | 95 => ⟨S8192, .i32⟩
  | 96 => ⟨S8192x1, .i32⟩
  | 97 => ⟨S4096, .f32⟩
  | 98 => ⟨S_, .i32⟩
  | 99 => ⟨S8192, .i32⟩
  | 100 => ⟨S8192, .i1⟩
  | 101 => ⟨S_, .i32⟩
  | 102 => ⟨S8192, .i32⟩
  | 103 => ⟨S8192, .i32⟩
  | 104 => ⟨S8192, .i32⟩
  | 105 => ⟨S8192x1, .i32⟩
  | 106 => ⟨S8192x512, .f32⟩
  | 107 => ⟨S_, .i32⟩
  | 108 => ⟨S8192, .i32⟩
  | 109 => ⟨S8192, .i1⟩
  | 110 => ⟨S_, .i32⟩
  | 111 => ⟨S8192, .i32⟩
  | 112 => ⟨S8192, .i32⟩
  | 113 => ⟨S8192, .i32⟩
  | 114 => ⟨S8192x1, .i32⟩
  | 115 => ⟨S8192x512, .f32⟩
  | 116 => ⟨S8192x512, .f32⟩
  | 117 => ⟨S8192x1, .f32⟩
  | 118 => ⟨S8192x512, .f32⟩
  | 119 => ⟨S8192x512, .f32⟩
  | 120 => ⟨S_, .f32⟩
  | 121 => ⟨S4096x512, .f32⟩
  | 122 => ⟨S_, .i32⟩
  | 123 => ⟨S8192, .i32⟩
  | 124 => ⟨S8192, .i1⟩
  | 125 => ⟨S_, .i32⟩
  | 126 => ⟨S8192, .i32⟩
  | 127 => ⟨S8192, .i32⟩
  | _ => ⟨S4096x512, .f32⟩

abbrev hbmTy0_1 (i : Nat) : BufTy := match i % 128 with
  | 0 => ⟨S8192, .i32⟩
  | 1 => ⟨S8192x1, .i32⟩
  | 2 => ⟨S4096x512, .f32⟩
  | 3 => ⟨S4096x1, .f32⟩
  | 4 => ⟨S4096x512, .f32⟩
  | 5 => ⟨S4096x512, .f32⟩
  | 6 => ⟨S1x1x512, .f32⟩
  | 7 => ⟨S1x512, .f32⟩
  | 8 => ⟨S4096x512, .f32⟩
  | 9 => ⟨S4096x512, .f32⟩
  | 10 => ⟨S_, .i32⟩
  | 11 => ⟨S8192, .i32⟩
  | 12 => ⟨S8192, .i1⟩
  | 13 => ⟨S_, .i32⟩
  | 14 => ⟨S8192, .i32⟩
  | 15 => ⟨S8192, .i32⟩
  | 16 => ⟨S8192, .i32⟩
  | 17 => ⟨S8192x1, .i32⟩
  | 18 => ⟨S8192x512, .f32⟩
  | 19 => ⟨S1x1x512x1, .f32⟩
  | 20 => ⟨S512x1, .f32⟩
  | 21 => ⟨S8192x1, .f32⟩
  | 22 => ⟨S_, .i32⟩
  | 23 => ⟨S8192, .i32⟩
  | 24 => ⟨S8192, .i1⟩
  | 25 => ⟨S_, .i32⟩
  | 26 => ⟨S8192, .i32⟩
  | 27 => ⟨S8192, .i32⟩
  | 28 => ⟨S8192, .i32⟩
  | 29 => ⟨S8192x1, .i32⟩
  | 30 => ⟨S8192x512, .f32⟩
  | 31 => ⟨S1x1x512x1, .f32⟩
  | 32 => ⟨S512x1, .f32⟩
  | 33 => ⟨S8192x1, .f32⟩
  | 34 => ⟨S8192x1, .f32⟩
  | 35 => ⟨S8192, .f32⟩
  | 36 => ⟨S_, .f32⟩
  | 37 => ⟨S_, .f32⟩
  | 38 => ⟨S8192, .f32⟩
  | 39 => ⟨S8192, .i1⟩
  | 40 => ⟨S_, .f32⟩
  | 41 => ⟨S8192, .f32⟩
  | 42 => ⟨S8192, .f32⟩
  | 43 => ⟨S8192, .f32⟩
  | 44 => ⟨S8192, .f32⟩
  | 45 => ⟨S8192, .f32⟩
  | 46 => ⟨S_, .f32⟩
  | 47 => ⟨S4096, .f32⟩
  | 48 => ⟨S_, .i32⟩
  | 49 => ⟨S8192, .i32⟩
  | 50 => ⟨S8192, .i1⟩
  | 51 => ⟨S_, .i32⟩
  | 52 => ⟨S8192, .i32⟩
  | 53 => ⟨S8192, .i32⟩
  | 54 => ⟨S8192, .i32⟩
  | 55 => ⟨S8192x1, .i32⟩
  | 56 => ⟨S4096, .f32⟩
  | 57 => ⟨S_, .i32⟩
  | 58 => ⟨S8192, .i32⟩
  | 59 => ⟨S8192, .i1⟩
  | 60 => ⟨S_, .i32⟩
  | 61 => ⟨S8192, .i32⟩
  | 62 => ⟨S8192, .i32⟩
  | 63 => ⟨S8192, .i32⟩
  | 64 => ⟨S8192x1, .i32⟩
  | 65 => ⟨S8192x512, .f32⟩
  | 66 => ⟨S_, .i32⟩
  | 67 => ⟨S8192, .i32⟩
  | 68 => ⟨S8192, .i1⟩
  | 69 => ⟨S_, .i32⟩
  | 70 => ⟨S8192, .i32⟩
  | 71 => ⟨S8192, .i32⟩
  | 72 => ⟨S8192, .i32⟩
  | 73 => ⟨S8192x1, .i32⟩
  | 74 => ⟨S8192x512, .f32⟩
  | 75 => ⟨S8192x512, .f32⟩
  | 76 => ⟨S8192x1, .f32⟩
  | 77 => ⟨S8192x512, .f32⟩
  | 78 => ⟨S8192x512, .f32⟩
  | 79 => ⟨S_, .f32⟩
  | 80 => ⟨S4096x512, .f32⟩
  | 81 => ⟨S_, .i32⟩
  | 82 => ⟨S8192, .i32⟩
  | 83 => ⟨S8192, .i1⟩
  | 84 => ⟨S_, .i32⟩
  | 85 => ⟨S8192, .i32⟩
  | 86 => ⟨S8192, .i32⟩
  | 87 => ⟨S8192, .i32⟩
  | 88 => ⟨S8192x1, .i32⟩
  | 89 => ⟨S4096x512, .f32⟩
  | 90 => ⟨S4096x1, .f32⟩
  | 91 => ⟨S4096x512, .f32⟩
  | 92 => ⟨S4096x512, .f32⟩
  | 93 => ⟨S1x1x512, .f32⟩
  | 94 => ⟨S1x512, .f32⟩
  | 95 => ⟨S4096x512, .f32⟩
  | 96 => ⟨S4096x512, .f32⟩
  | 97 => ⟨S_, .i32⟩
  | 98 => ⟨S8192, .i32⟩
  | 99 => ⟨S8192, .i1⟩
  | 100 => ⟨S_, .i32⟩
  | 101 => ⟨S8192, .i32⟩
  | 102 => ⟨S8192, .i32⟩
  | 103 => ⟨S8192, .i32⟩
  | 104 => ⟨S8192x1, .i32⟩
  | 105 => ⟨S8192x512, .f32⟩
  | 106 => ⟨S1x1x512x1, .f32⟩
  | 107 => ⟨S512x1, .f32⟩
  | 108 => ⟨S8192x1, .f32⟩
  | 109 => ⟨S_, .i32⟩
  | 110 => ⟨S8192, .i32⟩
  | 111 => ⟨S8192, .i1⟩
  | 112 => ⟨S_, .i32⟩
  | 113 => ⟨S8192, .i32⟩
  | 114 => ⟨S8192, .i32⟩
  | 115 => ⟨S8192, .i32⟩
  | 116 => ⟨S8192x1, .i32⟩
  | 117 => ⟨S8192x512, .f32⟩
  | 118 => ⟨S1x1x512x1, .f32⟩
  | 119 => ⟨S512x1, .f32⟩
  | 120 => ⟨S8192x1, .f32⟩
  | 121 => ⟨S8192x1, .f32⟩
  | 122 => ⟨S8192, .f32⟩
  | 123 => ⟨S_, .f32⟩
  | 124 => ⟨S_, .f32⟩
  | 125 => ⟨S8192, .f32⟩
  | 126 => ⟨S8192, .i1⟩
  | 127 => ⟨S_, .f32⟩
  | _ => ⟨S4096x512, .f32⟩

abbrev hbmTy0_2 (i : Nat) : BufTy := match i % 128 with
  | 0 => ⟨S8192, .f32⟩
  | 1 => ⟨S8192, .f32⟩
  | 2 => ⟨S8192, .f32⟩
  | 3 => ⟨S8192, .f32⟩
  | 4 => ⟨S8192, .f32⟩
  | 5 => ⟨S_, .f32⟩
  | 6 => ⟨S4096, .f32⟩
  | 7 => ⟨S_, .i32⟩
  | 8 => ⟨S8192, .i32⟩
  | 9 => ⟨S8192, .i1⟩
  | 10 => ⟨S_, .i32⟩
  | 11 => ⟨S8192, .i32⟩
  | 12 => ⟨S8192, .i32⟩
  | 13 => ⟨S8192, .i32⟩
  | 14 => ⟨S8192x1, .i32⟩
  | 15 => ⟨S4096, .f32⟩
  | 16 => ⟨S_, .i32⟩
  | 17 => ⟨S8192, .i32⟩
  | 18 => ⟨S8192, .i1⟩
  | 19 => ⟨S_, .i32⟩
  | 20 => ⟨S8192, .i32⟩
  | 21 => ⟨S8192, .i32⟩
  | 22 => ⟨S8192, .i32⟩
  | 23 => ⟨S8192x1, .i32⟩
  | 24 => ⟨S8192x512, .f32⟩
  | 25 => ⟨S_, .i32⟩
  | 26 => ⟨S8192, .i32⟩
  | 27 => ⟨S8192, .i1⟩
  | 28 => ⟨S_, .i32⟩
  | 29 => ⟨S8192, .i32⟩
  | 30 => ⟨S8192, .i32⟩
  | 31 => ⟨S8192, .i32⟩
  | 32 => ⟨S8192x1, .i32⟩
  | 33 => ⟨S8192x512, .f32⟩
  | 34 => ⟨S8192x512, .f32⟩
  | 35 => ⟨S8192x1, .f32⟩
  | 36 => ⟨S8192x512, .f32⟩
  | 37 => ⟨S8192x512, .f32⟩
  | 38 => ⟨S_, .f32⟩
  | 39 => ⟨S4096x512, .f32⟩
  | 40 => ⟨S_, .i32⟩
  | 41 => ⟨S8192, .i32⟩
  | 42 => ⟨S8192, .i1⟩
  | 43 => ⟨S_, .i32⟩
  | 44 => ⟨S8192, .i32⟩
  | 45 => ⟨S8192, .i32⟩
  | 46 => ⟨S8192, .i32⟩
  | 47 => ⟨S8192x1, .i32⟩
  | 48 => ⟨S4096x512, .f32⟩
  | 49 => ⟨S4096x1, .f32⟩
  | 50 => ⟨S4096x512, .f32⟩
  | 51 => ⟨S4096x512, .f32⟩
  | 52 => ⟨S1x1x512, .f32⟩
  | 53 => ⟨S1x512, .f32⟩
  | 54 => ⟨S4096x512, .f32⟩
  | 55 => ⟨S4096x512, .f32⟩
  | 56 => ⟨S_, .i32⟩
  | 57 => ⟨S8192, .i32⟩
  | 58 => ⟨S8192, .i1⟩
  | 59 => ⟨S_, .i32⟩
  | 60 => ⟨S8192, .i32⟩
  | 61 => ⟨S8192, .i32⟩
  | 62 => ⟨S8192, .i32⟩
  | 63 => ⟨S8192x1, .i32⟩
  | 64 => ⟨S8192x512, .f32⟩
  | 65 => ⟨S1x1x512x1, .f32⟩
  | 66 => ⟨S512x1, .f32⟩
  | 67 => ⟨S8192x1, .f32⟩
  | 68 => ⟨S_, .i32⟩
  | 69 => ⟨S8192, .i32⟩
  | 70 => ⟨S8192, .i1⟩
  | 71 => ⟨S_, .i32⟩
  | 72 => ⟨S8192, .i32⟩
  | 73 => ⟨S8192, .i32⟩
  | 74 => ⟨S8192, .i32⟩
  | 75 => ⟨S8192x1, .i32⟩
  | 76 => ⟨S8192x512, .f32⟩
  | 77 => ⟨S1x1x512x1, .f32⟩
  | 78 => ⟨S512x1, .f32⟩
  | 79 => ⟨S8192x1, .f32⟩
  | 80 => ⟨S8192x1, .f32⟩
  | 81 => ⟨S8192, .f32⟩
  | 82 => ⟨S_, .f32⟩
  | 83 => ⟨S_, .f32⟩
  | 84 => ⟨S8192, .f32⟩
  | 85 => ⟨S8192, .i1⟩
  | 86 => ⟨S_, .f32⟩
  | 87 => ⟨S8192, .f32⟩
  | 88 => ⟨S8192, .f32⟩
  | 89 => ⟨S8192, .f32⟩
  | 90 => ⟨S8192, .f32⟩
  | 91 => ⟨S8192, .f32⟩
  | 92 => ⟨S_, .f32⟩
  | 93 => ⟨S4096, .f32⟩
  | 94 => ⟨S_, .i32⟩
  | 95 => ⟨S8192, .i32⟩
  | 96 => ⟨S8192, .i1⟩
  | 97 => ⟨S_, .i32⟩
  | 98 => ⟨S8192, .i32⟩
  | 99 => ⟨S8192, .i32⟩
  | 100 => ⟨S8192, .i32⟩
  | 101 => ⟨S8192x1, .i32⟩
  | 102 => ⟨S4096, .f32⟩
  | 103 => ⟨S_, .i32⟩
  | 104 => ⟨S8192, .i32⟩
  | 105 => ⟨S8192, .i1⟩
  | 106 => ⟨S_, .i32⟩
  | 107 => ⟨S8192, .i32⟩
  | 108 => ⟨S8192, .i32⟩
  | 109 => ⟨S8192, .i32⟩
  | 110 => ⟨S8192x1, .i32⟩
  | 111 => ⟨S8192x512, .f32⟩
  | 112 => ⟨S_, .i32⟩
  | 113 => ⟨S8192, .i32⟩
  | 114 => ⟨S8192, .i1⟩
  | 115 => ⟨S_, .i32⟩
  | 116 => ⟨S8192, .i32⟩
  | 117 => ⟨S8192, .i32⟩
  | 118 => ⟨S8192, .i32⟩
  | 119 => ⟨S8192x1, .i32⟩
  | 120 => ⟨S8192x512, .f32⟩
  | 121 => ⟨S8192x512, .f32⟩
  | 122 => ⟨S8192x1, .f32⟩
  | 123 => ⟨S8192x512, .f32⟩
  | 124 => ⟨S8192x512, .f32⟩
  | 125 => ⟨S_, .f32⟩
  | 126 => ⟨S4096x512, .f32⟩
  | 127 => ⟨S_, .i32⟩
  | _ => ⟨S4096x512, .f32⟩

abbrev hbmTy0_3 (i : Nat) : BufTy := match i % 128 with
  | 0 => ⟨S8192, .i32⟩
  | 1 => ⟨S8192, .i1⟩
  | 2 => ⟨S_, .i32⟩
  | 3 => ⟨S8192, .i32⟩
  | 4 => ⟨S8192, .i32⟩
  | 5 => ⟨S8192, .i32⟩
  | 6 => ⟨S8192x1, .i32⟩
  | 7 => ⟨S4096x512, .f32⟩
  | 8 => ⟨S4096x1, .f32⟩
  | 9 => ⟨S4096x512, .f32⟩
  | 10 => ⟨S4096x512, .f32⟩
  | 11 => ⟨S1x4096x512, .f32⟩
  | 12 => ⟨S1x4096x512, .f32⟩
  | 13 => ⟨S1x4096x512, .f32⟩
  | 14 => ⟨S1x4096x512, .f32⟩
  | 15 => ⟨S4x4096x512, .f32⟩
  | _ => ⟨S4096x512, .f32⟩

abbrev hbmTy (i : Nat) : BufTy := match i / 128 with
  | 0 => hbmTy0_0 i
  | 1 => hbmTy0_1 i
  | 2 => hbmTy0_2 i
  | 3 => hbmTy0_3 i
  | _ => ⟨S4096x512, .f32⟩

abbrev bufTy : (tb : Table) → Fin (tcTables nBuf tb) → BufTy
  | .hbm, ⟨i, _⟩ => hbmTy i
  | .local _ .vmem, ⟨0, _⟩ => ⟨S2048x512, .f32⟩
  | .local _ .vmem, ⟨1, _⟩ => ⟨S2048x512, .f32⟩
  | .local _ .vmem, ⟨2, _⟩ => ⟨S1x512, .f32⟩
  | .local _ .vmem, ⟨3, _⟩ => ⟨S1x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S512x1, .f32⟩
  | .local _ .vmem, ⟨9, _⟩ => ⟨S512x512, .f32⟩
  | .local _ .vmem, ⟨10, _⟩ => ⟨S512x512, .f32⟩
  | .local _ .vmem, ⟨11, _⟩ => ⟨S2048x512, .f32⟩
  | .local _ .vmem, ⟨12, _⟩ => ⟨S2048x512, .f32⟩
  | .local _ .vmem, ⟨13, _⟩ => ⟨S512x512, .f32⟩
  | .local _ .vmem, ⟨14, _⟩ => ⟨S2048x512, .f32⟩
  | .local _ .vmem, ⟨15, _⟩ => ⟨S2048x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst : Ref sig .tc := ⟨.hbm, 33, rfl⟩
abbrev main_v24 : Ref sig .tc := ⟨.hbm, 34, rfl⟩
abbrev main_c_3 : Ref sig .tc := ⟨.hbm, 35, rfl⟩
abbrev main_v25 : Ref sig .tc := ⟨.hbm, 36, rfl⟩
abbrev main_v26 : Ref sig .tc := ⟨.hbm, 37, rfl⟩
abbrev main_c_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_c_5 : Ref sig .tc := ⟨.hbm, 51, rfl⟩
abbrev main_v39 : Ref sig .tc := ⟨.hbm, 52, rfl⟩
abbrev main_v40 : Ref sig .tc := ⟨.hbm, 53, rfl⟩
abbrev main_c_6 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_c_7 : Ref sig .tc := ⟨.hbm, 63, rfl⟩
abbrev main_v49 : Ref sig .tc := ⟨.hbm, 64, rfl⟩
abbrev main_v50 : Ref sig .tc := ⟨.hbm, 65, rfl⟩
abbrev main_c_8 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_9 : Ref sig .tc := ⟨.hbm, 77, rfl⟩
abbrev main_call0_cst : Ref sig .tc := ⟨.hbm, 78, rfl⟩
abbrev main_call0_v0 : Ref sig .tc := ⟨.hbm, 79, rfl⟩
abbrev main_call0_v1 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_10 : Ref sig .tc := ⟨.hbm, 87, rfl⟩
abbrev main_v64 : Ref sig .tc := ⟨.hbm, 88, rfl⟩
abbrev main_c_11 : Ref sig .tc := ⟨.hbm, 89, rfl⟩
abbrev main_v65 : Ref sig .tc := ⟨.hbm, 90, rfl⟩
abbrev main_v66 : Ref sig .tc := ⟨.hbm, 91, rfl⟩
abbrev main_c_12 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_c_13 : Ref sig .tc := ⟨.hbm, 98, rfl⟩
abbrev main_v72 : Ref sig .tc := ⟨.hbm, 99, rfl⟩
abbrev main_v73 : Ref sig .tc := ⟨.hbm, 100, rfl⟩
abbrev main_c_14 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_c_15 : Ref sig .tc := ⟨.hbm, 107, rfl⟩
abbrev main_v79 : Ref sig .tc := ⟨.hbm, 108, rfl⟩
abbrev main_v80 : Ref sig .tc := ⟨.hbm, 109, rfl⟩
abbrev main_c_16 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_17 : Ref sig .tc := ⟨.hbm, 120, rfl⟩
abbrev main_v90 : Ref sig .tc := ⟨.hbm, 121, rfl⟩
abbrev main_c_18 : Ref sig .tc := ⟨.hbm, 122, rfl⟩
abbrev main_v91 : Ref sig .tc := ⟨.hbm, 123, rfl⟩
abbrev main_v92 : Ref sig .tc := ⟨.hbm, 124, rfl⟩
abbrev main_c_19 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_c_20 : Ref sig .tc := ⟨.hbm, 138, rfl⟩
abbrev main_v105 : Ref sig .tc := ⟨.hbm, 139, rfl⟩
abbrev main_v106 : Ref sig .tc := ⟨.hbm, 140, rfl⟩
abbrev main_c_21 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_c_22 : Ref sig .tc := ⟨.hbm, 150, rfl⟩
abbrev main_v115 : Ref sig .tc := ⟨.hbm, 151, rfl⟩
abbrev main_v116 : Ref sig .tc := ⟨.hbm, 152, rfl⟩
abbrev main_c_23 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_cst_24 : Ref sig .tc := ⟨.hbm, 164, rfl⟩
abbrev main_call1_cst : Ref sig .tc := ⟨.hbm, 165, rfl⟩
abbrev main_call1_v0 : Ref sig .tc := ⟨.hbm, 166, rfl⟩
abbrev main_call1_v1 : Ref sig .tc := ⟨.hbm, 167, rfl⟩
abbrev main_call1_v2 : Ref sig .tc := ⟨.hbm, 168, rfl⟩
abbrev main_call1_v3 : Ref sig .tc := ⟨.hbm, 169, rfl⟩
abbrev main_call1_v4 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_cst_25 : Ref sig .tc := ⟨.hbm, 174, rfl⟩
abbrev main_v130 : Ref sig .tc := ⟨.hbm, 175, rfl⟩
abbrev main_c_26 : Ref sig .tc := ⟨.hbm, 176, rfl⟩
abbrev main_v131 : Ref sig .tc := ⟨.hbm, 177, rfl⟩
abbrev main_v132 : Ref sig .tc := ⟨.hbm, 178, rfl⟩
abbrev main_c_27 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_c_28 : Ref sig .tc := ⟨.hbm, 185, rfl⟩
abbrev main_v138 : Ref sig .tc := ⟨.hbm, 186, rfl⟩
abbrev main_v139 : Ref sig .tc := ⟨.hbm, 187, rfl⟩
abbrev main_c_29 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_c_30 : Ref sig .tc := ⟨.hbm, 194, rfl⟩
abbrev main_v145 : Ref sig .tc := ⟨.hbm, 195, rfl⟩
abbrev main_v146 : Ref sig .tc := ⟨.hbm, 196, rfl⟩
abbrev main_c_31 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_cst_32 : Ref sig .tc := ⟨.hbm, 207, rfl⟩
abbrev main_v156 : Ref sig .tc := ⟨.hbm, 208, rfl⟩
abbrev main_c_33 : Ref sig .tc := ⟨.hbm, 209, rfl⟩
abbrev main_v157 : Ref sig .tc := ⟨.hbm, 210, rfl⟩
abbrev main_v158 : Ref sig .tc := ⟨.hbm, 211, rfl⟩
abbrev main_c_34 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_c_35 : Ref sig .tc := ⟨.hbm, 225, rfl⟩
abbrev main_v171 : Ref sig .tc := ⟨.hbm, 226, rfl⟩
abbrev main_v172 : Ref sig .tc := ⟨.hbm, 227, rfl⟩
abbrev main_c_36 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_c_37 : Ref sig .tc := ⟨.hbm, 237, rfl⟩
abbrev main_v181 : Ref sig .tc := ⟨.hbm, 238, rfl⟩
abbrev main_v182 : Ref sig .tc := ⟨.hbm, 239, rfl⟩
abbrev main_c_38 : Ref sig .tc := ⟨.hbm, 240, rfl⟩
abbrev main_v183 : Ref sig .tc := ⟨.hbm, 241, rfl⟩
abbrev main_v184 : Ref sig .tc := ⟨.hbm, 242, rfl⟩
abbrev main_v185 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_cst_39 : Ref sig .tc := ⟨.hbm, 251, rfl⟩
abbrev main_call2_cst : Ref sig .tc := ⟨.hbm, 252, rfl⟩
abbrev main_call2_v0 : Ref sig .tc := ⟨.hbm, 253, rfl⟩
abbrev main_call2_v1 : Ref sig .tc := ⟨.hbm, 254, rfl⟩
abbrev main_call2_v2 : Ref sig .tc := ⟨.hbm, 255, rfl⟩
abbrev main_call2_v3 : Ref sig .tc := ⟨.hbm, 256, rfl⟩
abbrev main_call2_v4 : Ref sig .tc := ⟨.hbm, 257, rfl⟩
abbrev main_v193 : Ref sig .tc := ⟨.hbm, 258, rfl⟩
abbrev main_v194 : Ref sig .tc := ⟨.hbm, 259, rfl⟩
abbrev main_v195 : Ref sig .tc := ⟨.hbm, 260, rfl⟩
abbrev main_cst_40 : Ref sig .tc := ⟨.hbm, 261, rfl⟩
abbrev main_v196 : Ref sig .tc := ⟨.hbm, 262, rfl⟩
abbrev main_c_41 : Ref sig .tc := ⟨.hbm, 263, rfl⟩
abbrev main_v197 : Ref sig .tc := ⟨.hbm, 264, rfl⟩
abbrev main_v198 : Ref sig .tc := ⟨.hbm, 265, rfl⟩
abbrev main_c_42 : Ref sig .tc := ⟨.hbm, 266, rfl⟩
abbrev main_v199 : Ref sig .tc := ⟨.hbm, 267, rfl⟩
abbrev main_v200 : Ref sig .tc := ⟨.hbm, 268, rfl⟩
abbrev main_v201 : Ref sig .tc := ⟨.hbm, 269, rfl⟩
abbrev main_v202 : Ref sig .tc := ⟨.hbm, 270, rfl⟩
abbrev main_v203 : Ref sig .tc := ⟨.hbm, 271, rfl⟩
abbrev main_c_43 : Ref sig .tc := ⟨.hbm, 272, rfl⟩
abbrev main_v204 : Ref sig .tc := ⟨.hbm, 273, rfl⟩
abbrev main_v205 : Ref sig .tc := ⟨.hbm, 274, rfl⟩
abbrev main_c_44 : Ref sig .tc := ⟨.hbm, 275, rfl⟩
abbrev main_v206 : Ref sig .tc := ⟨.hbm, 276, rfl⟩
abbrev main_v207 : Ref sig .tc := ⟨.hbm, 277, rfl⟩
abbrev main_v208 : Ref sig .tc := ⟨.hbm, 278, rfl⟩
abbrev main_v209 : Ref sig .tc := ⟨.hbm, 279, rfl⟩
abbrev main_v210 : Ref sig .tc := ⟨.hbm, 280, rfl⟩
abbrev main_c_45 : Ref sig .tc := ⟨.hbm, 281, rfl⟩
abbrev main_v211 : Ref sig .tc := ⟨.hbm, 282, rfl⟩
abbrev main_v212 : Ref sig .tc := ⟨.hbm, 283, rfl⟩
abbrev main_c_46 : Ref sig .tc := ⟨.hbm, 284, rfl⟩
abbrev main_v213 : Ref sig .tc := ⟨.hbm, 285, rfl⟩
abbrev main_v214 : Ref sig .tc := ⟨.hbm, 286, rfl⟩
abbrev main_v215 : Ref sig .tc := ⟨.hbm, 287, rfl⟩
abbrev main_v216 : Ref sig .tc := ⟨.hbm, 288, rfl⟩
abbrev main_v217 : Ref sig .tc := ⟨.hbm, 289, rfl⟩
abbrev main_v218 : Ref sig .tc := ⟨.hbm, 290, rfl⟩
abbrev main_v219 : Ref sig .tc := ⟨.hbm, 291, rfl⟩
abbrev main_v220 : Ref sig .tc := ⟨.hbm, 292, rfl⟩
abbrev main_v221 : Ref sig .tc := ⟨.hbm, 293, rfl⟩
abbrev main_cst_47 : Ref sig .tc := ⟨.hbm, 294, rfl⟩
abbrev main_v222 : Ref sig .tc := ⟨.hbm, 295, rfl⟩
abbrev main_c_48 : Ref sig .tc := ⟨.hbm, 296, rfl⟩
abbrev main_v223 : Ref sig .tc := ⟨.hbm, 297, rfl⟩
abbrev main_v224 : Ref sig .tc := ⟨.hbm, 298, rfl⟩
abbrev main_c_49 : Ref sig .tc := ⟨.hbm, 299, rfl⟩
abbrev main_v225 : Ref sig .tc := ⟨.hbm, 300, rfl⟩
abbrev main_v226 : Ref sig .tc := ⟨.hbm, 301, rfl⟩
abbrev main_v227 : Ref sig .tc := ⟨.hbm, 302, rfl⟩
abbrev main_v228 : Ref sig .tc := ⟨.hbm, 303, rfl⟩
abbrev main_v229 : Ref sig .tc := ⟨.hbm, 304, rfl⟩
abbrev main_v230 : Ref sig .tc := ⟨.hbm, 305, rfl⟩
abbrev main_v231 : Ref sig .tc := ⟨.hbm, 306, rfl⟩
abbrev main_v232 : Ref sig .tc := ⟨.hbm, 307, rfl⟩
abbrev main_v233 : Ref sig .tc := ⟨.hbm, 308, rfl⟩
abbrev main_v234 : Ref sig .tc := ⟨.hbm, 309, rfl⟩
abbrev main_v235 : Ref sig .tc := ⟨.hbm, 310, rfl⟩
abbrev main_v236 : Ref sig .tc := ⟨.hbm, 311, rfl⟩
abbrev main_c_50 : Ref sig .tc := ⟨.hbm, 312, rfl⟩
abbrev main_v237 : Ref sig .tc := ⟨.hbm, 313, rfl⟩
abbrev main_v238 : Ref sig .tc := ⟨.hbm, 314, rfl⟩
abbrev main_c_51 : Ref sig .tc := ⟨.hbm, 315, rfl⟩
abbrev main_v239 : Ref sig .tc := ⟨.hbm, 316, rfl⟩
abbrev main_v240 : Ref sig .tc := ⟨.hbm, 317, rfl⟩
abbrev main_v241 : Ref sig .tc := ⟨.hbm, 318, rfl⟩
abbrev main_v242 : Ref sig .tc := ⟨.hbm, 319, rfl⟩
abbrev main_v243 : Ref sig .tc := ⟨.hbm, 320, rfl⟩
abbrev main_v244 : Ref sig .tc := ⟨.hbm, 321, rfl⟩
abbrev main_v245 : Ref sig .tc := ⟨.hbm, 322, rfl⟩
abbrev main_v246 : Ref sig .tc := ⟨.hbm, 323, rfl⟩
abbrev main_c_52 : Ref sig .tc := ⟨.hbm, 324, rfl⟩
abbrev main_v247 : Ref sig .tc := ⟨.hbm, 325, rfl⟩
abbrev main_v248 : Ref sig .tc := ⟨.hbm, 326, rfl⟩
abbrev main_c_53 : Ref sig .tc := ⟨.hbm, 327, rfl⟩
abbrev main_v249 : Ref sig .tc := ⟨.hbm, 328, rfl⟩
abbrev main_v250 : Ref sig .tc := ⟨.hbm, 329, rfl⟩
abbrev main_v251 : Ref sig .tc := ⟨.hbm, 330, rfl⟩
abbrev main_v252 : Ref sig .tc := ⟨.hbm, 331, rfl⟩
abbrev main_v253 : Ref sig .tc := ⟨.hbm, 332, rfl⟩
abbrev main_v254 : Ref sig .tc := ⟨.hbm, 333, rfl⟩
abbrev main_v255 : Ref sig .tc := ⟨.hbm, 334, rfl⟩
abbrev main_v256 : Ref sig .tc := ⟨.hbm, 335, rfl⟩
abbrev main_v257 : Ref sig .tc := ⟨.hbm, 336, rfl⟩
abbrev main_v258 : Ref sig .tc := ⟨.hbm, 337, rfl⟩
abbrev main_cst_54 : Ref sig .tc := ⟨.hbm, 338, rfl⟩
abbrev main_call3_cst : Ref sig .tc := ⟨.hbm, 339, rfl⟩
abbrev main_call3_v0 : Ref sig .tc := ⟨.hbm, 340, rfl⟩
abbrev main_call3_v1 : Ref sig .tc := ⟨.hbm, 341, rfl⟩
abbrev main_call3_v2 : Ref sig .tc := ⟨.hbm, 342, rfl⟩
abbrev main_call3_v3 : Ref sig .tc := ⟨.hbm, 343, rfl⟩
abbrev main_call3_v4 : Ref sig .tc := ⟨.hbm, 344, rfl⟩
abbrev main_v259 : Ref sig .tc := ⟨.hbm, 345, rfl⟩
abbrev main_v260 : Ref sig .tc := ⟨.hbm, 346, rfl⟩
abbrev main_v261 : Ref sig .tc := ⟨.hbm, 347, rfl⟩
abbrev main_cst_55 : Ref sig .tc := ⟨.hbm, 348, rfl⟩
abbrev main_v262 : Ref sig .tc := ⟨.hbm, 349, rfl⟩
abbrev main_c_56 : Ref sig .tc := ⟨.hbm, 350, rfl⟩
abbrev main_v263 : Ref sig .tc := ⟨.hbm, 351, rfl⟩
abbrev main_v264 : Ref sig .tc := ⟨.hbm, 352, rfl⟩
abbrev main_c_57 : Ref sig .tc := ⟨.hbm, 353, rfl⟩
abbrev main_v265 : Ref sig .tc := ⟨.hbm, 354, rfl⟩
abbrev main_v266 : Ref sig .tc := ⟨.hbm, 355, rfl⟩
abbrev main_v267 : Ref sig .tc := ⟨.hbm, 356, rfl⟩
abbrev main_v268 : Ref sig .tc := ⟨.hbm, 357, rfl⟩
abbrev main_v269 : Ref sig .tc := ⟨.hbm, 358, rfl⟩
abbrev main_c_58 : Ref sig .tc := ⟨.hbm, 359, rfl⟩
abbrev main_v270 : Ref sig .tc := ⟨.hbm, 360, rfl⟩
abbrev main_v271 : Ref sig .tc := ⟨.hbm, 361, rfl⟩
abbrev main_c_59 : Ref sig .tc := ⟨.hbm, 362, rfl⟩
abbrev main_v272 : Ref sig .tc := ⟨.hbm, 363, rfl⟩
abbrev main_v273 : Ref sig .tc := ⟨.hbm, 364, rfl⟩
abbrev main_v274 : Ref sig .tc := ⟨.hbm, 365, rfl⟩
abbrev main_v275 : Ref sig .tc := ⟨.hbm, 366, rfl⟩
abbrev main_v276 : Ref sig .tc := ⟨.hbm, 367, rfl⟩
abbrev main_c_60 : Ref sig .tc := ⟨.hbm, 368, rfl⟩
abbrev main_v277 : Ref sig .tc := ⟨.hbm, 369, rfl⟩
abbrev main_v278 : Ref sig .tc := ⟨.hbm, 370, rfl⟩
abbrev main_c_61 : Ref sig .tc := ⟨.hbm, 371, rfl⟩
abbrev main_v279 : Ref sig .tc := ⟨.hbm, 372, rfl⟩
abbrev main_v280 : Ref sig .tc := ⟨.hbm, 373, rfl⟩
abbrev main_v281 : Ref sig .tc := ⟨.hbm, 374, rfl⟩
abbrev main_v282 : Ref sig .tc := ⟨.hbm, 375, rfl⟩
abbrev main_v283 : Ref sig .tc := ⟨.hbm, 376, rfl⟩
abbrev main_v284 : Ref sig .tc := ⟨.hbm, 377, rfl⟩
abbrev main_v285 : Ref sig .tc := ⟨.hbm, 378, rfl⟩
abbrev main_v286 : Ref sig .tc := ⟨.hbm, 379, rfl⟩
abbrev main_v287 : Ref sig .tc := ⟨.hbm, 380, rfl⟩
abbrev main_cst_62 : Ref sig .tc := ⟨.hbm, 381, rfl⟩
abbrev main_v288 : Ref sig .tc := ⟨.hbm, 382, rfl⟩
abbrev main_c_63 : Ref sig .tc := ⟨.hbm, 383, rfl⟩
abbrev main_v289 : Ref sig .tc := ⟨.hbm, 384, rfl⟩
abbrev main_v290 : Ref sig .tc := ⟨.hbm, 385, rfl⟩
abbrev main_c_64 : Ref sig .tc := ⟨.hbm, 386, rfl⟩
abbrev main_v291 : Ref sig .tc := ⟨.hbm, 387, rfl⟩
abbrev main_v292 : Ref sig .tc := ⟨.hbm, 388, rfl⟩
abbrev main_v293 : Ref sig .tc := ⟨.hbm, 389, rfl⟩
abbrev main_v294 : Ref sig .tc := ⟨.hbm, 390, rfl⟩
abbrev main_v295 : Ref sig .tc := ⟨.hbm, 391, rfl⟩
abbrev main_v296 : Ref sig .tc := ⟨.hbm, 392, rfl⟩
abbrev main_v297 : Ref sig .tc := ⟨.hbm, 393, rfl⟩
abbrev main_v298 : Ref sig .tc := ⟨.hbm, 394, rfl⟩
abbrev main_v299 : Ref sig .tc := ⟨.hbm, 395, rfl⟩
abbrev main_v300 : Ref sig .tc := ⟨.hbm, 396, rfl⟩
abbrev main_v301 : Ref sig .tc := ⟨.hbm, 397, rfl⟩
abbrev main_v302 : Ref sig .tc := ⟨.hbm, 398, rfl⟩
abbrev main_v303 : Ref sig .tc := ⟨.hbm, 399, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_scratch0 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem3_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem2_1 : DmaSem sig := 13

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v12 : BitVec 1 := Scalar.cmpi .eq arg0 c3_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![4], ![false]⟩

def k1_cond2 (i : grid1.Coords) : BitVec 1 :=
  let arg0 : BitVec 32 := BitVec.ofNat 32 (i 0).val
  let c3_i32 : BitVec 32 := 3#32
  let v19 : BitVec 1 := Scalar.cmpi .eq arg0 c3_i32
  let v20 : BitVec 32 := Scalar.extui v19
  let c0_i32_11 : BitVec 32 := 0#32
  let v21 : BitVec 1 := Scalar.cmpi .ne v20 c0_i32_11
  v21

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2048x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S3x8192_S1x8192_0_0 : S3x8192.Slices ![0, 0] S1x8192
  shapeCasts_S1x8192_S8192 : S1x8192.ShapeCasts S8192
  slices_S3x8192_S1x8192_1_0 : S3x8192.Slices ![1, 0] S1x8192
  slices_S3x8192_S1x8192_2_0 : S3x8192.Slices ![2, 0] S1x8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x512_0_1 : S8192x1.BroadcastsInDim S8192x512 (![0, 1] : Fin 2 → Fin S8192x512.rank)
  bcast_S_S8192x512 : S_.BroadcastsInDim S8192x512 (![] : Fin 0 → Fin S8192x512.rank)
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  reduces_S2048x512_S512 : S2048x512.Reduces [0] S512
  shapeCasts_S512_S1x512 : S512.ShapeCasts S1x512
  shapeCasts_S1x512_S512x1 : S1x512.ShapeCasts S512x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S2048x1_S2048x512 : S2048x1.Broadcasts S2048x512
  transposes_S2048x512_p1_0_S512x2048 : S2048x512.Transposes [1, 0] S512x2048
  slices_S4x2x512x1_S1x1x512x1_0_0_0_0 : S4x2x512x1.Slices ![0, 0, 0, 0] S1x1x512x1
  shapeCasts_S1x1x512x1_S512x1 : S1x1x512x1.ShapeCasts S512x1
  slices_S4x2x512x1_S1x1x512x1_0_1_0_0 : S4x2x512x1.Slices ![0, 1, 0, 0] S1x1x512x1
  shapeCasts_S8192x1_S8192 : S8192x1.ShapeCasts S8192
  bcast_S_S4096 : S_.BroadcastsInDim S4096 (![] : Fin 0 → Fin S4096.rank)
  bcast_S_S4096x512 : S_.BroadcastsInDim S4096x512 (![] : Fin 0 → Fin S4096x512.rank)
  bcast_S4096_S4096x1_0 : S4096.BroadcastsInDim S4096x1 (![0] : Fin 1 → Fin S4096x1.rank)
  bcast_S4096x1_S4096x512_0_1 : S4096x1.BroadcastsInDim S4096x512 (![0, 1] : Fin 2 → Fin S4096x512.rank)
  slices_S3x1x512_S1x1x512_0_0_0 : S3x1x512.Slices ![0, 0, 0] S1x1x512
  shapeCasts_S1x1x512_S1x512 : S1x1x512.ShapeCasts S1x512
  bcast_S1x512_S4096x512_0_1 : S1x512.BroadcastsInDim S4096x512 (![0, 1] : Fin 2 → Fin S4096x512.rank)
  slices_S4x2x512x1_S1x1x512x1_1_0_0_0 : S4x2x512x1.Slices ![1, 0, 0, 0] S1x1x512x1
  slices_S4x2x512x1_S1x1x512x1_1_1_0_0 : S4x2x512x1.Slices ![1, 1, 0, 0] S1x1x512x1
  slices_S3x1x512_S1x1x512_1_0_0 : S3x1x512.Slices ![1, 0, 0] S1x1x512
  slices_S4x2x512x1_S1x1x512x1_2_0_0_0 : S4x2x512x1.Slices ![2, 0, 0, 0] S1x1x512x1
  slices_S4x2x512x1_S1x1x512x1_2_1_0_0 : S4x2x512x1.Slices ![2, 1, 0, 0] S1x1x512x1
  slices_S3x1x512_S1x1x512_2_0_0 : S3x1x512.Slices ![2, 0, 0] S1x1x512
  slices_S4x2x512x1_S1x1x512x1_3_0_0_0 : S4x2x512x1.Slices ![3, 0, 0, 0] S1x1x512x1
  slices_S4x2x512x1_S1x1x512x1_3_1_0_0 : S4x2x512x1.Slices ![3, 1, 0, 0] S1x1x512x1
  bcast_S4096x512_S1x4096x512_1_2 : S4096x512.BroadcastsInDim S1x4096x512 (![1, 2] : Fin 2 → Fin S1x4096x512.rank)
  concatenates_S1x4096x512_S1x4096x512_S1x4096x512_S1x4096x512_S4x4096x512_d0 : Shape.Concatenates [S1x4096x512, S1x4096x512, S1x4096x512, S1x4096x512] S4x4096x512 0
  gather_S4096x512_S8192x1_S8192x512_1_0_n_n_0_1_1512_wf : GatherDims.WF S4096x512 S8192x1 S8192x512 [1] [0] [] [0] [] 1 ![1, 512]
  scatter_S8192x512_S8192x1_S8192x512_1_0_0_1_wf : ScatterDims.WF S8192x512 S8192x1 S8192x512 [1] [0] [0] 1
  dot_S2048x512_S512x1_S2048x1_1_0_0_1_n_n_wf : DotDims.WF S2048x512 S512x1 S2048x1 [1] [0] [0] [1] [] []
  dot_S512x2048_S2048x512_S512x512_1_0_0_1_n_n_wf : DotDims.WF S512x2048 S2048x512 S512x512 [1] [0] [0] [1] [] []
  dot_S2048x512_S512x512_S2048x512_1_0_0_1_n_n_wf : DotDims.WF S2048x512 S512x512 S2048x512 [1] [0] [0] [1] [] []
  dot_S8192x512_S512x1_S8192x1_1_0_0_1_n_n_wf : DotDims.WF S8192x512 S512x1 S8192x1 [1] [0] [0] [1] [] []
  gather_S8192x512_S8192x1_S8192x512_1_0_n_n_0_1_1512_wf : GatherDims.WF S8192x512 S8192x1 S8192x512 [1] [0] [] [0] [] 1 ![1, 512]
  scatter_S4096_S8192x1_S8192_n_0_0_1_wf : ScatterDims.WF S4096 S8192x1 S8192 [] [0] [0] 1
  scatter_S4096x512_S8192x1_S8192x512_1_0_0_1_wf : ScatterDims.WF S4096x512 S8192x1 S8192x512 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x512.size a
  hwx0_0 : ∀ i : grid0.Coords, EltTy.bits .f32 = 32 ∨ (Rect.block (s := S8192x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .f32 = 32 ∨ (Rect.block (s := S1x512) S1x512.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S8192x512.size a
  hwx1_0 : ∀ i : grid1.Coords, EltTy.bits .f32 = 32 ∨ (Rect.block (s := S8192x512) S2048x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S8192x512.size a
  hwx1_1 : ∀ i : grid1.Coords, EltTy.bits .f32 = 32 ∨ (Rect.block (s := S8192x512) S2048x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S512x1.size a
  hwx1_2 : ∀ i : grid1.Coords, EltTy.bits .f32 = 32 ∨ (Rect.block (s := S512x1) S512x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .f32 = 32 ∨ (Rect.block (s := S512x512) S512x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x512.size a ≤ S8192x512.size a
  hwx2_0 : ∀ i : grid2.Coords, EltTy.bits .f32 = 32 ∨ (Rect.block (s := S8192x512) S2048x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .f32 = 32 ∨ (Rect.block (s := S512x512) S512x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x512.size a ≤ S8192x512.size a
  hwx2_2 : ∀ i : grid2.Coords, EltTy.bits .f32 = 32 ∨ (Rect.block (s := S8192x512) S2048x512.size (cc2_transform_2 i) (hinb2_2 i)).WholeWords (EltTy.packing .f32)

variable [Facts₀]

def gather_S4096x512_S8192x1_S8192x512_1_0_n_n_0_1_1512 : GatherDims S4096x512 S8192x1 S8192x512 where
  offsetDims := [1]
  collapsedSliceDims := [0]
  operandBatchingDims := []
  startIndicesBatchingDims := []
  startIndexMap := [0]
  indexVectorDim := 1
  sliceSizes := ![1, 512]
  wf := gather_S4096x512_S8192x1_S8192x512_1_0_n_n_0_1_1512_wf
def scatter_S8192x512_S8192x1_S8192x512_1_0_0_1 : ScatterDims S8192x512 S8192x1 S8192x512 where
  updateWindowDims := [1]
  insertedWindowDims := [0]
  scatterDimsToOperandDims := [0]
  indexVectorDim := 1
  wf := scatter_S8192x512_S8192x1_S8192x512_1_0_0_1_wf
def dot_S2048x512_S512x1_S2048x1_1_0_0_1_n_n : DotDims S2048x512 S512x1 S2048x1 where
  lhsContracting := [1]
  rhsContracting := [0]
  lhsNonContracting := [0]
  rhsNonContracting := [1]
  lhsBatch := []
  rhsBatch := []
  wf := dot_S2048x512_S512x1_S2048x1_1_0_0_1_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S8192x512_S512x1_S8192x1_1_0_0_1_n_n : DotDims S8192x512 S512x1 S8192x1 where
  lhsContracting := [1]
  rhsContracting := [0]
  lhsNonContracting := [0]
  rhsNonContracting := [1]
  lhsBatch := []
  rhsBatch := []
  wf := dot_S8192x512_S512x1_S8192x1_1_0_0_1_n_n_wf
def gather_S8192x512_S8192x1_S8192x512_1_0_n_n_0_1_1512 : GatherDims S8192x512 S8192x1 S8192x512 where
  offsetDims := [1]
  collapsedSliceDims := [0]
  operandBatchingDims := []
  startIndicesBatchingDims := []
  startIndexMap := [0]
  indexVectorDim := 1
  sliceSizes := ![1, 512]
  wf := gather_S8192x512_S8192x1_S8192x512_1_0_n_n_0_1_1512_wf
def scatter_S4096_S8192x1_S8192_n_0_0_1 : ScatterDims S4096 S8192x1 S8192 where
  updateWindowDims := []
  insertedWindowDims := [0]
  scatterDimsToOperandDims := [0]
  indexVectorDim := 1
  wf := scatter_S4096_S8192x1_S8192_n_0_0_1_wf
def scatter_S4096x512_S8192x1_S8192x512_1_0_0_1 : ScatterDims S4096x512 S8192x1 S8192x512 where
  updateWindowDims := [1]
  insertedWindowDims := [0]
  scatterDimsToOperandDims := [0]
  indexVectorDim := 1
  wf := scatter_S4096x512_S8192x1_S8192x512_1_0_0_1_wf

abbrev win0_0 : Pipeline.Window sig grid0 :=
  Pipeline.Window.ofSpec (Memref.whole main_v34) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S1x512.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_v34) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S512x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S512x512.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v34) S2048x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v38) S2048x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S4096x512 : Shape := ⟨2, ![4096, 512]⟩
abbrev S3x8192 : Shape := ⟨2, ![3, 8192]⟩
abbrev S8192 : Shape := ⟨1, ![8192]⟩
abbrev S3x1x512 : Shape := ⟨3, ![3, 1, 512]⟩
abbrev S4x2x512x1 : Shape := ⟨4, ![4, 2, 512, 1]⟩
abbrev S1x8192 : Shape := ⟨2, ![1, 8192]⟩
abbrev S_ : Shape := ⟨0, ![]⟩
abbrev S8192x1 : Shape := ⟨2, ![8192, 1]⟩
abbrev S8192x512 : Shape := ⟨2, ![8192, 512]⟩
abbrev S512x8192 : Shape := ⟨2, ![512, 8192]⟩
abbrev S8192x8192 : Shape := ⟨2, ![8192, 8192]⟩
abbrev S1x1x512x1 : Shape := ⟨4, ![1, 1, 512, 1]⟩
abbrev S512x1 : Shape := ⟨2, ![512, 1]⟩
abbrev S4096 : Shape := ⟨1, ![4096]⟩
abbrev S4096x1 : Shape := ⟨2, ![4096, 1]⟩
abbrev S1x1x512 : Shape := ⟨3, ![1, 1, 512]⟩
abbrev S1x512 : Shape := ⟨2, ![1, 512]⟩
abbrev S1x4096x512 : Shape := ⟨3, ![1, 4096, 512]⟩
abbrev S4x4096x512 : Shape := ⟨3, ![4, 4096, 512]⟩

abbrev nBuf : Space → Nat
  | .hbm => 404
  | .vmem => 0
  | .smem => 0
  | _ => 0

abbrev hbmTy0_0 (i : Nat) : BufTy := match i % 128 with
  | 0 => ⟨S4096x512, .f32⟩
  | 1 => ⟨S3x8192, .i32⟩
  | 2 => ⟨S8192, .f32⟩
  | 3 => ⟨S3x1x512, .f32⟩
  | 4 => ⟨S4x2x512x1, .f32⟩
  | 5 => ⟨S1x8192, .i32⟩
  | 6 => ⟨S8192, .i32⟩
  | 7 => ⟨S1x8192, .i32⟩
  | 8 => ⟨S8192, .i32⟩
  | 9 => ⟨S1x8192, .i32⟩
  | 10 => ⟨S8192, .i32⟩
  | 11 => ⟨S_, .i32⟩
  | 12 => ⟨S8192, .i32⟩
  | 13 => ⟨S8192, .i1⟩
  | 14 => ⟨S_, .i32⟩
  | 15 => ⟨S8192, .i32⟩
  | 16 => ⟨S8192, .i32⟩
  | 17 => ⟨S8192, .i32⟩
  | 18 => ⟨S8192x1, .i32⟩
  | 19 => ⟨S8192x512, .f32⟩
  | 20 => ⟨S_, .i32⟩
  | 21 => ⟨S8192, .i32⟩
  | 22 => ⟨S8192, .i1⟩
  | 23 => ⟨S_, .i32⟩
  | 24 => ⟨S8192, .i32⟩
  | 25 => ⟨S8192, .i32⟩
  | 26 => ⟨S8192, .i32⟩
  | 27 => ⟨S8192x1, .i32⟩
  | 28 => ⟨S8192x512, .f32⟩
  | 29 => ⟨S8192x512, .f32⟩
  | 30 => ⟨S8192x1, .f32⟩
  | 31 => ⟨S8192x512, .f32⟩
  | 32 => ⟨S8192x512, .f32⟩
  | 33 => ⟨S_, .f32⟩
  | 34 => ⟨S8192x512, .f32⟩
  | 35 => ⟨S_, .i32⟩
  | 36 => ⟨S8192, .i32⟩
  | 37 => ⟨S8192, .i1⟩
  | 38 => ⟨S_, .i32⟩
  | 39 => ⟨S8192, .i32⟩
  | 40 => ⟨S8192, .i32⟩
  | 41 => ⟨S8192, .i32⟩
  | 42 => ⟨S8192x1, .i32⟩
  | 43 => ⟨S8192x512, .f32⟩
  | 44 => ⟨S8192x1, .f32⟩
  | 45 => ⟨S8192x512, .f32⟩
  | 46 => ⟨S8192x512, .f32⟩
  | 47 => ⟨S512x8192, .f32⟩
  | 48 => ⟨S8192x8192, .f32⟩
  | 49 => ⟨S_, .f32⟩
  | 50 => ⟨S8192, .f32⟩
  | 51 => ⟨S1x8192, .f32⟩
  | 52 => ⟨S8192x8192, .f32⟩
  | 53 => ⟨S8192x8192, .f32⟩
  | 54 => ⟨S8192x512, .f32⟩
  | 55 => ⟨S_, .i32⟩
  | 56 => ⟨S8192, .i32⟩
  | 57 => ⟨S8192, .i1⟩
  | 58 => ⟨S_, .i32⟩
  | 59 => ⟨S8192, .i32⟩
  | 60 => ⟨S8192, .i32⟩
  | 61 => ⟨S8192, .i32⟩
  | 62 => ⟨S8192x1, .i32⟩
  | 63 => ⟨S8192x512, .f32⟩
  | 64 => ⟨S1x1x512x1, .f32⟩
  | 65 => ⟨S512x1, .f32⟩
  | 66 => ⟨S8192x1, .f32⟩
  | 67 => ⟨S_, .i32⟩
  | 68 => ⟨S8192, .i32⟩
  | 69 => ⟨S8192, .i1⟩
  | 70 => ⟨S_, .i32⟩
  | 71 => ⟨S8192, .i32⟩
  | 72 => ⟨S8192, .i32⟩
  | 73 => ⟨S8192, .i32⟩
  | 74 => ⟨S8192x1, .i32⟩
  | 75 => ⟨S8192x512, .f32⟩
  | 76 => ⟨S1x1x512x1, .f32⟩
  | 77 => ⟨S512x1, .f32⟩
  | 78 => ⟨S8192x1, .f32⟩
  | 79 => ⟨S8192x1, .f32⟩
  | 80 => ⟨S8192, .f32⟩
  | 81 => ⟨S_, .f32⟩
  | 82 => ⟨S_, .f32⟩
  | 83 => ⟨S8192, .f32⟩
  | 84 => ⟨S8192, .i1⟩
  | 85 => ⟨S_, .f32⟩
  | 86 => ⟨S8192, .f32⟩
  | 87 => ⟨S8192, .f32⟩
  | 88 => ⟨S8192, .f32⟩
  | 89 => ⟨S8192, .f32⟩
  | 90 => ⟨S8192, .f32⟩
  | 91 => ⟨S_, .f32⟩
  | 92 => ⟨S4096, .f32⟩
  | 93 => ⟨S_, .i32⟩
  | 94 => ⟨S8192, .i32⟩
  | 95 => ⟨S8192, .i1⟩
  | 96 => ⟨S_, .i32⟩
  | 97 => ⟨S8192, .i32⟩
  | 98 => ⟨S8192, .i32⟩
  | 99 => ⟨S8192, .i32⟩
  | 100 => ⟨S8192x1, .i32⟩
  | 101 => ⟨S4096, .f32⟩
  | 102 => ⟨S_, .i32⟩
  | 103 => ⟨S8192, .i32⟩
  | 104 => ⟨S8192, .i1⟩
  | 105 => ⟨S_, .i32⟩
  | 106 => ⟨S8192, .i32⟩
  | 107 => ⟨S8192, .i32⟩
  | 108 => ⟨S8192, .i32⟩
  | 109 => ⟨S8192x1, .i32⟩
  | 110 => ⟨S8192x512, .f32⟩
  | 111 => ⟨S_, .i32⟩
  | 112 => ⟨S8192, .i32⟩
  | 113 => ⟨S8192, .i1⟩
  | 114 => ⟨S_, .i32⟩
  | 115 => ⟨S8192, .i32⟩
  | 116 => ⟨S8192, .i32⟩
  | 117 => ⟨S8192, .i32⟩
  | 118 => ⟨S8192x1, .i32⟩
  | 119 => ⟨S8192x512, .f32⟩
  | 120 => ⟨S8192x512, .f32⟩
  | 121 => ⟨S8192x1, .f32⟩
  | 122 => ⟨S8192x512, .f32⟩
  | 123 => ⟨S8192x512, .f32⟩
  | 124 => ⟨S_, .f32⟩
  | 125 => ⟨S4096x512, .f32⟩
  | 126 => ⟨S_, .i32⟩
  | 127 => ⟨S8192, .i32⟩
  | _ => ⟨S4096x512, .f32⟩

abbrev hbmTy0_1 (i : Nat) : BufTy := match i % 128 with
  | 0 => ⟨S8192, .i1⟩
  | 1 => ⟨S_, .i32⟩
  | 2 => ⟨S8192, .i32⟩
  | 3 => ⟨S8192, .i32⟩
  | 4 => ⟨S8192, .i32⟩
  | 5 => ⟨S8192x1, .i32⟩
  | 6 => ⟨S4096x512, .f32⟩
  | 7 => ⟨S4096x1, .f32⟩
  | 8 => ⟨S4096x512, .f32⟩
  | 9 => ⟨S4096x512, .f32⟩
  | 10 => ⟨S1x1x512, .f32⟩
  | 11 => ⟨S1x512, .f32⟩
  | 12 => ⟨S4096x512, .f32⟩
  | 13 => ⟨S4096x512, .f32⟩
  | 14 => ⟨S_, .i32⟩
  | 15 => ⟨S8192, .i32⟩
  | 16 => ⟨S8192, .i1⟩
  | 17 => ⟨S_, .i32⟩
  | 18 => ⟨S8192, .i32⟩
  | 19 => ⟨S8192, .i32⟩
  | 20 => ⟨S8192, .i32⟩
  | 21 => ⟨S8192x1, .i32⟩
  | 22 => ⟨S8192x512, .f32⟩
  | 23 => ⟨S1x1x512x1, .f32⟩
  | 24 => ⟨S512x1, .f32⟩
  | 25 => ⟨S8192x1, .f32⟩
  | 26 => ⟨S_, .i32⟩
  | 27 => ⟨S8192, .i32⟩
  | 28 => ⟨S8192, .i1⟩
  | 29 => ⟨S_, .i32⟩
  | 30 => ⟨S8192, .i32⟩
  | 31 => ⟨S8192, .i32⟩
  | 32 => ⟨S8192, .i32⟩
  | 33 => ⟨S8192x1, .i32⟩
  | 34 => ⟨S8192x512, .f32⟩
  | 35 => ⟨S1x1x512x1, .f32⟩
  | 36 => ⟨S512x1, .f32⟩
  | 37 => ⟨S8192x1, .f32⟩
  | 38 => ⟨S8192x1, .f32⟩
  | 39 => ⟨S8192, .f32⟩
  | 40 => ⟨S_, .f32⟩
  | 41 => ⟨S_, .f32⟩
  | 42 => ⟨S8192, .f32⟩
  | 43 => ⟨S8192, .i1⟩
  | 44 => ⟨S_, .f32⟩
  | 45 => ⟨S8192, .f32⟩
  | 46 => ⟨S8192, .f32⟩
  | 47 => ⟨S8192, .f32⟩
  | 48 => ⟨S8192, .f32⟩
  | 49 => ⟨S8192, .f32⟩
  | 50 => ⟨S_, .f32⟩
  | 51 => ⟨S4096, .f32⟩
  | 52 => ⟨S_, .i32⟩
  | 53 => ⟨S8192, .i32⟩
  | 54 => ⟨S8192, .i1⟩
  | 55 => ⟨S_, .i32⟩
  | 56 => ⟨S8192, .i32⟩
  | 57 => ⟨S8192, .i32⟩
  | 58 => ⟨S8192, .i32⟩
  | 59 => ⟨S8192x1, .i32⟩
  | 60 => ⟨S4096, .f32⟩
  | 61 => ⟨S_, .i32⟩
  | 62 => ⟨S8192, .i32⟩
  | 63 => ⟨S8192, .i1⟩
  | 64 => ⟨S_, .i32⟩
  | 65 => ⟨S8192, .i32⟩
  | 66 => ⟨S8192, .i32⟩
  | 67 => ⟨S8192, .i32⟩
  | 68 => ⟨S8192x1, .i32⟩
  | 69 => ⟨S8192x512, .f32⟩
  | 70 => ⟨S_, .i32⟩
  | 71 => ⟨S8192, .i32⟩
  | 72 => ⟨S8192, .i1⟩
  | 73 => ⟨S_, .i32⟩
  | 74 => ⟨S8192, .i32⟩
  | 75 => ⟨S8192, .i32⟩
  | 76 => ⟨S8192, .i32⟩
  | 77 => ⟨S8192x1, .i32⟩
  | 78 => ⟨S8192x512, .f32⟩
  | 79 => ⟨S8192x512, .f32⟩
  | 80 => ⟨S8192x1, .f32⟩
  | 81 => ⟨S8192x512, .f32⟩
  | 82 => ⟨S8192x512, .f32⟩
  | 83 => ⟨S_, .f32⟩
  | 84 => ⟨S4096x512, .f32⟩
  | 85 => ⟨S_, .i32⟩
  | 86 => ⟨S8192, .i32⟩
  | 87 => ⟨S8192, .i1⟩
  | 88 => ⟨S_, .i32⟩
  | 89 => ⟨S8192, .i32⟩
  | 90 => ⟨S8192, .i32⟩
  | 91 => ⟨S8192, .i32⟩
  | 92 => ⟨S8192x1, .i32⟩
  | 93 => ⟨S4096x512, .f32⟩
  | 94 => ⟨S4096x1, .f32⟩
  | 95 => ⟨S4096x512, .f32⟩
  | 96 => ⟨S4096x512, .f32⟩
  | 97 => ⟨S1x1x512, .f32⟩
  | 98 => ⟨S1x512, .f32⟩
  | 99 => ⟨S4096x512, .f32⟩
  | 100 => ⟨S4096x512, .f32⟩
  | 101 => ⟨S_, .i32⟩
  | 102 => ⟨S8192, .i32⟩
  | 103 => ⟨S8192, .i1⟩
  | 104 => ⟨S_, .i32⟩
  | 105 => ⟨S8192, .i32⟩
  | 106 => ⟨S8192, .i32⟩
  | 107 => ⟨S8192, .i32⟩
  | 108 => ⟨S8192x1, .i32⟩
  | 109 => ⟨S8192x512, .f32⟩
  | 110 => ⟨S1x1x512x1, .f32⟩
  | 111 => ⟨S512x1, .f32⟩
  | 112 => ⟨S8192x1, .f32⟩
  | 113 => ⟨S_, .i32⟩
  | 114 => ⟨S8192, .i32⟩
  | 115 => ⟨S8192, .i1⟩
  | 116 => ⟨S_, .i32⟩
  | 117 => ⟨S8192, .i32⟩
  | 118 => ⟨S8192, .i32⟩
  | 119 => ⟨S8192, .i32⟩
  | 120 => ⟨S8192x1, .i32⟩
  | 121 => ⟨S8192x512, .f32⟩
  | 122 => ⟨S1x1x512x1, .f32⟩
  | 123 => ⟨S512x1, .f32⟩
  | 124 => ⟨S8192x1, .f32⟩
  | 125 => ⟨S8192x1, .f32⟩
  | 126 => ⟨S8192, .f32⟩
  | 127 => ⟨S_, .f32⟩
  | _ => ⟨S4096x512, .f32⟩

abbrev hbmTy0_2 (i : Nat) : BufTy := match i % 128 with
  | 0 => ⟨S_, .f32⟩
  | 1 => ⟨S8192, .f32⟩
  | 2 => ⟨S8192, .i1⟩
  | 3 => ⟨S_, .f32⟩
  | 4 => ⟨S8192, .f32⟩
  | 5 => ⟨S8192, .f32⟩
  | 6 => ⟨S8192, .f32⟩
  | 7 => ⟨S8192, .f32⟩
  | 8 => ⟨S8192, .f32⟩
  | 9 => ⟨S_, .f32⟩
  | 10 => ⟨S4096, .f32⟩
  | 11 => ⟨S_, .i32⟩
  | 12 => ⟨S8192, .i32⟩
  | 13 => ⟨S8192, .i1⟩
  | 14 => ⟨S_, .i32⟩
  | 15 => ⟨S8192, .i32⟩
  | 16 => ⟨S8192, .i32⟩
  | 17 => ⟨S8192, .i32⟩
  | 18 => ⟨S8192x1, .i32⟩
  | 19 => ⟨S4096, .f32⟩
  | 20 => ⟨S_, .i32⟩
  | 21 => ⟨S8192, .i32⟩
  | 22 => ⟨S8192, .i1⟩
  | 23 => ⟨S_, .i32⟩
  | 24 => ⟨S8192, .i32⟩
  | 25 => ⟨S8192, .i32⟩
  | 26 => ⟨S8192, .i32⟩
  | 27 => ⟨S8192x1, .i32⟩
  | 28 => ⟨S8192x512, .f32⟩
  | 29 => ⟨S_, .i32⟩
  | 30 => ⟨S8192, .i32⟩
  | 31 => ⟨S8192, .i1⟩
  | 32 => ⟨S_, .i32⟩
  | 33 => ⟨S8192, .i32⟩
  | 34 => ⟨S8192, .i32⟩
  | 35 => ⟨S8192, .i32⟩
  | 36 => ⟨S8192x1, .i32⟩
  | 37 => ⟨S8192x512, .f32⟩
  | 38 => ⟨S8192x512, .f32⟩
  | 39 => ⟨S8192x1, .f32⟩
  | 40 => ⟨S8192x512, .f32⟩
  | 41 => ⟨S8192x512, .f32⟩
  | 42 => ⟨S_, .f32⟩
  | 43 => ⟨S4096x512, .f32⟩
  | 44 => ⟨S_, .i32⟩
  | 45 => ⟨S8192, .i32⟩
  | 46 => ⟨S8192, .i1⟩
  | 47 => ⟨S_, .i32⟩
  | 48 => ⟨S8192, .i32⟩
  | 49 => ⟨S8192, .i32⟩
  | 50 => ⟨S8192, .i32⟩
  | 51 => ⟨S8192x1, .i32⟩
  | 52 => ⟨S4096x512, .f32⟩
  | 53 => ⟨S4096x1, .f32⟩
  | 54 => ⟨S4096x512, .f32⟩
  | 55 => ⟨S4096x512, .f32⟩
  | 56 => ⟨S1x1x512, .f32⟩
  | 57 => ⟨S1x512, .f32⟩
  | 58 => ⟨S4096x512, .f32⟩
  | 59 => ⟨S4096x512, .f32⟩
  | 60 => ⟨S_, .i32⟩
  | 61 => ⟨S8192, .i32⟩
  | 62 => ⟨S8192, .i1⟩
  | 63 => ⟨S_, .i32⟩
  | 64 => ⟨S8192, .i32⟩
  | 65 => ⟨S8192, .i32⟩
  | 66 => ⟨S8192, .i32⟩
  | 67 => ⟨S8192x1, .i32⟩
  | 68 => ⟨S8192x512, .f32⟩
  | 69 => ⟨S1x1x512x1, .f32⟩
  | 70 => ⟨S512x1, .f32⟩
  | 71 => ⟨S8192x1, .f32⟩
  | 72 => ⟨S_, .i32⟩
  | 73 => ⟨S8192, .i32⟩
  | 74 => ⟨S8192, .i1⟩
  | 75 => ⟨S_, .i32⟩
  | 76 => ⟨S8192, .i32⟩
  | 77 => ⟨S8192, .i32⟩
  | 78 => ⟨S8192, .i32⟩
  | 79 => ⟨S8192x1, .i32⟩
  | 80 => ⟨S8192x512, .f32⟩
  | 81 => ⟨S1x1x512x1, .f32⟩
  | 82 => ⟨S512x1, .f32⟩
  | 83 => ⟨S8192x1, .f32⟩
  | 84 => ⟨S8192x1, .f32⟩
  | 85 => ⟨S8192, .f32⟩
  | 86 => ⟨S_, .f32⟩
  | 87 => ⟨S_, .f32⟩
  | 88 => ⟨S8192, .f32⟩
  | 89 => ⟨S8192, .i1⟩
  | 90 => ⟨S_, .f32⟩
  | 91 => ⟨S8192, .f32⟩
  | 92 => ⟨S8192, .f32⟩
  | 93 => ⟨S8192, .f32⟩
  | 94 => ⟨S8192, .f32⟩
  | 95 => ⟨S8192, .f32⟩
  | 96 => ⟨S_, .f32⟩
  | 97 => ⟨S4096, .f32⟩
  | 98 => ⟨S_, .i32⟩
  | 99 => ⟨S8192, .i32⟩
  | 100 => ⟨S8192, .i1⟩
  | 101 => ⟨S_, .i32⟩
  | 102 => ⟨S8192, .i32⟩
  | 103 => ⟨S8192, .i32⟩
  | 104 => ⟨S8192, .i32⟩
  | 105 => ⟨S8192x1, .i32⟩
  | 106 => ⟨S4096, .f32⟩
  | 107 => ⟨S_, .i32⟩
  | 108 => ⟨S8192, .i32⟩
  | 109 => ⟨S8192, .i1⟩
  | 110 => ⟨S_, .i32⟩
  | 111 => ⟨S8192, .i32⟩
  | 112 => ⟨S8192, .i32⟩
  | 113 => ⟨S8192, .i32⟩
  | 114 => ⟨S8192x1, .i32⟩
  | 115 => ⟨S8192x512, .f32⟩
  | 116 => ⟨S_, .i32⟩
  | 117 => ⟨S8192, .i32⟩
  | 118 => ⟨S8192, .i1⟩
  | 119 => ⟨S_, .i32⟩
  | 120 => ⟨S8192, .i32⟩
  | 121 => ⟨S8192, .i32⟩
  | 122 => ⟨S8192, .i32⟩
  | 123 => ⟨S8192x1, .i32⟩
  | 124 => ⟨S8192x512, .f32⟩
  | 125 => ⟨S8192x512, .f32⟩
  | 126 => ⟨S8192x1, .f32⟩
  | 127 => ⟨S8192x512, .f32⟩
  | _ => ⟨S4096x512, .f32⟩

abbrev hbmTy0_3 (i : Nat) : BufTy := match i % 128 with
  | 0 => ⟨S8192x512, .f32⟩
  | 1 => ⟨S_, .f32⟩
  | 2 => ⟨S4096x512, .f32⟩
  | 3 => ⟨S_, .i32⟩
  | 4 => ⟨S8192, .i32⟩
  | 5 => ⟨S8192, .i1⟩
  | 6 => ⟨S_, .i32⟩
  | 7 => ⟨S8192, .i32⟩
  | 8 => ⟨S8192, .i32⟩
  | 9 => ⟨S8192, .i32⟩
  | 10 => ⟨S8192x1, .i32⟩
  | 11 => ⟨S4096x512, .f32⟩
  | 12 => ⟨S4096x1, .f32⟩
  | 13 => ⟨S4096x512, .f32⟩
  | 14 => ⟨S4096x512, .f32⟩
  | 15 => ⟨S1x4096x512, .f32⟩
  | 16 => ⟨S1x4096x512, .f32⟩
  | 17 => ⟨S1x4096x512, .f32⟩
  | 18 => ⟨S1x4096x512, .f32⟩
  | 19 => ⟨S4x4096x512, .f32⟩
  | _ => ⟨S4096x512, .f32⟩

abbrev hbmTy (i : Nat) : BufTy := match i / 128 with
  | 0 => hbmTy0_0 i
  | 1 => hbmTy0_1 i
  | 2 => hbmTy0_2 i
  | 3 => hbmTy0_3 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst : Ref sig .tc := ⟨.hbm, 33, rfl⟩
abbrev main_v24 : Ref sig .tc := ⟨.hbm, 34, rfl⟩
abbrev main_c_3 : Ref sig .tc := ⟨.hbm, 35, rfl⟩
abbrev main_v25 : Ref sig .tc := ⟨.hbm, 36, rfl⟩
abbrev main_v26 : Ref sig .tc := ⟨.hbm, 37, rfl⟩
abbrev main_c_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c_6 : Ref sig .tc := ⟨.hbm, 55, rfl⟩
abbrev main_v42 : Ref sig .tc := ⟨.hbm, 56, rfl⟩
abbrev main_v43 : Ref sig .tc := ⟨.hbm, 57, rfl⟩
abbrev main_c_7 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_c_8 : Ref sig .tc := ⟨.hbm, 67, rfl⟩
abbrev main_v52 : Ref sig .tc := ⟨.hbm, 68, rfl⟩
abbrev main_v53 : Ref sig .tc := ⟨.hbm, 69, rfl⟩
abbrev main_c_9 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_10 : Ref sig .tc := ⟨.hbm, 81, rfl⟩
abbrev main_call0_cst : Ref sig .tc := ⟨.hbm, 82, rfl⟩
abbrev main_call0_v0 : Ref sig .tc := ⟨.hbm, 83, rfl⟩
abbrev main_call0_v1 : Ref sig .tc := ⟨.hbm, 84, rfl⟩
abbrev main_call0_v2 : Ref sig .tc := ⟨.hbm, 85, rfl⟩
abbrev main_call0_v3 : Ref sig .tc := ⟨.hbm, 86, rfl⟩
abbrev main_call0_v4 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_11 : Ref sig .tc := ⟨.hbm, 91, rfl⟩
abbrev main_v67 : Ref sig .tc := ⟨.hbm, 92, rfl⟩
abbrev main_c_12 : Ref sig .tc := ⟨.hbm, 93, rfl⟩
abbrev main_v68 : Ref sig .tc := ⟨.hbm, 94, rfl⟩
abbrev main_v69 : Ref sig .tc := ⟨.hbm, 95, rfl⟩
abbrev main_c_13 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_c_14 : Ref sig .tc := ⟨.hbm, 102, rfl⟩
abbrev main_v75 : Ref sig .tc := ⟨.hbm, 103, rfl⟩
abbrev main_v76 : Ref sig .tc := ⟨.hbm, 104, rfl⟩
abbrev main_c_15 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_c_16 : Ref sig .tc := ⟨.hbm, 111, rfl⟩
abbrev main_v82 : Ref sig .tc := ⟨.hbm, 112, rfl⟩
abbrev main_v83 : Ref sig .tc := ⟨.hbm, 113, rfl⟩
abbrev main_c_17 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_18 : Ref sig .tc := ⟨.hbm, 124, rfl⟩
abbrev main_v93 : Ref sig .tc := ⟨.hbm, 125, rfl⟩
abbrev main_c_19 : Ref sig .tc := ⟨.hbm, 126, rfl⟩
abbrev main_v94 : Ref sig .tc := ⟨.hbm, 127, rfl⟩
abbrev main_v95 : Ref sig .tc := ⟨.hbm, 128, rfl⟩
abbrev main_c_20 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_c_21 : Ref sig .tc := ⟨.hbm, 142, rfl⟩
abbrev main_v108 : Ref sig .tc := ⟨.hbm, 143, rfl⟩
abbrev main_v109 : Ref sig .tc := ⟨.hbm, 144, rfl⟩
abbrev main_c_22 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_c_23 : Ref sig .tc := ⟨.hbm, 154, rfl⟩
abbrev main_v118 : Ref sig .tc := ⟨.hbm, 155, rfl⟩
abbrev main_v119 : Ref sig .tc := ⟨.hbm, 156, rfl⟩
abbrev main_c_24 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_cst_25 : Ref sig .tc := ⟨.hbm, 168, rfl⟩
abbrev main_call1_cst : Ref sig .tc := ⟨.hbm, 169, rfl⟩
abbrev main_call1_v0 : Ref sig .tc := ⟨.hbm, 170, rfl⟩
abbrev main_call1_v1 : Ref sig .tc := ⟨.hbm, 171, rfl⟩
abbrev main_call1_v2 : Ref sig .tc := ⟨.hbm, 172, rfl⟩
abbrev main_call1_v3 : Ref sig .tc := ⟨.hbm, 173, rfl⟩
abbrev main_call1_v4 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_cst_26 : Ref sig .tc := ⟨.hbm, 178, rfl⟩
abbrev main_v133 : Ref sig .tc := ⟨.hbm, 179, rfl⟩
abbrev main_c_27 : Ref sig .tc := ⟨.hbm, 180, rfl⟩
abbrev main_v134 : Ref sig .tc := ⟨.hbm, 181, rfl⟩
abbrev main_v135 : Ref sig .tc := ⟨.hbm, 182, rfl⟩
abbrev main_c_28 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_c_29 : Ref sig .tc := ⟨.hbm, 189, rfl⟩
abbrev main_v141 : Ref sig .tc := ⟨.hbm, 190, rfl⟩
abbrev main_v142 : Ref sig .tc := ⟨.hbm, 191, rfl⟩
abbrev main_c_30 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_c_31 : Ref sig .tc := ⟨.hbm, 198, rfl⟩
abbrev main_v148 : Ref sig .tc := ⟨.hbm, 199, rfl⟩
abbrev main_v149 : Ref sig .tc := ⟨.hbm, 200, rfl⟩
abbrev main_c_32 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_cst_33 : Ref sig .tc := ⟨.hbm, 211, rfl⟩
abbrev main_v159 : Ref sig .tc := ⟨.hbm, 212, rfl⟩
abbrev main_c_34 : Ref sig .tc := ⟨.hbm, 213, rfl⟩
abbrev main_v160 : Ref sig .tc := ⟨.hbm, 214, rfl⟩
abbrev main_v161 : Ref sig .tc := ⟨.hbm, 215, rfl⟩
abbrev main_c_35 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_c_36 : Ref sig .tc := ⟨.hbm, 229, rfl⟩
abbrev main_v174 : Ref sig .tc := ⟨.hbm, 230, rfl⟩
abbrev main_v175 : Ref sig .tc := ⟨.hbm, 231, rfl⟩
abbrev main_c_37 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_c_38 : Ref sig .tc := ⟨.hbm, 241, rfl⟩
abbrev main_v184 : Ref sig .tc := ⟨.hbm, 242, rfl⟩
abbrev main_v185 : Ref sig .tc := ⟨.hbm, 243, rfl⟩
abbrev main_c_39 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩
abbrev main_v191 : Ref sig .tc := ⟨.hbm, 250, rfl⟩
abbrev main_v192 : Ref sig .tc := ⟨.hbm, 251, rfl⟩
abbrev main_v193 : Ref sig .tc := ⟨.hbm, 252, rfl⟩
abbrev main_v194 : Ref sig .tc := ⟨.hbm, 253, rfl⟩
abbrev main_v195 : Ref sig .tc := ⟨.hbm, 254, rfl⟩
abbrev main_cst_40 : Ref sig .tc := ⟨.hbm, 255, rfl⟩
abbrev main_call2_cst : Ref sig .tc := ⟨.hbm, 256, rfl⟩
abbrev main_call2_v0 : Ref sig .tc := ⟨.hbm, 257, rfl⟩
abbrev main_call2_v1 : Ref sig .tc := ⟨.hbm, 258, rfl⟩
abbrev main_call2_v2 : Ref sig .tc := ⟨.hbm, 259, rfl⟩
abbrev main_call2_v3 : Ref sig .tc := ⟨.hbm, 260, rfl⟩
abbrev main_call2_v4 : Ref sig .tc := ⟨.hbm, 261, rfl⟩
abbrev main_v196 : Ref sig .tc := ⟨.hbm, 262, rfl⟩
abbrev main_v197 : Ref sig .tc := ⟨.hbm, 263, rfl⟩
abbrev main_v198 : Ref sig .tc := ⟨.hbm, 264, rfl⟩
abbrev main_cst_41 : Ref sig .tc := ⟨.hbm, 265, rfl⟩
abbrev main_v199 : Ref sig .tc := ⟨.hbm, 266, rfl⟩
abbrev main_c_42 : Ref sig .tc := ⟨.hbm, 267, rfl⟩
abbrev main_v200 : Ref sig .tc := ⟨.hbm, 268, rfl⟩
abbrev main_v201 : Ref sig .tc := ⟨.hbm, 269, rfl⟩
abbrev main_c_43 : Ref sig .tc := ⟨.hbm, 270, rfl⟩
abbrev main_v202 : Ref sig .tc := ⟨.hbm, 271, rfl⟩
abbrev main_v203 : Ref sig .tc := ⟨.hbm, 272, rfl⟩
abbrev main_v204 : Ref sig .tc := ⟨.hbm, 273, rfl⟩
abbrev main_v205 : Ref sig .tc := ⟨.hbm, 274, rfl⟩
abbrev main_v206 : Ref sig .tc := ⟨.hbm, 275, rfl⟩
abbrev main_c_44 : Ref sig .tc := ⟨.hbm, 276, rfl⟩
abbrev main_v207 : Ref sig .tc := ⟨.hbm, 277, rfl⟩
abbrev main_v208 : Ref sig .tc := ⟨.hbm, 278, rfl⟩
abbrev main_c_45 : Ref sig .tc := ⟨.hbm, 279, rfl⟩
abbrev main_v209 : Ref sig .tc := ⟨.hbm, 280, rfl⟩
abbrev main_v210 : Ref sig .tc := ⟨.hbm, 281, rfl⟩
abbrev main_v211 : Ref sig .tc := ⟨.hbm, 282, rfl⟩
abbrev main_v212 : Ref sig .tc := ⟨.hbm, 283, rfl⟩
abbrev main_v213 : Ref sig .tc := ⟨.hbm, 284, rfl⟩
abbrev main_c_46 : Ref sig .tc := ⟨.hbm, 285, rfl⟩
abbrev main_v214 : Ref sig .tc := ⟨.hbm, 286, rfl⟩
abbrev main_v215 : Ref sig .tc := ⟨.hbm, 287, rfl⟩
abbrev main_c_47 : Ref sig .tc := ⟨.hbm, 288, rfl⟩
abbrev main_v216 : Ref sig .tc := ⟨.hbm, 289, rfl⟩
abbrev main_v217 : Ref sig .tc := ⟨.hbm, 290, rfl⟩
abbrev main_v218 : Ref sig .tc := ⟨.hbm, 291, rfl⟩
abbrev main_v219 : Ref sig .tc := ⟨.hbm, 292, rfl⟩
abbrev main_v220 : Ref sig .tc := ⟨.hbm, 293, rfl⟩
abbrev main_v221 : Ref sig .tc := ⟨.hbm, 294, rfl⟩
abbrev main_v222 : Ref sig .tc := ⟨.hbm, 295, rfl⟩
abbrev main_v223 : Ref sig .tc := ⟨.hbm, 296, rfl⟩
abbrev main_v224 : Ref sig .tc := ⟨.hbm, 297, rfl⟩
abbrev main_cst_48 : Ref sig .tc := ⟨.hbm, 298, rfl⟩
abbrev main_v225 : Ref sig .tc := ⟨.hbm, 299, rfl⟩
abbrev main_c_49 : Ref sig .tc := ⟨.hbm, 300, rfl⟩
abbrev main_v226 : Ref sig .tc := ⟨.hbm, 301, rfl⟩
abbrev main_v227 : Ref sig .tc := ⟨.hbm, 302, rfl⟩
abbrev main_c_50 : Ref sig .tc := ⟨.hbm, 303, rfl⟩
abbrev main_v228 : Ref sig .tc := ⟨.hbm, 304, rfl⟩
abbrev main_v229 : Ref sig .tc := ⟨.hbm, 305, rfl⟩
abbrev main_v230 : Ref sig .tc := ⟨.hbm, 306, rfl⟩
abbrev main_v231 : Ref sig .tc := ⟨.hbm, 307, rfl⟩
abbrev main_v232 : Ref sig .tc := ⟨.hbm, 308, rfl⟩
abbrev main_v233 : Ref sig .tc := ⟨.hbm, 309, rfl⟩
abbrev main_v234 : Ref sig .tc := ⟨.hbm, 310, rfl⟩
abbrev main_v235 : Ref sig .tc := ⟨.hbm, 311, rfl⟩
abbrev main_v236 : Ref sig .tc := ⟨.hbm, 312, rfl⟩
abbrev main_v237 : Ref sig .tc := ⟨.hbm, 313, rfl⟩
abbrev main_v238 : Ref sig .tc := ⟨.hbm, 314, rfl⟩
abbrev main_v239 : Ref sig .tc := ⟨.hbm, 315, rfl⟩
abbrev main_c_51 : Ref sig .tc := ⟨.hbm, 316, rfl⟩
abbrev main_v240 : Ref sig .tc := ⟨.hbm, 317, rfl⟩
abbrev main_v241 : Ref sig .tc := ⟨.hbm, 318, rfl⟩
abbrev main_c_52 : Ref sig .tc := ⟨.hbm, 319, rfl⟩
abbrev main_v242 : Ref sig .tc := ⟨.hbm, 320, rfl⟩
abbrev main_v243 : Ref sig .tc := ⟨.hbm, 321, rfl⟩
abbrev main_v244 : Ref sig .tc := ⟨.hbm, 322, rfl⟩
abbrev main_v245 : Ref sig .tc := ⟨.hbm, 323, rfl⟩
abbrev main_v246 : Ref sig .tc := ⟨.hbm, 324, rfl⟩
abbrev main_v247 : Ref sig .tc := ⟨.hbm, 325, rfl⟩
abbrev main_v248 : Ref sig .tc := ⟨.hbm, 326, rfl⟩
abbrev main_v249 : Ref sig .tc := ⟨.hbm, 327, rfl⟩
abbrev main_c_53 : Ref sig .tc := ⟨.hbm, 328, rfl⟩
abbrev main_v250 : Ref sig .tc := ⟨.hbm, 329, rfl⟩
abbrev main_v251 : Ref sig .tc := ⟨.hbm, 330, rfl⟩
abbrev main_c_54 : Ref sig .tc := ⟨.hbm, 331, rfl⟩
abbrev main_v252 : Ref sig .tc := ⟨.hbm, 332, rfl⟩
abbrev main_v253 : Ref sig .tc := ⟨.hbm, 333, rfl⟩
abbrev main_v254 : Ref sig .tc := ⟨.hbm, 334, rfl⟩
abbrev main_v255 : Ref sig .tc := ⟨.hbm, 335, rfl⟩
abbrev main_v256 : Ref sig .tc := ⟨.hbm, 336, rfl⟩
abbrev main_v257 : Ref sig .tc := ⟨.hbm, 337, rfl⟩
abbrev main_v258 : Ref sig .tc := ⟨.hbm, 338, rfl⟩
abbrev main_v259 : Ref sig .tc := ⟨.hbm, 339, rfl⟩
abbrev main_v260 : Ref sig .tc := ⟨.hbm, 340, rfl⟩
abbrev main_v261 : Ref sig .tc := ⟨.hbm, 341, rfl⟩
abbrev main_cst_55 : Ref sig .tc := ⟨.hbm, 342, rfl⟩
abbrev main_call3_cst : Ref sig .tc := ⟨.hbm, 343, rfl⟩
abbrev main_call3_v0 : Ref sig .tc := ⟨.hbm, 344, rfl⟩
abbrev main_call3_v1 : Ref sig .tc := ⟨.hbm, 345, rfl⟩
abbrev main_call3_v2 : Ref sig .tc := ⟨.hbm, 346, rfl⟩
abbrev main_call3_v3 : Ref sig .tc := ⟨.hbm, 347, rfl⟩
abbrev main_call3_v4 : Ref sig .tc := ⟨.hbm, 348, rfl⟩
abbrev main_v262 : Ref sig .tc := ⟨.hbm, 349, rfl⟩
abbrev main_v263 : Ref sig .tc := ⟨.hbm, 350, rfl⟩
abbrev main_v264 : Ref sig .tc := ⟨.hbm, 351, rfl⟩
abbrev main_cst_56 : Ref sig .tc := ⟨.hbm, 352, rfl⟩
abbrev main_v265 : Ref sig .tc := ⟨.hbm, 353, rfl⟩
abbrev main_c_57 : Ref sig .tc := ⟨.hbm, 354, rfl⟩
abbrev main_v266 : Ref sig .tc := ⟨.hbm, 355, rfl⟩
abbrev main_v267 : Ref sig .tc := ⟨.hbm, 356, rfl⟩
abbrev main_c_58 : Ref sig .tc := ⟨.hbm, 357, rfl⟩
abbrev main_v268 : Ref sig .tc := ⟨.hbm, 358, rfl⟩
abbrev main_v269 : Ref sig .tc := ⟨.hbm, 359, rfl⟩
abbrev main_v270 : Ref sig .tc := ⟨.hbm, 360, rfl⟩
abbrev main_v271 : Ref sig .tc := ⟨.hbm, 361, rfl⟩
abbrev main_v272 : Ref sig .tc := ⟨.hbm, 362, rfl⟩
abbrev main_c_59 : Ref sig .tc := ⟨.hbm, 363, rfl⟩
abbrev main_v273 : Ref sig .tc := ⟨.hbm, 364, rfl⟩
abbrev main_v274 : Ref sig .tc := ⟨.hbm, 365, rfl⟩
abbrev main_c_60 : Ref sig .tc := ⟨.hbm, 366, rfl⟩
abbrev main_v275 : Ref sig .tc := ⟨.hbm, 367, rfl⟩
abbrev main_v276 : Ref sig .tc := ⟨.hbm, 368, rfl⟩
abbrev main_v277 : Ref sig .tc := ⟨.hbm, 369, rfl⟩
abbrev main_v278 : Ref sig .tc := ⟨.hbm, 370, rfl⟩
abbrev main_v279 : Ref sig .tc := ⟨.hbm, 371, rfl⟩
abbrev main_c_61 : Ref sig .tc := ⟨.hbm, 372, rfl⟩
abbrev main_v280 : Ref sig .tc := ⟨.hbm, 373, rfl⟩
abbrev main_v281 : Ref sig .tc := ⟨.hbm, 374, rfl⟩
abbrev main_c_62 : Ref sig .tc := ⟨.hbm, 375, rfl⟩
abbrev main_v282 : Ref sig .tc := ⟨.hbm, 376, rfl⟩
abbrev main_v283 : Ref sig .tc := ⟨.hbm, 377, rfl⟩
abbrev main_v284 : Ref sig .tc := ⟨.hbm, 378, rfl⟩
abbrev main_v285 : Ref sig .tc := ⟨.hbm, 379, rfl⟩
abbrev main_v286 : Ref sig .tc := ⟨.hbm, 380, rfl⟩
abbrev main_v287 : Ref sig .tc := ⟨.hbm, 381, rfl⟩
abbrev main_v288 : Ref sig .tc := ⟨.hbm, 382, rfl⟩
abbrev main_v289 : Ref sig .tc := ⟨.hbm, 383, rfl⟩
abbrev main_v290 : Ref sig .tc := ⟨.hbm, 384, rfl⟩
abbrev main_cst_63 : Ref sig .tc := ⟨.hbm, 385, rfl⟩
abbrev main_v291 : Ref sig .tc := ⟨.hbm, 386, rfl⟩
abbrev main_c_64 : Ref sig .tc := ⟨.hbm, 387, rfl⟩
abbrev main_v292 : Ref sig .tc := ⟨.hbm, 388, rfl⟩
abbrev main_v293 : Ref sig .tc := ⟨.hbm, 389, rfl⟩
abbrev main_c_65 : Ref sig .tc := ⟨.hbm, 390, rfl⟩
abbrev main_v294 : Ref sig .tc := ⟨.hbm, 391, rfl⟩
abbrev main_v295 : Ref sig .tc := ⟨.hbm, 392, rfl⟩
abbrev main_v296 : Ref sig .tc := ⟨.hbm, 393, rfl⟩
abbrev main_v297 : Ref sig .tc := ⟨.hbm, 394, rfl⟩
abbrev main_v298 : Ref sig .tc := ⟨.hbm, 395, rfl⟩
abbrev main_v299 : Ref sig .tc := ⟨.hbm, 396, rfl⟩
abbrev main_v300 : Ref sig .tc := ⟨.hbm, 397, rfl⟩
abbrev main_v301 : Ref sig .tc := ⟨.hbm, 398, rfl⟩
abbrev main_v302 : Ref sig .tc := ⟨.hbm, 399, rfl⟩
abbrev main_v303 : Ref sig .tc := ⟨.hbm, 400, rfl⟩
abbrev main_v304 : Ref sig .tc := ⟨.hbm, 401, rfl⟩
abbrev main_v305 : Ref sig .tc := ⟨.hbm, 402, rfl⟩
abbrev main_v306 : Ref sig .tc := ⟨.hbm, 403, rfl⟩

abbrev nD : Nat := 1
abbrev τ : Topo := Topo.v7x

variable {F : FTy → Type} [FloatOps F]

class Facts₀ : Prop where
  slices_S3x8192_S1x8192_0_0 : S3x8192.Slices ![0, 0] S1x8192
  shapeCasts_S1x8192_S8192 : S1x8192.ShapeCasts S8192
  slices_S3x8192_S1x8192_1_0 : S3x8192.Slices ![1, 0] S1x8192
  slices_S3x8192_S1x8192_2_0 : S3x8192.Slices ![2, 0] S1x8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x512_0_1 : S8192x1.BroadcastsInDim S8192x512 (![0, 1] : Fin 2 → Fin S8192x512.rank)
  bcast_S_S8192x512 : S_.BroadcastsInDim S8192x512 (![] : Fin 0 → Fin S8192x512.rank)
  transposes_S8192x512_S512x8192_1_0 : S8192x512.Transposes [1, 0] S512x8192
  reducesTo_S8192x8192_S8192_d1 : S8192x8192.ReducesTo [1] S8192
  h_S_ : 0 < S_.numel
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  slices_S4x2x512x1_S1x1x512x1_0_0_0_0 : S4x2x512x1.Slices ![0, 0, 0, 0] S1x1x512x1
  shapeCasts_S1x1x512x1_S512x1 : S1x1x512x1.ShapeCasts S512x1
  slices_S4x2x512x1_S1x1x512x1_0_1_0_0 : S4x2x512x1.Slices ![0, 1, 0, 0] S1x1x512x1
  shapeCasts_S8192x1_S8192 : S8192x1.ShapeCasts S8192
  bcast_S_S4096 : S_.BroadcastsInDim S4096 (![] : Fin 0 → Fin S4096.rank)
  bcast_S_S4096x512 : S_.BroadcastsInDim S4096x512 (![] : Fin 0 → Fin S4096x512.rank)
  bcast_S4096_S4096x1_0 : S4096.BroadcastsInDim S4096x1 (![0] : Fin 1 → Fin S4096x1.rank)
  bcast_S4096x1_S4096x512_0_1 : S4096x1.BroadcastsInDim S4096x512 (![0, 1] : Fin 2 → Fin S4096x512.rank)
  slices_S3x1x512_S1x1x512_0_0_0 : S3x1x512.Slices ![0, 0, 0] S1x1x512
  shapeCasts_S1x1x512_S1x512 : S1x1x512.ShapeCasts S1x512
  bcast_S1x512_S4096x512_0_1 : S1x512.BroadcastsInDim S4096x512 (![0, 1] : Fin 2 → Fin S4096x512.rank)
  slices_S4x2x512x1_S1x1x512x1_1_0_0_0 : S4x2x512x1.Slices ![1, 0, 0, 0] S1x1x512x1
  slices_S4x2x512x1_S1x1x512x1_1_1_0_0 : S4x2x512x1.Slices ![1, 1, 0, 0] S1x1x512x1
  slices_S3x1x512_S1x1x512_1_0_0 : S3x1x512.Slices ![1, 0, 0] S1x1x512
  slices_S4x2x512x1_S1x1x512x1_2_0_0_0 : S4x2x512x1.Slices ![2, 0, 0, 0] S1x1x512x1
  slices_S4x2x512x1_S1x1x512x1_2_1_0_0 : S4x2x512x1.Slices ![2, 1, 0, 0] S1x1x512x1
  slices_S3x1x512_S1x1x512_2_0_0 : S3x1x512.Slices ![2, 0, 0] S1x1x512
  slices_S4x2x512x1_S1x1x512x1_3_0_0_0 : S4x2x512x1.Slices ![3, 0, 0, 0] S1x1x512x1
  slices_S4x2x512x1_S1x1x512x1_3_1_0_0 : S4x2x512x1.Slices ![3, 1, 0, 0] S1x1x512x1
  bcast_S4096x512_S1x4096x512_1_2 : S4096x512.BroadcastsInDim S1x4096x512 (![1, 2] : Fin 2 → Fin S1x4096x512.rank)
  concatenates_S1x4096x512_S1x4096x512_S1x4096x512_S1x4096x512_S4x4096x512_d0 : Shape.Concatenates [S1x4096x512, S1x4096x512, S1x4096x512, S1x4096x512] S4x4096x512 0
  gather_S4096x512_S8192x1_S8192x512_1_0_n_n_0_1_1512_wf : GatherDims.WF S4096x512 S8192x1 S8192x512 [1] [0] [] [0] [] 1 ![1, 512]
  scatter_S8192x512_S8192x1_S8192x512_1_0_0_1_wf : ScatterDims.WF S8192x512 S8192x1 S8192x512 [1] [0] [0] 1
  dot_S8192x512_S512x8192_S8192x8192_1_0_0_1_n_n_wf : DotDims.WF S8192x512 S512x8192 S8192x8192 [1] [0] [0] [1] [] []
  dot_S8192x8192_S8192x512_S8192x512_1_0_0_1_n_n_wf : DotDims.WF S8192x8192 S8192x512 S8192x512 [1] [0] [0] [1] [] []
  dot_S8192x512_S512x1_S8192x1_1_0_0_1_n_n_wf : DotDims.WF S8192x512 S512x1 S8192x1 [1] [0] [0] [1] [] []
  gather_S8192x512_S8192x1_S8192x512_1_0_n_n_0_1_1512_wf : GatherDims.WF S8192x512 S8192x1 S8192x512 [1] [0] [] [0] [] 1 ![1, 512]
  scatter_S4096_S8192x1_S8192_n_0_0_1_wf : ScatterDims.WF S4096 S8192x1 S8192 [] [0] [0] 1
  scatter_S4096x512_S8192x1_S8192x512_1_0_0_1_wf : ScatterDims.WF S4096x512 S8192x1 S8192x512 [1] [0] [0] 1

variable [Facts₀]

def gather_S4096x512_S8192x1_S8192x512_1_0_n_n_0_1_1512 : GatherDims S4096x512 S8192x1 S8192x512 where
  offsetDims := [1]
  collapsedSliceDims := [0]
  operandBatchingDims := []
  startIndicesBatchingDims := []
  startIndexMap := [0]
  indexVectorDim := 1
  sliceSizes := ![1, 512]
  wf := gather_S4096x512_S8192x1_S8192x512_1_0_n_n_0_1_1512_wf
def scatter_S8192x512_S8192x1_S8192x512_1_0_0_1 : ScatterDims S8192x512 S8192x1 S8192x512 where
  updateWindowDims := [1]
  insertedWindowDims := [0]
  scatterDimsToOperandDims := [0]
  indexVectorDim := 1
  wf := scatter_S8192x512_S8192x1_S8192x512_1_0_0_1_wf
def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf
def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf
def dot_S8192x512_S512x1_S8192x1_1_0_0_1_n_n : DotDims S8192x512 S512x1 S8192x1 where
  lhsContracting := [1]
  rhsContracting := [0]
  lhsNonContracting := [0]
  rhsNonContracting := [1]
  lhsBatch := []
  rhsBatch := []
  wf := dot_S8192x512_S512x1_S8192x1_1_0_0_1_n_n_wf
def gather_S8192x512_S8192x1_S8192x512_1_0_n_n_0_1_1512 : GatherDims S8192x512 S8192x1 S8192x512 where
  offsetDims := [1]
  collapsedSliceDims := [0]
  operandBatchingDims := []
  startIndicesBatchingDims := []
  startIndexMap := [0]
  indexVectorDim := 1
  sliceSizes := ![1, 512]
  wf := gather_S8192x512_S8192x1_S8192x512_1_0_n_n_0_1_1512_wf
def scatter_S4096_S8192x1_S8192_n_0_0_1 : ScatterDims S4096 S8192x1 S8192 where
  updateWindowDims := []
  insertedWindowDims := [0]
  scatterDimsToOperandDims := [0]
  indexVectorDim := 1
  wf := scatter_S4096_S8192x1_S8192_n_0_0_1_wf
def scatter_S4096x512_S8192x1_S8192x512_1_0_0_1 : ScatterDims S4096x512 S8192x1 S8192x512 where
  updateWindowDims := [1]
  insertedWindowDims := [0]
  scatterDimsToOperandDims := [0]
  indexVectorDim := 1
  wf := scatter_S4096x512_S8192x1_S8192x512_1_0_0_1_wf

class Facts : Prop extends Facts₀ where

variable [Facts]
-- ==== Proof.KB.Reg0.lean ====
import proofs.«422445_j52716428591540_1_alg».proof.Proof.Gen.Kernel.Launch
import proofs.«422445_j52716428591540_1_alg».proof.Proof.Gen.Kernel.Skeleton
import proofs.«422445_j52716428591540_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

-- The accumulator row after point n: the cleared row with the column sums of row tiles 0 … n added, tile by tile.
def acc0 (c : Dev nD) : (n : ℕ) → n < cfg0.N → Vec F S1x512 .f32
  | 0, hn => k0_pay2 (k0_pay1 (F := F)) (iblk0 V c 0 ⟨0, hn⟩)
  | n + 1, hn => k0_pay2 (acc0 c n (Nat.lt_of_succ_lt hn)) (iblk0 V c 0 ⟨n + 1, hn⟩)

theorem acc0_first (c : Dev nD) (t : Fin cfg0.N) (h : t.val = 0) :
    acc0 V c t.val t.isLt = k0_pay2 (k0_pay1 (F := F)) (iblk0 V c 0 t) := by
  obtain ⟨n, hn⟩ := t
  cases n with
  | zero => rfl
  | succ n => exact absurd h (Nat.succ_ne_zero n)

theorem acc0_later (c : Dev nD) (t : Fin cfg0.N) (h : t.val ≠ 0) :
    acc0 V c t.val t.isLt
      = k0_pay2 (acc0 V c (t.val - 1) (Nat.lt_of_le_of_lt (Nat.sub_le _ _) t.isLt)) (iblk0 V c 0 t) := by
  obtain ⟨n, hn⟩ := t
  cases n with
  | zero => exact absurd rfl h
  | succ n => rfl

abbrev cond0_0 (i : grid0.Coords) : Prop :=
  (Scalar.cmpi .ne (Scalar.extui (Scalar.cmpi .eq (BitVec.ofNat 32 (i 0).val) 0#32)) 0#32) = 1#1

abbrev cond0_1 (i : grid0.Coords) : Prop := k0_cond2 i = 1#1

theorem hcond0_0 : ∀ t : Fin cfg0.N, cond0_0 (grid0.coords t) ↔ t.val = 0 :=
  (by decide +kernel : ∀ t : Fin grid0.N, cond0_0 (grid0.coords t) ↔ t.val = 0)

theorem hcond0_1 : ∀ t : Fin cfg0.N, cond0_1 (grid0.coords t) ↔ t.val = 3 :=
  (by decide +kernel : ∀ t : Fin grid0.N, cond0_1 (grid0.coords t) ↔ t.val = 3)

theorem liveAt0_0 : ∀ t : Fin cfg0.N, cfg0.idle 0 (grid0.coords t) = false := by decide +kernel

theorem idleAt0_1 : ∀ t : Fin cfg0.N, ¬cond0_1 (grid0.coords t) → cfg0.idle 1 (grid0.coords t) = true := by decide +kernel

theorem noFlush0_1 : ∀ t : Fin cfg0.N, ¬cond0_1 (grid0.coords t) → (cfg0.win 1).flush t = false := by decide +kernel

theorem liveAt0_1 : ∀ t : Fin cfg0.N, cond0_1 (grid0.coords t) → cfg0.idle 1 (grid0.coords t) = false := by decide +kernel

abbrev scM0 : Memref sig .tc .vmem S1x512 .f32 := Memref.whole cc0_scratch0

theorem hz2_0 : (![0, 0] : Fin 2 → Nat) = fun _ => 0 := funext fun a => by fin_cases a <;> rfl

section Body

variable (c : Dev nD) (i : grid0.Coords)
  (arg1 : Memref sig .tc .vmem S2048x512 .f32) (harg1 : arg1.IsWhole)
  (arg2 : Memref sig .tc .vmem S1x512 .f32) (harg2 : arg2.IsWhole)
  (arg3 : Memref sig .tc .vmem S1x512 .f32) (harg3 : arg3.IsWhole)

set_option maxHeartbeats 1000000 in
theorem run0_first
    (hc0 : cond0_0 i) (hc1 : ¬cond0_1 i)
    (x0 : Vec F S2048x512 .f32) (xi1 : Vec F S1x512 .f32) (E : Set ℕ) (K : PUnit → sProp 𝕄) :
    iprop(owns (c : Thread nD τ) arg1 fullShare x0 ∗ owns (c : Thread nD τ) arg2 fullShare xi1
        ∗ (∃ d, owns (c : Thread nD τ) arg3 fullShare d)
        ∗ (iprop(owns (c : Thread nD τ) arg1 fullShare x0 ∗ owns (c : Thread nD τ) arg2 fullShare xi1
            ∗ owns (c : Thread nD τ) arg3 fullShare (k0_pay2 (k0_pay1 (F := F)) x0)) -∗ K ⟨⟩))
      ⊢ wp frame (wpE (defs₀ (F := F)) Variants.none c none) E (cc0__reduce_kernel i arg1 harg1 arg2 harg2 arg3 harg3) K := by
  simp only [cc0__reduce_kernel_eq_skeleton]; unfold cc0__reduce_kernel_skel
  unfold owns
  iintro ⟨⟨%f0, %hf0, H0⟩, ⟨%f1, %hf1, H1⟩, ⟨%ds0, %fs0, -, HS0⟩, Hk⟩
  obtain rfl := harg1.eq_unread hf0; obtain rfl := harg2.eq_unread hf1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS0
  ipureintro

  sl_unfold_words
  rw [View.read_writes_eq_canon _ _ _ (fun y => ⟨_, List.mem_cons_self, View.mem_set_unit_zero hz2_0 inb_S1x512_S1x512_0_0 y⟩)]
  rw [View.canon_cons_unit_zero hz2_0]
  simp only [View.readCov_unit_zero (S := S1x512) _ hz2_0, View.readAt_eq_ld, harg1.read_unread, View.ld_unit_zero (S := S2048x512) hz2_0]

set_option maxHeartbeats 1000000 in
theorem run0_middle
    (hc0 : ¬cond0_0 i) (hc1 : ¬cond0_1 i)
    (x0 : Vec F S2048x512 .f32) (xi1 : Vec F S1x512 .f32) (xs : Vec F S1x512 .f32) (E : Set ℕ) (K : PUnit → sProp 𝕄) :
    iprop(owns (c : Thread nD τ) arg1 fullShare x0 ∗ owns (c : Thread nD τ) arg2 fullShare xi1
        ∗ owns (c : Thread nD τ) arg3 fullShare xs
        ∗ (iprop(owns (c : Thread nD τ) arg1 fullShare x0 ∗ owns (c : Thread nD τ) arg2 fullShare xi1
            ∗ owns (c : Thread nD τ) arg3 fullShare (k0_pay2 xs x0)) -∗ K ⟨⟩))
      ⊢ wp frame (wpE (defs₀ (F := F)) Variants.none c none) E (cc0__reduce_kernel i arg1 harg1 arg2 harg2 arg3 harg3) K := by
  simp only [cc0__reduce_kernel_eq_skeleton]; unfold cc0__reduce_kernel_skel
  unfold owns
  iintro ⟨⟨%f0, %hf0, H0⟩, ⟨%f1, %hf1, H1⟩, ⟨%fs0, %hfs0, HS0⟩, Hk⟩
  obtain rfl := harg1.eq_unread hf0; obtain rfl := harg2.eq_unread hf1; obtain rfl := harg3.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS0
  ipureintro
  sl_unfold_words
  rw [View.read_writes_eq_canon _ _ _ (fun y => ⟨_, List.mem_cons_self, View.mem_set_unit_zero hz2_0 inb_S1x512_S1x512_0_0 y⟩)]
  rw [View.canon_cons_unit_zero hz2_0]
  simp only [View.readAt_eq_ld, harg1.read_unread, harg3.read_unread, View.ld_unit_zero (S := S2048x512) hz2_0, View.ld_unit_zero (S := S1x512) hz2_0]

set_option maxHeartbeats 1000000 in
theorem run0_last
    (hc0 : ¬cond0_0 i) (hc1 : cond0_1 i)
    (x0 : Vec F S2048x512 .f32) (xs : Vec F S1x512 .f32) (E : Set ℕ) (K : PUnit → sProp 𝕄) :
    iprop(owns (c : Thread nD τ) arg1 fullShare x0 ∗ (∃ d, owns (c : Thread nD τ) arg2 fullShare d)
        ∗ owns (c : Thread nD τ) arg3 fullShare xs
        ∗ (iprop(owns (c : Thread nD τ) arg1 fullShare x0 ∗ owns (c : Thread nD τ) arg2 fullShare (k0_pay2 xs x0)
            ∗ owns (c : Thread nD τ) arg3 fullShare (k0_pay2 xs x0)) -∗ K ⟨⟩))
      ⊢ wp frame (wpE (defs₀ (F := F)) Variants.none c none) E (cc0__reduce_kernel i arg1 harg1 arg2 harg2 arg3 harg3) K := by
  simp only [cc0__reduce_kernel_eq_skeleton]; unfold cc0__reduce_kernel_skel
  unfold owns
  iintro ⟨⟨%f0, %hf0, H0⟩, ⟨%d1, %f1, -, H1⟩, ⟨%fs0, %hfs0, HS0⟩, Hk⟩
  obtain rfl := harg1.eq_unread hf0; obtain rfl := harg3.eq_unread hfs0
  sl_exec (disch := first | exact hc0 | exact hc1)
  sl_step
  iapply Hk
  isplitl [H0]
  · iexists _; isplitr; · ipureintro; exact harg1.read_unread _
    iexact H0
  isplitl [H1]
  · iexists _; isplitr
    swap; · iexact H1
    ipureintro
    sl_unfold_words
    rw [View.read_writes_eq_canon _ _ _ (fun y => ⟨_, List.mem_cons_self, View.mem_set_unit_zero hz2_0 inb_S1x512_S1x512_0_0 y⟩)]
    rw [View.canon_cons_unit_zero hz2_0]
    simp only [View.readCov_unit_zero (S := S1x512) _ hz2_0, View.readAt_eq_ld, harg1.read_unread, harg3.read_unread, View.ld_unit_zero (S := S2048x512) hz2_0, View.ld_unit_zero (S := S1x512) hz2_0]
  iexists _; isplitr
  swap; · iexact HS0
  ipureintro
  sl_unfold_words
  rw [View.read_writes_eq_canon _ _ _ (fun y => ⟨_, List.mem_cons_self, View.mem_set_unit_zero hz2_0 inb_S1x512_S1x512_0_0 y⟩)]
  rw [View.canon_cons_unit_zero hz2_0]
  simp only [View.readAt_eq_ld, harg1.read_unread, harg3.read_unread, View.ld_unit_zero (S := S2048x512) hz2_0, View.ld_unit_zero (S := S1x512) hz2_0]

end Body

abbrev rest0 (c : Dev nD) : sProp 𝕄 :=
  Pipeline.scopedRestBut (Ix := Unit) (Name := ℕ) (U := UR sig nD τ) (Lvl := ℕ) (Val := Elt F) spec0 c [cc0_scratch0]

theorem PhiA0_eq (c : Dev nD) :
    (Pipeline.ΦA spec0 c : sProp 𝕄)
      = iprop(((∃ d, owns (c : Thread nD τ) scM0 fullShare d) ∗ rest0 (F := F) c) ∗ (∃ r, prngReg c r)) := by
  unfold Pipeline.ΦA
  rw [Pipeline.scopedRest_split_of_list spec0 c [cc0_scratch0] (by decide) (by decide)]
  simp only [bigSepL_singleton, scM0, owns_whole]; try rfl

def PhiS0 (c : Dev nD) : (n : ℕ) → n ≤ cfg0.N → sProp 𝕄
  | 0, _ => Pipeline.ΦA spec0 c
  | n + 1, hn => iprop((owns (c : Thread nD τ) scM0 fullShare (acc0 V c n hn) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn
      = iprop((owns (c : Thread nD τ) scM0 fullShare (acc0 V c n hn) ∗ rest0 (F := F) c) ∗ (∃ r, prngReg c r)) := rfl

theorem PhiS0_pos (c : Dev nD) (n : ℕ) (h : n ≤ cfg0.N) (hz : n ≠ 0) :
    PhiS0 V c n h
      = iprop((owns (c : Thread nD τ) scM0 fullShare (acc0 V c (n - 1) (by omega)) ∗ rest0 (F := F) c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = acc0 V c t.val t.isLt := by dsimp only [dat0]

theorem before0_0 (c : Dev nD) (t : Fin cfg0.N) (d) : (dat0 V c).before 0 t d = iblk0 V c 0 t := by
  rw [(dat0 V c).before_fetched 0 t (fetch0_0 t) d]
  unfold Dat.fetched Dat.blockOf iblk0; rw [A_eq0]; try rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

-- One grid point, by its index: the first clears and adds, a middle one adds, the last adds and copies out.
set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [liveAt0_0 t], after0_0]
  have hN : t.val < 4 := lt_of_lt_of_eq t.isLt (show cfg0.N = 4 from N_0)
  by_cases h1 : t.val = 3
  · have h0 : ¬t.val = 0 := by omega
    have hc0 : ¬cond0_0 (grid0.coords t) := fun h => h0 ((hcond0_0 t).mp h)
    have hc1 : cond0_1 (grid0.coords t) := (hcond0_1 t).mpr h1
    rw [show (dat0 V c).leavesExact 1 t = owns (c : Thread nD τ) (st0_1 t) fullShare ((dat0 V c).after 1 t) from by
      unfold Dat.leavesExact; rw [liveAt0_1 t hc1], after0_1]
    rw [acc0_later V c t h0, PhiS0_castSucc V c t, PhiS0_pos V c _ _ h0]
    iintro ⟨⟨⟨HS0, HR⟩, Hg⟩, Ho, ⟨%d0, H0⟩, ⟨%d1, H1⟩⟩
    iapply (run0_last c (grid0.coords t) _ _ _ _ _ _ hc0 hc1 (iblk0 V c 0 t)
      (acc0 V c (t.val - 1) (Nat.lt_of_le_of_lt (Nat.sub_le _ _) t.isLt)) Set.univ _)
    isplitl [H0]; · iexact H0
    isplitl [H1]; · iexists _; iexact H1
    isplitl [HS0]; · iexact HS0
    iintro ⟨H0, H1, HS0⟩
    iframe
  · have hc1 : ¬cond0_1 (grid0.coords t) := fun h => h1 ((hcond0_1 t).mp h)
    rw [Dat.leavesExact_idle (dat0 V c) 1 t (idleAt0_1 t hc1) (noFlush0_1 t hc1)]
    by_cases h0 : t.val = 0
    · have hc0 : cond0_0 (grid0.coords t) := (hcond0_0 t).mpr h0
      rw [acc0_first V c t h0, PhiS0_castSucc V c t, PhiS0_zero V c _ _ h0, PhiA0_eq]
      iintro ⟨⟨⟨HS0, HR⟩, Hg⟩, Ho, ⟨%d0, H0⟩, ⟨%d1, H1⟩⟩
      iapply (run0_first c (grid0.coords t) _ _ _ _ _ _ hc0 hc1 (iblk0 V c 0 t) ((dat0 V c).before 1 t d1) Set.univ _)
      iframe H0 H1 HS0
      iintro ⟨H0, H1, HS0⟩
      iframe
      iexists _; iexact H1
    · have hc0 : ¬cond0_0 (grid0.coords t) := fun h => h0 ((hcond0_0 t).mp h)
      rw [acc0_later V c t h0, PhiS0_castSucc V c t, PhiS0_pos V c _ _ h0]
      iintro ⟨⟨⟨HS0, HR⟩, Hg⟩, Ho, ⟨%d0, H0⟩, ⟨%d1, H1⟩⟩
      iapply (run0_middle c (grid0.coords t) _ _ _ _ _ _ hc0 hc1 (iblk0 V c 0 t) ((dat0 V c).before 1 t d1)
        (acc0 V c (t.val - 1) (Nat.lt_of_le_of_lt (Nat.sub_le _ _) t.isLt)) Set.univ _)
      iframe H0 H1 HS0
      iintro ⟨H0, H1, HS0⟩
      iframe
      iexists _; iexact H1

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.ΦA spec0 c := by
  have hN : (Fin.last cfg0.N).val ≠ 0 := by rw [Fin.val_last]; have : cfg0.N = 4 := N_0; omega
  rw [show (dat0 V c).Φ (Fin.last cfg0.N) = PhiS0 V c (Fin.last cfg0.N).val (Nat.le_of_lt_succ (Fin.last cfg0.N).isLt) from rfl,
    PhiS0_pos V c _ _ hN, PhiA0_eq]
  iintro ⟨⟨HS0, HR⟩, Hg⟩
  iframe HR Hg
  iexists _; iexact HS0

end Cert.Kernel.Hand

end
-- ==== Proof.KB.Reg1.lean ====
import proofs.«422445_j52716428591540_1_alg».proof.Proof.Gen.Kernel.Launch
import proofs.«422445_j52716428591540_1_alg».proof.Proof.Gen.Kernel.Skeleton
import proofs.«422445_j52716428591540_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2_1 : (![0, 0] : Fin 2 → Nat) = fun _ => 0 := funext fun a => by fin_cases a <;> rfl

abbrev cond1_0 (i : grid1.Coords) : Prop := (Scalar.cmpi .ne (Scalar.extui (Scalar.cmpi .eq (BitVec.ofNat 32 (i 0).val) 0#32)) 0#32) = 1#1

abbrev cond1_1 (i : grid1.Coords) : Prop := k1_cond2 i = 1#1

theorem hcond1_0 : ∀ t : Fin cfg1.N, cond1_0 (grid1.coords t) ↔ t.val = 0 :=
  (by decide +kernel : ∀ t : Fin grid1.N, cond1_0 (grid1.coords t) ↔ t.val = 0)

theorem hcond1_1 : ∀ t : Fin cfg1.N, cond1_1 (grid1.coords t) ↔ t.val = 3 :=
  (by decide +kernel : ∀ t : Fin grid1.N, cond1_1 (grid1.coords t) ↔ t.val = 3)

theorem read_writes_whole1 {κ : Kind} {sp : Space} (v : View sig κ sp S512x512 .f32) (f : v.ty.Contents (Elt F)) (P : Vec F S512x512 .f32)
    (L : List (View.Piece (Elt F) S512x512 .f32)) :
    v.read (Elt F) (v.writes (Elt F) f ((⟨Rect.unit ![0, 0] S512x512.size inb_S512x512_S512x512_0_0, P⟩ : View.Piece (Elt F) S512x512 .f32) :: L)) = P := by
  rw [View.read_writes_eq_canon v f _ (fun y => ⟨(⟨Rect.unit ![0, 0] S512x512.size inb_S512x512_S512x512_0_0, P⟩ : View.Piece (Elt F) S512x512 .f32),
    List.mem_cons_self, View.mem_set_unit_zero (S := S512x512) hz2_1 inb_S512x512_S512x512_0_0 y⟩)]
  exact View.canon_cons_unit_zero (S := S512x512) hz2_1 inb_S512x512_S512x512_0_0 P L

theorem ld1_a (a : Memref sig .tc .vmem S2048x512 .f32) (f) :
    View.readAt (Elt F) a.view (Rect.unit ![0, 0] S2048x512.size inb_S2048x512_S2048x512_0_0).toLoadRect f = View.read (Elt F) a.view f :=
  View.ld_unit_zero (S := S2048x512) hz2_1 inb_S2048x512_S2048x512_0_0 _

theorem ld1_b (a : Memref sig .tc .vmem S512x1 .f32) (f) :
    View.readAt (Elt F) a.view (Rect.unit ![0, 0] S512x1.size inb_S512x1_S512x1_0_0).toLoadRect f = View.read (Elt F) a.view f :=
  View.ld_unit_zero (S := S512x1) hz2_1 inb_S512x1_S512x1_0_0 _

theorem ld1_c (a : Memref sig .tc .vmem S512x512 .f32) (f) :
    View.readAt (Elt F) a.view (Rect.unit ![0, 0] S512x512.size inb_S512x512_S512x512_0_0).toLoadRect f = View.read (Elt F) a.view f :=
  View.ld_unit_zero (S := S512x512) hz2_1 inb_S512x512_S512x512_0_0 _

section Body

variable (c : Dev nD) (i : grid1.Coords)
  (arg1 : Memref sig .tc .vmem S2048x512 .f32) (harg1 : arg1.IsWhole) (arg2 : Memref sig .tc .vmem S2048x512 .f32) (harg2 : arg2.IsWhole)
  (arg3 : Memref sig .tc .vmem S512x1 .f32) (harg3 : arg3.IsWhole) (arg4 : Memref sig .tc .vmem S512x512 .f32) (harg4 : arg4.IsWhole)
  (arg5 : Memref sig .tc .vmem S512x512 .f32) (harg5 : arg5.IsWhole)

set_option maxHeartbeats 1000000 in
theorem kernel1_A (hc0 : cond1_0 i) (hc1 : ¬cond1_1 i)
    (x0 : Vec F S2048x512 .f32) (x1 : Vec F S2048x512 .f32) (x2 : Vec F S512x1 .f32) (xi : Vec F S512x512 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare xi ∗ owns (c : Thread nD τ) arg5 fullShare (k1_pay2 x0 x1 x2 (k1_pay1 (F := F)))) -∗ K ⟨⟩))
      ⊢ wp frame (wpE (defs₀ (F := F)) Variants.none c none) E (cc1__compute_m_kernel i arg1 harg1 arg2 harg2 arg3 harg3 arg4 harg4 arg5 harg5) K := by
  simp only [cc1__compute_m_kernel_eq_skeleton]; unfold cc1__compute_m_kernel_skel
  unfold owns
  iintro ⟨⟨%f0, %hf0, H0⟩, ⟨%f1, %hf1, H1⟩, ⟨%f2, %hf2, H2⟩, ⟨%f3, %hf3, H3⟩, ⟨%d5, %f5, -, H5⟩, Hk⟩
  subst hf0; subst hf1; subst hf2; subst hf3
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  iexists _; isplitr
  swap; · iexact H5
  ipureintro
  refine (read_writes_whole1 _ _ _ _).trans ?_
  sl_unfold_run_names
  have e5 : arg5.view.readCov [(⟨Rect.unit ![0, 0] S512x512.size inb_S512x512_S512x512_0_0, k1_pay1 (F := F)⟩ : View.Piece (Elt F) S512x512 .f32)]
      (Rect.unit ![0, 0] S512x512.size inb_S512x512_S512x512_0_0).toLoadRect = k1_pay1 (F := F) :=
    View.readCov_unit_zero (Val := Elt F) (S := S512x512) (e := .f32) arg5.view hz2_1 inb_S512x512_S512x512_0_0 (k1_pay1 (F := F))
  rw [ld1_a arg1, ld1_a arg2, ld1_b arg3, e5]

set_option maxHeartbeats 1000000 in
theorem kernel1_B (hc0 : ¬cond1_0 i) (hc1 : ¬cond1_1 i)
    (x0 : Vec F S2048x512 .f32) (x1 : Vec F S2048x512 .f32) (x2 : Vec F S512x1 .f32) (xi : Vec F S512x512 .f32) (xs : Vec F S512x512 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare xi ∗ owns (c : Thread nD τ) arg5 fullShare (k1_pay2 x0 x1 x2 xs)) -∗ K ⟨⟩))
      ⊢ wp frame (wpE (defs₀ (F := F)) Variants.none c none) E (cc1__compute_m_kernel i arg1 harg1 arg2 harg2 arg3 harg3 arg4 harg4 arg5 harg5) K := by
  simp only [cc1__compute_m_kernel_eq_skeleton]; unfold cc1__compute_m_kernel_skel
  unfold owns
  iintro ⟨⟨%f0, %hf0, H0⟩, ⟨%f1, %hf1, H1⟩, ⟨%f2, %hf2, H2⟩, ⟨%f3, %hf3, H3⟩, ⟨%f5, %hf5, H5⟩, Hk⟩
  subst hf0; subst hf1; subst hf2; subst hf3; subst hf5
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  iexists _; isplitr
  swap; · iexact H5
  ipureintro
  refine (read_writes_whole1 _ _ _ _).trans ?_
  rw [ld1_a arg1, ld1_a arg2, ld1_b arg3, ld1_c arg5]

set_option maxHeartbeats 1000000 in
theorem kernel1_C (hc0 : ¬cond1_0 i) (hc1 : cond1_1 i)
    (x0 : Vec F S2048x512 .f32) (x1 : Vec F S2048x512 .f32) (x2 : Vec F S512x1 .f32) (xs : Vec F S512x512 .f32) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k1_pay2 x0 x1 x2 xs) ∗ owns (c : Thread nD τ) arg5 fullShare (k1_pay2 x0 x1 x2 xs)) -∗ K ⟨⟩))
      ⊢ wp frame (wpE (defs₀ (F := F)) Variants.none c none) E (cc1__compute_m_kernel i arg1 harg1 arg2 harg2 arg3 harg3 arg4 harg4 arg5 harg5) K := by
  simp only [cc1__compute_m_kernel_eq_skeleton]; unfold cc1__compute_m_kernel_skel
  unfold owns
  iintro ⟨⟨%f0, %hf0, H0⟩, ⟨%f1, %hf1, H1⟩, ⟨%f2, %hf2, H2⟩, ⟨%d3, %f3, -, H3⟩, ⟨%f5, %hf5, H5⟩, Hk⟩
  subst hf0; subst hf1; subst hf2; subst hf5
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]
  · iexists _; isplitr
    swap; · iexact H3
    ipureintro
    refine (read_writes_whole1 _ _ _ _).trans ?_
    sl_unfold_run_names
    rw [ld1_a arg1, ld1_a arg2, ld1_b arg3, ld1_c arg5]
    exact View.readCov_unit_zero (Val := Elt F) (S := S512x512) (e := .f32) arg5.view hz2_1 inb_S512x512_S512x512_0_0 _
  iexists _; isplitr
  swap; · iexact H5
  ipureintro
  sl_unfold_run_names
  refine (read_writes_whole1 _ _ _ _).trans ?_
  rw [ld1_a arg1, ld1_a arg2, ld1_b arg3, ld1_c arg5]

end Body

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

-- The accumulator after point n: the sum over row tiles 0 … n of Aᵀ·(B / (A·s)), A and B the point's two tiles, s the column vector.
def acc1 (c : Dev nD) : (n : ℕ) → n < cfg1.N → Vec F S512x512 .f32
  | 0, hn => k1_pay2 (iblk1 V c 0 ⟨0, hn⟩) (iblk1 V c 1 ⟨0, hn⟩) (iblk1 V c 2 ⟨0, hn⟩) (k1_pay1 (F := F))
  | n + 1, hn => k1_pay2 (iblk1 V c 0 ⟨n + 1, hn⟩) (iblk1 V c 1 ⟨n + 1, hn⟩) (iblk1 V c 2 ⟨n + 1, hn⟩) (acc1 c n (Nat.lt_of_succ_lt hn))

theorem acc1_zero (c : Dev nD) (t : Fin cfg1.N) (h : t.val = 0) :
    acc1 V c t.val t.isLt = k1_pay2 (iblk1 V c 0 t) (iblk1 V c 1 t) (iblk1 V c 2 t) (k1_pay1 (F := F)) := by
  obtain ⟨n, hn⟩ := t
  cases n with
  | zero => rfl
  | succ n => exact absurd h (Nat.succ_ne_zero n)

theorem acc1_pos (c : Dev nD) (t : Fin cfg1.N) (h : t.val ≠ 0) :
    acc1 V c t.val t.isLt = k1_pay2 (iblk1 V c 0 t) (iblk1 V c 1 t) (iblk1 V c 2 t)
      (acc1 V c (t.val - 1) (Nat.lt_of_le_of_lt (Nat.sub_le _ _) t.isLt)) := by
  obtain ⟨n, hn⟩ := t
  cases n with
  | zero => exact absurd rfl h
  | succ n => rfl

abbrev scM1 : Memref sig .tc .vmem S512x512 .f32 := Memref.whole cc1_scratch0

abbrev but1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(((∃ d, owns (c : Thread nD τ) scM1 fullShare d) ∗ but1 (F := F) c) ∗ (∃ r, prngReg c r)) := by
  unfold Pipeline.ΦA
  rw [Pipeline.scopedRest_split_of_list spec1 c [cc1_scratch0] (by decide) (by decide)]
  simp only [bigSepL_singleton, scM1, owns_whole]; try rfl

def PhiS1 (c : Dev nD) : (n : ℕ) → n ≤ cfg1.N → sProp 𝕄
  | 0, _ => Pipeline.ΦA spec1 c
  | n + 1, hn => iprop((owns (c : Thread nD τ) scM1 fullShare (acc1 V c n hn) ∗ but1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((owns (c : Thread nD τ) scM1 fullShare (acc1 V c n hn) ∗ but1 (F := F) c) ∗ (∃ r, prngReg c r)) := rfl

theorem PhiS1_pos (c : Dev nD) (n : ℕ) (h : n ≤ cfg1.N) (hz : n ≠ 0) :
    PhiS1 V c n h = iprop((owns (c : Thread nD τ) scM1 fullShare (acc1 V c (n - 1) (by omega)) ∗ but1 (F := F) c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = acc1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

theorem PhiS1_castSucc (c : Dev nD) (t : Fin cfg1.N) :
    (dat1 V c).Φ t.castSucc = PhiS1 V c t.val (Nat.le_of_lt t.isLt) := by
  dsimp only [dat1]; simp only [Fin.coe_castSucc]

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel

theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel

theorem liveAt1_3 : ∀ t : Fin cfg1.N, cond1_1 (grid1.coords t) → cfg1.idle 3 (grid1.coords t) = false := by decide +kernel

abbrev ms1_0 (t : Fin cfg1.N) : Memref sig .tc .vmem S2048x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x512 .f32 := win1_3.stage (cfg1.slots t 3)
abbrev hs1_3 (t : Fin cfg1.N) : (ms1_3 t).IsWhole := hstage1_3 ((cfg1.slots t 3).cast nbuf1_3)

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

-- One grid point, by its index: the first starts from the cleared accumulator, the last also copies the sum out.
set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 4 := lt_of_lt_of_eq t.isLt (show cfg1.N = 4 from N_1)
  by_cases h0 : t.val = 0
  · have hc0 : cond1_0 (grid1.coords t) := (hcond1_0 t).mpr h0
    have hc1 : ¬cond1_1 (grid1.coords t) := fun h => by have := (hcond1_1 t).mp h; omega
    rw [Dat.leavesExact_idle (dat1 V c) 3 t (idleAt1_3 t hc1) (noFlush1_3 t hc1)]
    rw [acc1_zero V c t h0]
    rw [PhiS1_castSucc V c t, PhiS1_zero V c _ _ h0, PhiA1_eq]
    iintro ⟨⟨⟨HS, HB⟩, Hg⟩, Ho, ⟨%d0, H0⟩, ⟨%d1, H1⟩, ⟨%d2, H2⟩, ⟨%d3, H3⟩⟩
    iapply (kernel1_A c (grid1.coords t) _ _ _ _ _ _ _ _ _ _ hc0 hc1 (iblk1 V c 0 t) (iblk1 V c 1 t) (iblk1 V c 2 t) ((dat1 V c).before 3 t d3) Set.univ _)
    iframe H0 H1 H2 H3 HS
    iintro ⟨H0, H1, H2, H3, HS⟩
    iframe
    iexists _; iexact H3
  · have hc0 : ¬cond1_0 (grid1.coords t) := fun h => h0 ((hcond1_0 t).mp h)
    rw [acc1_pos V c t h0]
    rw [PhiS1_castSucc V c t, PhiS1_pos V c _ _ h0]
    by_cases h1 : t.val = 3
    · have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3, acc1_pos V c t h0]
      iintro ⟨⟨⟨HS, HB⟩, Hg⟩, Ho, ⟨%d0, H0⟩, ⟨%d1, H1⟩, ⟨%d2, H2⟩, ⟨%d3, H3⟩⟩
      iapply (kernel1_C c (grid1.coords t) _ _ _ _ _ _ _ _ _ _ hc0 hc1 (iblk1 V c 0 t) (iblk1 V c 1 t) (iblk1 V c 2 t) _ Set.univ _)
      iframe H0 H1 H2
      isplitl [H3]; · iexists _; iexact H3
      isplitl [HS]; · iexact HS
      iintro ⟨H0, H1, H2, H3, HS⟩
      iframe
    · have hc1 : ¬cond1_1 (grid1.coords t) := fun h => h1 ((hcond1_1 t).mp h)
      rw [Dat.leavesExact_idle (dat1 V c) 3 t (idleAt1_3 t hc1) (noFlush1_3 t hc1)]
      iintro ⟨⟨⟨HS, HB⟩, Hg⟩, Ho, ⟨%d0, H0⟩, ⟨%d1, H1⟩, ⟨%d2, H2⟩, ⟨%d3, H3⟩⟩
      iapply (kernel1_B c (grid1.coords t) _ _ _ _ _ _ _ _ _ _ hc0 hc1 (iblk1 V c 0 t) (iblk1 V c 1 t) (iblk1 V c 2 t) ((dat1 V c).before 3 t d3) _ Set.univ _)
      iframe H0 H1 H2 H3 HS
      iintro ⟨H0, H1, H2, H3, HS⟩
      iframe
      iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, HB⟩, Hg⟩
  iframe HB Hg
  iexists _; iexact HS

theorem hout1 (c : Dev nD) : (dat1 V c).Φ (Fin.last cfg1.N) ⊢ Pipeline.ΦA spec1 c :=
  Phi_out1 V c _ (by rw [Fin.val_last]; have : cfg1.N = 4 := N_1; omega)

end Cert.Kernel.Hand

end
-- ==== Proof.KB.Reg2.lean ====
import proofs.«422445_j52716428591540_1_alg».proof.Proof.Gen.Kernel.Launch
import proofs.«422445_j52716428591540_1_alg».proof.Proof.Gen.Kernel.Skeleton
import proofs.«422445_j52716428591540_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_L : Rect S2048x512 := Rect.unit (s := S2048x512) ![0, 0] S2048x512.size inb_S2048x512_S2048x512_0_0
abbrev r2_R : Rect S512x512 := Rect.unit (s := S512x512) ![0, 0] S512x512.size inb_S512x512_S512x512_0_0

-- A point's output tile: the product of its row tile with the square factor.
def out2_2 (x0 : Vec F S2048x512 .f32) (x1 : Vec F S512x512 .f32) : Vec F S2048x512 .f32 :=
  View.canon [⟨r2_L, k2_pay1 (View.ld x0 r2_L) (View.ld x1 r2_R)⟩]

theorem cover2_2 (p0 : Vec F S2048x512 .f32) (y : S2048x512.Idx) :
    ∃ pc ∈ ([⟨r2_L, p0⟩] : List (View.Piece (Elt F) S2048x512 .f32)), y ∈ pc.1.set :=
  View.cover_of_tiled [⟨r2_L, p0⟩] S2048x512.size (by rfl) y

set_option maxHeartbeats 1000000 in
theorem sound_kernel2 (c : Dev nD) (E : Set ℕ) (i : grid2.Coords)
    (arg1 : Memref sig .tc .vmem S2048x512 .f32) (harg1 : arg1.IsWhole)
    (arg2 : Memref sig .tc .vmem S512x512 .f32) (harg2 : arg2.IsWhole)
    (arg3 : Memref sig .tc .vmem S2048x512 .f32) (harg3 : arg3.IsWhole)
    (x0 : Vec F S2048x512 .f32) (x1 : Vec F S512x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__matmul_rm_kernel i arg1 harg1 arg2 harg2 arg3 harg3) K := by
  simp only [cc2__matmul_rm_kernel_eq_skeleton]; unfold cc2__matmul_rm_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  iframe H0 H1
  isplitl [H2]; · iexists _; iexact H2
  iintro ⟨H0, H1, H2⟩
  iframe

theorem body_obligation2 (c : Dev nD) : BodyObligation (dat2 (F := F) V c) (defs₀ (F := F)) Variants.none () Set.univ := fun t => by
  rw [bigSep_W2, bigSep_W2]
  exact sound_body2 V c t

end Cert.Kernel.Hand
-- ==== Proof.LibFrame.lean ====
import Idealize.ShloMosaic.Lib.StableHlo.Run

namespace Cert.LibFrame

open Idealize.ShloMosaic

variable {τ : Topo} {sig : RefSig} {Val : EltTy → Type}

-- A buffer keeps its contents over a line of operations each of which writes one buffer outside the list it is in.
theorem after_keeps {ops : List (HloOp τ sig Val)} {A : List (Ref sig .tc)}
    (h : ops.Forall fun op => ∃ y, y ∉ A ∧ op.writes = {Proc.devRef .tc y})
    (V : Valuation τ sig Val) {b : Ref sig .tc} (hb : b ∈ A) :
    StableHlo.after ops V (Proc.devRef .tc b) = V (Proc.devRef .tc b) :=
  StableHlo.after_of_forall_not_mem ops V fun op hop hmem => by
    obtain ⟨y, hy, hw⟩ := (List.forall_iff_forall_mem.mp h) op hop
    rw [hw, Finset.mem_singleton] at hmem
    exact hy (Proc.devRef_injective _ hmem ▸ hb)

-- Running two lines one after the other is running their concatenation.
theorem after_append (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih (op.result V)

end Cert.LibFrame
-- ==== Proof.KB.Run.lean ====
import proofs.«422445_j52716428591540_1_alg».proof.Proof.KB.Reg0
import proofs.«422445_j52716428591540_1_alg».proof.Proof.KB.Reg1
import proofs.«422445_j52716428591540_1_alg».proof.Proof.KB.Reg2
import proofs.«422445_j52716428591540_1_alg».proof.Proof.LibFrame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after main_part0_ops0 (W0 m ρ c)
abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev W3 : Dev nD → Valuation τ sig (Elt F) := fun c => StableHlo.after main_part0_ops1 (W2 m ρ c)
abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b

def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb

abbrev W6 : Dev nD → Valuation τ sig (Elt F) := fun c => StableHlo.after main_part0_ops2 (W5 m ρ c)
abbrev W7 : Dev nD → Valuation τ sig (Elt F) := fun c => StableHlo.after main_part1_ops0 (W6 m ρ c)
abbrev W8 : Dev nD → Valuation τ sig (Elt F) := fun c => StableHlo.after main_part1_ops1 (W7 m ρ c)
abbrev W9 : Dev nD → Valuation τ sig (Elt F) := fun c => StableHlo.after main_part1_ops2 (W8 m ρ c)
abbrev W10 : Dev nD → Valuation τ sig (Elt F) := fun c => StableHlo.after main_part2_ops0 (W9 m ρ c)
abbrev W11 : Dev nD → Valuation τ sig (Elt F) := fun c => StableHlo.after main_part2_ops1 (W10 m ρ c)
abbrev W12 : Dev nD → Valuation τ sig (Elt F) := fun c => StableHlo.after main_part2_ops2 (W11 m ρ c)
abbrev W13 : Dev nD → Valuation τ sig (Elt F) := fun c => StableHlo.after main_part3_ops0 (W12 m ρ c)
abbrev W14 : Dev nD → Valuation τ sig (Elt F) := fun c => StableHlo.after main_part3_ops1 (W13 m ρ c)
abbrev W15 : Dev nD → Valuation τ sig (Elt F) := fun c => StableHlo.after main_part3_ops2 (W14 m ρ c)
abbrev W16 : Dev nD → Valuation τ sig (Elt F) := fun c => StableHlo.after main_part4_ops0 (W15 m ρ c)
abbrev W17 : Dev nD → Valuation τ sig (Elt F) := fun c => StableHlo.after main_part5_ops0 (W16 m ρ c)
abbrev W18 : Dev nD → Valuation τ sig (Elt F) := fun c => StableHlo.after main_part5_ops1 (W17 m ρ c)
abbrev W19 : Dev nD → Valuation τ sig (Elt F) := fun c => StableHlo.after main_part5_ops2 (W18 m ρ c)
abbrev W20 : Dev nD → Valuation τ sig (Elt F) := fun c => StableHlo.after main_part6_ops0 (W19 m ρ c)

abbrev adm : (p : Fin 3) → (pcfgs (F := F) p).Adm := fun p => (cfgs p).toPCfg_adm

def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (W : Dev nD → Valuation τ sig (Elt F))
    (hfresh : ops.Forall fun op => op.fresh = ∅ := by simp only [List.Forall]; repeat' constructor) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W20 m ρ c) ∗ ∃ r, prngReg c r)

theorem toΦA {gr W : Nat} (win : Fin W → Pipeline.WinSpec sig gr) (c : Dev nD) (P : sProp 𝕄) :
    iprop((∃ r, prngReg c r) ∗ P ∗ Pipeline.scopedRest win c) ⊢ (Pipeline.ΦA win c : sProp 𝕄) := by
  unfold Pipeline.ΦA
  iintro ⟨Hp, -, Hr⟩
  isplitl [Hr]; · iexact Hr
  iexact Hp

theorem ofΦA {gr W : Nat} (win : Fin W → Pipeline.WinSpec sig gr) (c : Dev nD) :
    (Pipeline.ΦA win c : sProp 𝕄) ⊢ iprop((∃ r, prngReg c r) ∗ BI.emp ∗ Pipeline.scopedRest win c) := by
  unfold Pipeline.ΦA
  iintro ⟨Hr, Hp⟩
  isplitl [Hp]; · iexact Hp
  isplitr; · iempintro
  iexact Hr

-- A region of @main as a step from contents Win to Wout: Wout has the region's arrays at their final contents and agrees with Win elsewhere.
set_option backward.isDefEq.respectTransparency.types false in
def regSeg (p : Fin 3) (launch : Pipeline.LaunchFacts (nD := nD) (τ := τ) cfgs p) (Win Wout : Dev nD → Valuation τ sig (Elt F))
    (hbody : ∀ c, Pipeline.BodyObligationLoose (pdats m ρ p c) defs₀ 𝒱₀ () Set.univ)
    (hq : ∀ c w, (pdats m ρ p c).share w = fullShare) (howed : ∀ c t, (pdats m ρ p c).owed t = 0)
    (hrec : ∀ c, (pdats m ρ p c).recorded 0 = Set.univ)
    (hA : ∀ c w, (pdats m ρ p c).A w = Win c (Pipeline.arrRef (Pipeline.pin (pcfgs (F := F)) adm p).spec w))
    (hin : ∀ c, (Pipeline.ΦA (Pipeline.pin (pcfgs (F := F)) adm p).spec c : sProp 𝕄) ⊢ (pdats m ρ p c).Φ 0)
    (hout : ∀ c, (pdats m ρ p c).Φ (Fin.last (Pipeline.pin (pcfgs (F := F)) adm p).N) ⊢ (Pipeline.ΦA (Pipeline.pin (pcfgs (F := F)) adm p).spec c : sProp 𝕄))
    (hF : ∀ c w, (pdats m ρ p c).arrAt w (Pipeline.pin (pcfgs (F := F)) adm p).N = Wout c (Pipeline.arrRef (Pipeline.pin (pcfgs (F := F)) adm p).spec w))
    (hrest : ∀ c (b : Ref sig .tc), (∀ w, Pipeline.arrRef (Pipeline.pin (pcfgs (F := F)) adm p).spec w ≠ b) → Wout c b = Win c b) :
    Pipeline.RegionSeg (pcfgs (F := F)) adm (pdats m ρ) () defs₀ 𝒱₀ L lv p where
  win := launch.win.to₀
  block_pos := launch.block_pos
  stage_whole := launch.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (fun b => Win c b)
  hentry c := by
    rw [Pipeline.ownSems0_none]
    have hsplit := Pipeline.arrays_of_unscopedBufs (p := p) (pcfgs (F := F)) adm (pdats m ρ) launch.win launch.arr_whole c
      (hq c) (fun b => Win c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [hrec c]; trivial)
      rw [howed c 0]; iexact HO
    isplitl [Hp]; · iexact Hp
    iexact Hrest
  hin c := (toΦA _ c _).trans (hin c)
  hout c := by
    rw [Pipeline.ownSems0_none]
    exact (hout c).trans (ofΦA _ c)
  hexit c := by
    have hjoin := Pipeline.unscopedBufs_of_arrays (p := p) (pcfgs (F := F)) adm (Ix := Unit) (Name := ℕ) (U := UR sig nD τ) (Lvl := ℕ)
      launch.win launch.arr_whole c (pdats m ρ) (hq c) (fun b => Win c b) (fun b => Wout c b)
      ((pdats m ρ p c).arrAt · (Pipeline.pin (pcfgs (F := F)) adm p).N) (hF c)
      (fun b hb => hrest c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

set_option backward.isDefEq.respectTransparency.types false in
def reg0 : Pipeline.RegionSeg (pcfgs (F := F)) adm (pdats m ρ) () defs₀ 𝒱₀ L lv 0 :=
  regSeg m ρ 0 launch0 (W1 m ρ) (W2 m ρ) (fun c => (body_obligation0 (V1 m ρ) c).loose)
    (fun c => (pdats m ρ 0 c).share_full fun _ => rfl) (fun _ _ => rfl) (fun _ => rfl) (fun _ _ => rfl) (hin0 (V1 m ρ)) (hout0 (V1 m ρ))
    (fun c w => (W2_arr m ρ c w).symm) (W2_of_ne m ρ)

set_option backward.isDefEq.respectTransparency.types false in
def reg1 : Pipeline.RegionSeg (pcfgs (F := F)) adm (pdats m ρ) () defs₀ 𝒱₀ L lv 1 :=
  regSeg m ρ 1 launch1 (W3 m ρ) (W4 m ρ) (fun c => (body_obligation1 (V3 m ρ) c).loose)
    (fun c => (pdats m ρ 1 c).share_full fun _ => rfl) (fun _ _ => rfl) (fun _ => rfl) (fun _ _ => rfl) (hin1 (V3 m ρ)) (hout1 (V3 m ρ))
    (fun c w => (W4_arr m ρ c w).symm) (W4_of_ne m ρ)

set_option backward.isDefEq.respectTransparency.types false in
def reg2 : Pipeline.RegionSeg (pcfgs (F := F)) adm (pdats m ρ) () defs₀ 𝒱₀ L lv 2 :=
  regSeg m ρ 2 launch2 (W4 m ρ) (W5 m ρ) (fun c => (body_obligation2 (V4 m ρ) c).loose)
    (fun c => (pdats m ρ 2 c).share_full fun _ => rfl) (fun _ _ => rfl) (fun _ => rfl) (fun _ _ => rfl) (fun _ => .rfl) (fun _ => .rfl)
    (fun c w => (W5_arr m ρ c w).symm) (W5_of_ne m ρ)

abbrev segs : List (Pipeline.Seg (pcfgs (F := F)) adm (pdats m ρ) () defs₀ 𝒱₀ L lv) :=
  [ .host (hseg main_part0_ops0 main_part0_ops0_sub (W0 m ρ)),
    .region (reg0 m ρ),
    .host (hseg main_part0_ops1 main_part0_ops1_sub (W2 m ρ)),
    .region (reg1 m ρ),
    .region (reg2 m ρ),
    .host (hseg main_part0_ops2 main_part0_ops2_sub (W5 m ρ)),
    .host (hseg main_part1_ops0 main_part1_ops0_sub (W6 m ρ)),
    .host (hseg main_part1_ops1 main_part1_ops1_sub (W7 m ρ)),
    .host (hseg main_part1_ops2 main_part1_ops2_sub (W8 m ρ)),
    .host (hseg main_part2_ops0 main_part2_ops0_sub (W9 m ρ)),
    .host (hseg main_part2_ops1 main_part2_ops1_sub (W10 m ρ)),
    .host (hseg main_part2_ops2 main_part2_ops2_sub (W11 m ρ)),
    .host (hseg main_part3_ops0 main_part3_ops0_sub (W12 m ρ)),
    .host (hseg main_part3_ops1 main_part3_ops1_sub (W13 m ρ)),
    .host (hseg main_part3_ops2 main_part3_ops2_sub (W14 m ρ)),
    .host (hseg main_part4_ops0 main_part4_ops0_sub (W15 m ρ)),
    .host (hseg main_part5_ops0 main_part5_ops0_sub (W16 m ρ)),
    .host (hseg main_part5_ops1 main_part5_ops1_sub (W17 m ρ)),
    .host (hseg main_part5_ops2 main_part5_ops2_sub (W18 m ρ)),
    .host (hseg main_part6_ops0 main_part6_ops0_sub (W19 m ρ)) ]

theorem main_run (c : Dev nD) : main (F := F) c = Pipeline.Seg.run (segs m ρ) := (main_chain_windows c).trans (by chain_rfl)

abbrev args : List (Ref sig .tc) := [main_arg0, main_arg1, main_arg2, main_arg3, main_arg4]

-- A stretch whose operations each write one buffer that is not an argument leaves the arguments as they were.
theorem keeps (ops : List (HloOp τ sig (Elt F))) (W : Valuation τ sig (Elt F)) {b : Ref sig .tc} (hb : b ∈ args)
    (h : ops.Forall (fun op => ∃ y, y ∉ args ∧ op.writes = {Proc.devRef .tc y}) := by
      simp only [List.Forall]; repeat' (first | exact ⟨_, by decide, rfl⟩ | constructor)) :
    StableHlo.after ops W (Proc.devRef .tc b) = W (Proc.devRef .tc b) :=
  Cert.LibFrame.after_keeps h W hb

theorem mem_args {b : Ref sig .tc}
    (hb : b = main_arg0 ∨ b = main_arg1 ∨ b = main_arg2 ∨ b = main_arg3 ∨ b = main_arg4) : b ∈ args := by
  rcases hb with rfl | rfl | rfl | rfl | rfl <;> decide

theorem W5_arg (c : Dev nD) (b : Ref sig .tc)
    (hb : b = main_arg0 ∨ b = main_arg1 ∨ b = main_arg2 ∨ b = main_arg3 ∨ b = main_arg4) :
    W5 m ρ c (Proc.devRef .tc b) = m ((c : Thread nD τ).loc b) := by
  refine (W5_of_ne m ρ c b ?_).trans ((W4_of_ne m ρ c b ?_).trans ((keeps main_part0_ops1 _ (mem_args hb)).trans
    ((W2_of_ne m ρ c b ?_).trans (keeps main_part0_ops0 _ (mem_args hb))))) <;>
    rcases hb with rfl | rfl | rfl | rfl | rfl <;> decide

theorem W20_arg (c : Dev nD) (b : Ref sig .tc)
    (hb : b = main_arg0 ∨ b = main_arg1 ∨ b = main_arg2 ∨ b = main_arg3 ∨ b = main_arg4) :
    W20 m ρ c (Proc.devRef .tc b) = m ((c : Thread nD τ).loc b) :=
  have hb' := mem_args hb
  (keeps main_part6_ops0 _ hb').trans (
  (keeps main_part5_ops2 _ hb').trans (
  (keeps main_part5_ops1 _ hb').trans (
  (keeps main_part5_ops0 _ hb').trans (
  (keeps main_part4_ops0 _ hb').trans (
  (keeps main_part3_ops2 _ hb').trans (
  (keeps main_part3_ops1 _ hb').trans (
  (keeps main_part3_ops0 _ hb').trans (
  (keeps main_part2_ops2 _ hb').trans (
  (keeps main_part2_ops1 _ hb').trans (
  (keeps main_part2_ops0 _ hb').trans (
  (keeps main_part1_ops2 _ hb').trans (
  (keeps main_part1_ops1 _ hb').trans (
  (keeps main_part1_ops0 _ hb').trans (
  (keeps main_part0_ops2 _ hb').trans (W5_arg m ρ c b hb)))))))))))))))

-- Every weakly fair execution of @main terminates, nothing faulting, with each unscoped buffer at the last boundary's contents.
set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W20 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W20 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c => h c)

theorem run_val : θ_run defs (onTc (τ := τ) (main (F := F))) ⟨m, fun _ => 0, ρ⟩ (fun r => ∀ c : Dev nD,
      r.2.mem ((c.tc : Thread nD τ).loc main_v303) = W20 m ρ c (Proc.devRef .tc main_v303)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨h c _ (mem_uc main_v303 (by decide)),
    (h c _ (mem_uc main_arg0 (by decide))).trans (W20_arg m ρ c main_arg0 (Or.inl rfl)),
    (h c _ (mem_uc main_arg1 (by decide))).trans (W20_arg m ρ c main_arg1 (Or.inr (Or.inl rfl))),
    (h c _ (mem_uc main_arg2 (by decide))).trans (W20_arg m ρ c main_arg2 (Or.inr (Or.inr (Or.inl rfl)))),
    (h c _ (mem_uc main_arg3 (by decide))).trans (W20_arg m ρ c main_arg3 (Or.inr (Or.inr (Or.inr (Or.inl rfl))))),
    (h c _ (mem_uc main_arg4 (by decide))).trans (W20_arg m ρ c main_arg4 (Or.inr (Or.inr (Or.inr (Or.inr rfl)))))⟩)
    (run_all m ρ)

end Cert.Kernel.Hand

end
-- ==== Proof.KI.Reg0.lean ====
import proofs.«422445_j52716428591540_1_alg».proof.Proof.Gen.KernelIdeal.Launch
import proofs.«422445_j52716428591540_1_alg».proof.Proof.Gen.KernelIdeal.Skeleton
import proofs.«422445_j52716428591540_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

-- The accumulator row after point n: the cleared row with the column sums of row tiles 0 … n added, tile by tile.
def acc0 (c : Dev nD) : (n : ℕ) → n < cfg0.N → Vec F S1x512 .f32
  | 0, hn => k0_pay2 (k0_pay1 (F := F)) (iblk0 V c 0 ⟨0, hn⟩)
  | n + 1, hn => k0_pay2 (acc0 c n (Nat.lt_of_succ_lt hn)) (iblk0 V c 0 ⟨n + 1, hn⟩)

theorem acc0_first (c : Dev nD) (t : Fin cfg0.N) (h : t.val = 0) :
    acc0 V c t.val t.isLt = k0_pay2 (k0_pay1 (F := F)) (iblk0 V c 0 t) := by
  obtain ⟨n, hn⟩ := t
  cases n with
  | zero => rfl
  | succ n => exact absurd h (Nat.succ_ne_zero n)

theorem acc0_later (c : Dev nD) (t : Fin cfg0.N) (h : t.val ≠ 0) :
    acc0 V c t.val t.isLt
      = k0_pay2 (acc0 V c (t.val - 1) (Nat.lt_of_le_of_lt (Nat.sub_le _ _) t.isLt)) (iblk0 V c 0 t) := by
  obtain ⟨n, hn⟩ := t
  cases n with
  | zero => exact absurd rfl h
  | succ n => rfl

abbrev cond0_0 (i : grid0.Coords) : Prop :=
  (Scalar.cmpi .ne (Scalar.extui (Scalar.cmpi .eq (BitVec.ofNat 32 (i 0).val) 0#32)) 0#32) = 1#1

abbrev cond0_1 (i : grid0.Coords) : Prop := k0_cond2 i = 1#1

theorem hcond0_0 : ∀ t : Fin cfg0.N, cond0_0 (grid0.coords t) ↔ t.val = 0 :=
  (by decide +kernel : ∀ t : Fin grid0.N, cond0_0 (grid0.coords t) ↔ t.val = 0)

theorem hcond0_1 : ∀ t : Fin cfg0.N, cond0_1 (grid0.coords t) ↔ t.val = 3 :=
  (by decide +kernel : ∀ t : Fin grid0.N, cond0_1 (grid0.coords t) ↔ t.val = 3)

theorem liveAt0_0 : ∀ t : Fin cfg0.N, cfg0.idle 0 (grid0.coords t) = false := by decide +kernel

theorem idleAt0_1 : ∀ t : Fin cfg0.N, ¬cond0_1 (grid0.coords t) → cfg0.idle 1 (grid0.coords t) = true := by decide +kernel

theorem noFlush0_1 : ∀ t : Fin cfg0.N, ¬cond0_1 (grid0.coords t) → (cfg0.win 1).flush t = false := by decide +kernel

theorem liveAt0_1 : ∀ t : Fin cfg0.N, cond0_1 (grid0.coords t) → cfg0.idle 1 (grid0.coords t) = false := by decide +kernel

abbrev scM0 : Memref sig .tc .vmem S1x512 .f32 := Memref.whole cc0_scratch0

theorem hz2_0 : (![0, 0] : Fin 2 → Nat) = fun _ => 0 := funext fun a => by fin_cases a <;> rfl

section Body

variable (c : Dev nD) (i : grid0.Coords)
  (arg1 : Memref sig .tc .vmem S2048x512 .f32) (harg1 : arg1.IsWhole)
  (arg2 : Memref sig .tc .vmem S1x512 .f32) (harg2 : arg2.IsWhole)
  (arg3 : Memref sig .tc .vmem S1x512 .f32) (harg3 : arg3.IsWhole)

set_option maxHeartbeats 1000000 in
theorem run0_first
    (hc0 : cond0_0 i) (hc1 : ¬cond0_1 i)
    (x0 : Vec F S2048x512 .f32) (xi1 : Vec F S1x512 .f32) (E : Set ℕ) (K : PUnit → sProp 𝕄) :
    iprop(owns (c : Thread nD τ) arg1 fullShare x0 ∗ owns (c : Thread nD τ) arg2 fullShare xi1
        ∗ (∃ d, owns (c : Thread nD τ) arg3 fullShare d)
        ∗ (iprop(owns (c : Thread nD τ) arg1 fullShare x0 ∗ owns (c : Thread nD τ) arg2 fullShare xi1
            ∗ owns (c : Thread nD τ) arg3 fullShare (k0_pay2 (k0_pay1 (F := F)) x0)) -∗ K ⟨⟩))
      ⊢ wp frame (wpE (defs₀ (F := F)) Variants.none c none) E (cc0__reduce_kernel i arg1 harg1 arg2 harg2 arg3 harg3) K := by
  simp only [cc0__reduce_kernel_eq_skeleton]; unfold cc0__reduce_kernel_skel
  unfold owns
  iintro ⟨⟨%f0, %hf0, H0⟩, ⟨%f1, %hf1, H1⟩, ⟨%ds0, %fs0, -, HS0⟩, Hk⟩
  obtain rfl := harg1.eq_unread hf0; obtain rfl := harg2.eq_unread hf1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS0
  ipureintro

  sl_unfold_words
  rw [View.read_writes_eq_canon _ _ _ (fun y => ⟨_, List.mem_cons_self, View.mem_set_unit_zero hz2_0 inb_S1x512_S1x512_0_0 y⟩)]
  rw [View.canon_cons_unit_zero hz2_0]
  simp only [View.readCov_unit_zero (S := S1x512) _ hz2_0, View.readAt_eq_ld, harg1.read_unread, View.ld_unit_zero (S := S2048x512) hz2_0]

set_option maxHeartbeats 1000000 in
theorem run0_middle
    (hc0 : ¬cond0_0 i) (hc1 : ¬cond0_1 i)
    (x0 : Vec F S2048x512 .f32) (xi1 : Vec F S1x512 .f32) (xs : Vec F S1x512 .f32) (E : Set ℕ) (K : PUnit → sProp 𝕄) :
    iprop(owns (c : Thread nD τ) arg1 fullShare x0 ∗ owns (c : Thread nD τ) arg2 fullShare xi1
        ∗ owns (c : Thread nD τ) arg3 fullShare xs
        ∗ (iprop(owns (c : Thread nD τ) arg1 fullShare x0 ∗ owns (c : Thread nD τ) arg2 fullShare xi1
            ∗ owns (c : Thread nD τ) arg3 fullShare (k0_pay2 xs x0)) -∗ K ⟨⟩))
      ⊢ wp frame (wpE (defs₀ (F := F)) Variants.none c none) E (cc0__reduce_kernel i arg1 harg1 arg2 harg2 arg3 harg3) K := by
  simp only [cc0__reduce_kernel_eq_skeleton]; unfold cc0__reduce_kernel_skel
  unfold owns
  iintro ⟨⟨%f0, %hf0, H0⟩, ⟨%f1, %hf1, H1⟩, ⟨%fs0, %hfs0, HS0⟩, Hk⟩
  obtain rfl := harg1.eq_unread hf0; obtain rfl := harg2.eq_unread hf1; obtain rfl := harg3.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS0
  ipureintro
  sl_unfold_words
  rw [View.read_writes_eq_canon _ _ _ (fun y => ⟨_, List.mem_cons_self, View.mem_set_unit_zero hz2_0 inb_S1x512_S1x512_0_0 y⟩)]
  rw [View.canon_cons_unit_zero hz2_0]
  simp only [View.readAt_eq_ld, harg1.read_unread, harg3.read_unread, View.ld_unit_zero (S := S2048x512) hz2_0, View.ld_unit_zero (S := S1x512) hz2_0]

set_option maxHeartbeats 1000000 in
theorem run0_last
    (hc0 : ¬cond0_0 i) (hc1 : cond0_1 i)
    (x0 : Vec F S2048x512 .f32) (xs : Vec F S1x512 .f32) (E : Set ℕ) (K : PUnit → sProp 𝕄) :
    iprop(owns (c : Thread nD τ) arg1 fullShare x0 ∗ (∃ d, owns (c : Thread nD τ) arg2 fullShare d)
        ∗ owns (c : Thread nD τ) arg3 fullShare xs
        ∗ (iprop(owns (c : Thread nD τ) arg1 fullShare x0 ∗ owns (c : Thread nD τ) arg2 fullShare (k0_pay2 xs x0)
            ∗ owns (c : Thread nD τ) arg3 fullShare (k0_pay2 xs x0)) -∗ K ⟨⟩))
      ⊢ wp frame (wpE (defs₀ (F := F)) Variants.none c none) E (cc0__reduce_kernel i arg1 harg1 arg2 harg2 arg3 harg3) K := by
  simp only [cc0__reduce_kernel_eq_skeleton]; unfold cc0__reduce_kernel_skel
  unfold owns
  iintro ⟨⟨%f0, %hf0, H0⟩, ⟨%d1, %f1, -, H1⟩, ⟨%fs0, %hfs0, HS0⟩, Hk⟩
  obtain rfl := harg1.eq_unread hf0; obtain rfl := harg3.eq_unread hfs0
  sl_exec (disch := first | exact hc0 | exact hc1)
  sl_step
  iapply Hk
  isplitl [H0]
  · iexists _; isplitr; · ipureintro; exact harg1.read_unread _
    iexact H0
  isplitl [H1]
  · iexists _; isplitr
    swap; · iexact H1
    ipureintro
    sl_unfold_words
    rw [View.read_writes_eq_canon _ _ _ (fun y => ⟨_, List.mem_cons_self, View.mem_set_unit_zero hz2_0 inb_S1x512_S1x512_0_0 y⟩)]
    rw [View.canon_cons_unit_zero hz2_0]
    simp only [View.readCov_unit_zero (S := S1x512) _ hz2_0, View.readAt_eq_ld, harg1.read_unread, harg3.read_unread, View.ld_unit_zero (S := S2048x512) hz2_0, View.ld_unit_zero (S := S1x512) hz2_0]
  iexists _; isplitr
  swap; · iexact HS0
  ipureintro
  sl_unfold_words
  rw [View.read_writes_eq_canon _ _ _ (fun y => ⟨_, List.mem_cons_self, View.mem_set_unit_zero hz2_0 inb_S1x512_S1x512_0_0 y⟩)]
  rw [View.canon_cons_unit_zero hz2_0]
  simp only [View.readAt_eq_ld, harg1.read_unread, harg3.read_unread, View.ld_unit_zero (S := S2048x512) hz2_0, View.ld_unit_zero (S := S1x512) hz2_0]

end Body

abbrev rest0 (c : Dev nD) : sProp 𝕄 :=
  Pipeline.scopedRestBut (Ix := Unit) (Name := ℕ) (U := UR sig nD τ) (Lvl := ℕ) (Val := Elt F) spec0 c [cc0_scratch0]

theorem PhiA0_eq (c : Dev nD) :
    (Pipeline.ΦA spec0 c : sProp 𝕄)
      = iprop(((∃ d, owns (c : Thread nD τ) scM0 fullShare d) ∗ rest0 (F := F) c) ∗ (∃ r, prngReg c r)) := by
  unfold Pipeline.ΦA
  rw [Pipeline.scopedRest_split_of_list spec0 c [cc0_scratch0] (by decide) (by decide)]
  simp only [bigSepL_singleton, scM0, owns_whole]; try rfl

def PhiS0 (c : Dev nD) : (n : ℕ) → n ≤ cfg0.N → sProp 𝕄
  | 0, _ => Pipeline.ΦA spec0 c
  | n + 1, hn => iprop((owns (c : Thread nD τ) scM0 fullShare (acc0 V c n hn) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn
      = iprop((owns (c : Thread nD τ) scM0 fullShare (acc0 V c n hn) ∗ rest0 (F := F) c) ∗ (∃ r, prngReg c r)) := rfl

theorem PhiS0_pos (c : Dev nD) (n : ℕ) (h : n ≤ cfg0.N) (hz : n ≠ 0) :
    PhiS0 V c n h
      = iprop((owns (c : Thread nD τ) scM0 fullShare (acc0 V c (n - 1) (by omega)) ∗ rest0 (F := F) c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = acc0 V c t.val t.isLt := by dsimp only [dat0]

theorem before0_0 (c : Dev nD) (t : Fin cfg0.N) (d) : (dat0 V c).before 0 t d = iblk0 V c 0 t := by
  rw [(dat0 V c).before_fetched 0 t (fetch0_0 t) d]
  unfold Dat.fetched Dat.blockOf iblk0; rw [A_eq0]; try rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

-- One grid point, by its index: the first clears and adds, a middle one adds, the last adds and copies out.
set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [liveAt0_0 t], after0_0]
  have hN : t.val < 4 := lt_of_lt_of_eq t.isLt (show cfg0.N = 4 from N_0)
  by_cases h1 : t.val = 3
  · have h0 : ¬t.val = 0 := by omega
    have hc0 : ¬cond0_0 (grid0.coords t) := fun h => h0 ((hcond0_0 t).mp h)
    have hc1 : cond0_1 (grid0.coords t) := (hcond0_1 t).mpr h1
    rw [show (dat0 V c).leavesExact 1 t = owns (c : Thread nD τ) (st0_1 t) fullShare ((dat0 V c).after 1 t) from by
      unfold Dat.leavesExact; rw [liveAt0_1 t hc1], after0_1]
    rw [acc0_later V c t h0, PhiS0_castSucc V c t, PhiS0_pos V c _ _ h0]
    iintro ⟨⟨⟨HS0, HR⟩, Hg⟩, Ho, ⟨%d0, H0⟩, ⟨%d1, H1⟩⟩
    iapply (run0_last c (grid0.coords t) _ _ _ _ _ _ hc0 hc1 (iblk0 V c 0 t)
      (acc0 V c (t.val - 1) (Nat.lt_of_le_of_lt (Nat.sub_le _ _) t.isLt)) Set.univ _)
    isplitl [H0]; · iexact H0
    isplitl [H1]; · iexists _; iexact H1
    isplitl [HS0]; · iexact HS0
    iintro ⟨H0, H1, HS0⟩
    iframe
  · have hc1 : ¬cond0_1 (grid0.coords t) := fun h => h1 ((hcond0_1 t).mp h)
    rw [Dat.leavesExact_idle (dat0 V c) 1 t (idleAt0_1 t hc1) (noFlush0_1 t hc1)]
    by_cases h0 : t.val = 0
    · have hc0 : cond0_0 (grid0.coords t) := (hcond0_0 t).mpr h0
      rw [acc0_first V c t h0, PhiS0_castSucc V c t, PhiS0_zero V c _ _ h0, PhiA0_eq]
      iintro ⟨⟨⟨HS0, HR⟩, Hg⟩, Ho, ⟨%d0, H0⟩, ⟨%d1, H1⟩⟩
      iapply (run0_first c (grid0.coords t) _ _ _ _ _ _ hc0 hc1 (iblk0 V c 0 t) ((dat0 V c).before 1 t d1) Set.univ _)
      iframe H0 H1 HS0
      iintro ⟨H0, H1, HS0⟩
      iframe
      iexists _; iexact H1
    · have hc0 : ¬cond0_0 (grid0.coords t) := fun h => h0 ((hcond0_0 t).mp h)
      rw [acc0_later V c t h0, PhiS0_castSucc V c t, PhiS0_pos V c _ _ h0]
      iintro ⟨⟨⟨HS0, HR⟩, Hg⟩, Ho, ⟨%d0, H0⟩, ⟨%d1, H1⟩⟩
      iapply (run0_middle c (grid0.coords t) _ _ _ _ _ _ hc0 hc1 (iblk0 V c 0 t) ((dat0 V c).before 1 t d1)
        (acc0 V c (t.val - 1) (Nat.lt_of_le_of_lt (Nat.sub_le _ _) t.isLt)) Set.univ _)
      iframe H0 H1 HS0
      iintro ⟨H0, H1, HS0⟩
      iframe
      iexists _; iexact H1

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.ΦA spec0 c := by
  have hN : (Fin.last cfg0.N).val ≠ 0 := by rw [Fin.val_last]; have : cfg0.N = 4 := N_0; omega
  rw [show (dat0 V c).Φ (Fin.last cfg0.N) = PhiS0 V c (Fin.last cfg0.N).val (Nat.le_of_lt_succ (Fin.last cfg0.N).isLt) from rfl,
    PhiS0_pos V c _ _ hN, PhiA0_eq]
  iintro ⟨⟨HS0, HR⟩, Hg⟩
  iframe HR Hg
  iexists _; iexact HS0

end Cert.KernelIdeal.Hand

end
-- ==== Proof.KI.Reg1.lean ====
import proofs.«422445_j52716428591540_1_alg».proof.Proof.Gen.KernelIdeal.Launch
import proofs.«422445_j52716428591540_1_alg».proof.Proof.Gen.KernelIdeal.Skeleton
import proofs.«422445_j52716428591540_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2_1 : (![0, 0] : Fin 2 → Nat) = fun _ => 0 := funext fun a => by fin_cases a <;> rfl

abbrev cond1_0 (i : grid1.Coords) : Prop := (Scalar.cmpi .ne (Scalar.extui (Scalar.cmpi .eq (BitVec.ofNat 32 (i 0).val) 0#32)) 0#32) = 1#1

abbrev cond1_1 (i : grid1.Coords) : Prop := k1_cond2 i = 1#1

theorem hcond1_0 : ∀ t : Fin cfg1.N, cond1_0 (grid1.coords t) ↔ t.val = 0 :=
  (by decide +kernel : ∀ t : Fin grid1.N, cond1_0 (grid1.coords t) ↔ t.val = 0)

theorem hcond1_1 : ∀ t : Fin cfg1.N, cond1_1 (grid1.coords t) ↔ t.val = 3 :=
  (by decide +kernel : ∀ t : Fin grid1.N, cond1_1 (grid1.coords t) ↔ t.val = 3)

theorem read_writes_whole1 {κ : Kind} {sp : Space} (v : View sig κ sp S512x512 .f32) (f : v.ty.Contents (Elt F)) (P : Vec F S512x512 .f32)
    (L : List (View.Piece (Elt F) S512x512 .f32)) :
    v.read (Elt F) (v.writes (Elt F) f ((⟨Rect.unit ![0, 0] S512x512.size inb_S512x512_S512x512_0_0, P⟩ : View.Piece (Elt F) S512x512 .f32) :: L)) = P := by
  rw [View.read_writes_eq_canon v f _ (fun y => ⟨(⟨Rect.unit ![0, 0] S512x512.size inb_S512x512_S512x512_0_0, P⟩ : View.Piece (Elt F) S512x512 .f32),
    List.mem_cons_self, View.mem_set_unit_zero (S := S512x512) hz2_1 inb_S512x512_S512x512_0_0 y⟩)]
  exact View.canon_cons_unit_zero (S := S512x512) hz2_1 inb_S512x512_S512x512_0_0 P L

theorem ld1_a (a : Memref sig .tc .vmem S2048x512 .f32) (f) :
    View.readAt (Elt F) a.view (Rect.unit ![0, 0] S2048x512.size inb_S2048x512_S2048x512_0_0).toLoadRect f = View.read (Elt F) a.view f :=
  View.ld_unit_zero (S := S2048x512) hz2_1 inb_S2048x512_S2048x512_0_0 _

theorem ld1_b (a : Memref sig .tc .vmem S512x1 .f32) (f) :
    View.readAt (Elt F) a.view (Rect.unit ![0, 0] S512x1.size inb_S512x1_S512x1_0_0).toLoadRect f = View.read (Elt F) a.view f :=
  View.ld_unit_zero (S := S512x1) hz2_1 inb_S512x1_S512x1_0_0 _

theorem ld1_c (a : Memref sig .tc .vmem S512x512 .f32) (f) :
    View.readAt (Elt F) a.view (Rect.unit ![0, 0] S512x512.size inb_S512x512_S512x512_0_0).toLoadRect f = View.read (Elt F) a.view f :=
  View.ld_unit_zero (S := S512x512) hz2_1 inb_S512x512_S512x512_0_0 _

section Body

variable (c : Dev nD) (i : grid1.Coords)
  (arg1 : Memref sig .tc .vmem S2048x512 .f32) (harg1 : arg1.IsWhole) (arg2 : Memref sig .tc .vmem S2048x512 .f32) (harg2 : arg2.IsWhole)
  (arg3 : Memref sig .tc .vmem S512x1 .f32) (harg3 : arg3.IsWhole) (arg4 : Memref sig .tc .vmem S512x512 .f32) (harg4 : arg4.IsWhole)
  (arg5 : Memref sig .tc .vmem S512x512 .f32) (harg5 : arg5.IsWhole)

set_option maxHeartbeats 1000000 in
theorem kernel1_A (hc0 : cond1_0 i) (hc1 : ¬cond1_1 i)
    (x0 : Vec F S2048x512 .f32) (x1 : Vec F S2048x512 .f32) (x2 : Vec F S512x1 .f32) (xi : Vec F S512x512 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare xi ∗ owns (c : Thread nD τ) arg5 fullShare (k1_pay2 x0 x1 x2 (k1_pay1 (F := F)))) -∗ K ⟨⟩))
      ⊢ wp frame (wpE (defs₀ (F := F)) Variants.none c none) E (cc1__compute_m_kernel i arg1 harg1 arg2 harg2 arg3 harg3 arg4 harg4 arg5 harg5) K := by
  simp only [cc1__compute_m_kernel_eq_skeleton]; unfold cc1__compute_m_kernel_skel
  unfold owns
  iintro ⟨⟨%f0, %hf0, H0⟩, ⟨%f1, %hf1, H1⟩, ⟨%f2, %hf2, H2⟩, ⟨%f3, %hf3, H3⟩, ⟨%d5, %f5, -, H5⟩, Hk⟩
  subst hf0; subst hf1; subst hf2; subst hf3
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  iexists _; isplitr
  swap; · iexact H5
  ipureintro
  refine (read_writes_whole1 _ _ _ _).trans ?_
  sl_unfold_run_names
  have e5 : arg5.view.readCov [(⟨Rect.unit ![0, 0] S512x512.size inb_S512x512_S512x512_0_0, k1_pay1 (F := F)⟩ : View.Piece (Elt F) S512x512 .f32)]
      (Rect.unit ![0, 0] S512x512.size inb_S512x512_S512x512_0_0).toLoadRect = k1_pay1 (F := F) :=
    View.readCov_unit_zero (Val := Elt F) (S := S512x512) (e := .f32) arg5.view hz2_1 inb_S512x512_S512x512_0_0 (k1_pay1 (F := F))
  rw [ld1_a arg1, ld1_a arg2, ld1_b arg3, e5]

set_option maxHeartbeats 1000000 in
theorem kernel1_B (hc0 : ¬cond1_0 i) (hc1 : ¬cond1_1 i)
    (x0 : Vec F S2048x512 .f32) (x1 : Vec F S2048x512 .f32) (x2 : Vec F S512x1 .f32) (xi : Vec F S512x512 .f32) (xs : Vec F S512x512 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare xi ∗ owns (c : Thread nD τ) arg5 fullShare (k1_pay2 x0 x1 x2 xs)) -∗ K ⟨⟩))
      ⊢ wp frame (wpE (defs₀ (F := F)) Variants.none c none) E (cc1__compute_m_kernel i arg1 harg1 arg2 harg2 arg3 harg3 arg4 harg4 arg5 harg5) K := by
  simp only [cc1__compute_m_kernel_eq_skeleton]; unfold cc1__compute_m_kernel_skel
  unfold owns
  iintro ⟨⟨%f0, %hf0, H0⟩, ⟨%f1, %hf1, H1⟩, ⟨%f2, %hf2, H2⟩, ⟨%f3, %hf3, H3⟩, ⟨%f5, %hf5, H5⟩, Hk⟩
  subst hf0; subst hf1; subst hf2; subst hf3; subst hf5
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  iexists _; isplitr
  swap; · iexact H5
  ipureintro
  refine (read_writes_whole1 _ _ _ _).trans ?_
  rw [ld1_a arg1, ld1_a arg2, ld1_b arg3, ld1_c arg5]

set_option maxHeartbeats 1000000 in
theorem kernel1_C (hc0 : ¬cond1_0 i) (hc1 : cond1_1 i)
    (x0 : Vec F S2048x512 .f32) (x1 : Vec F S2048x512 .f32) (x2 : Vec F S512x1 .f32) (xs : Vec F S512x512 .f32) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k1_pay2 x0 x1 x2 xs) ∗ owns (c : Thread nD τ) arg5 fullShare (k1_pay2 x0 x1 x2 xs)) -∗ K ⟨⟩))
      ⊢ wp frame (wpE (defs₀ (F := F)) Variants.none c none) E (cc1__compute_m_kernel i arg1 harg1 arg2 harg2 arg3 harg3 arg4 harg4 arg5 harg5) K := by
  simp only [cc1__compute_m_kernel_eq_skeleton]; unfold cc1__compute_m_kernel_skel
  unfold owns
  iintro ⟨⟨%f0, %hf0, H0⟩, ⟨%f1, %hf1, H1⟩, ⟨%f2, %hf2, H2⟩, ⟨%d3, %f3, -, H3⟩, ⟨%f5, %hf5, H5⟩, Hk⟩
  subst hf0; subst hf1; subst hf2; subst hf5
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]
  · iexists _; isplitr
    swap; · iexact H3
    ipureintro
    refine (read_writes_whole1 _ _ _ _).trans ?_
    sl_unfold_run_names
    rw [ld1_a arg1, ld1_a arg2, ld1_b arg3, ld1_c arg5]
    exact View.readCov_unit_zero (Val := Elt F) (S := S512x512) (e := .f32) arg5.view hz2_1 inb_S512x512_S512x512_0_0 _
  iexists _; isplitr
  swap; · iexact H5
  ipureintro
  sl_unfold_run_names
  refine (read_writes_whole1 _ _ _ _).trans ?_
  rw [ld1_a arg1, ld1_a arg2, ld1_b arg3, ld1_c arg5]

end Body

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

-- The accumulator after point n: the sum over row tiles 0 … n of Aᵀ·(B / (A·s)), A and B the point's two tiles, s the column vector.
def acc1 (c : Dev nD) : (n : ℕ) → n < cfg1.N → Vec F S512x512 .f32
  | 0, hn => k1_pay2 (iblk1 V c 0 ⟨0, hn⟩) (iblk1 V c 1 ⟨0, hn⟩) (iblk1 V c 2 ⟨0, hn⟩) (k1_pay1 (F := F))
  | n + 1, hn => k1_pay2 (iblk1 V c 0 ⟨n + 1, hn⟩) (iblk1 V c 1 ⟨n + 1, hn⟩) (iblk1 V c 2 ⟨n + 1, hn⟩) (acc1 c n (Nat.lt_of_succ_lt hn))

theorem acc1_zero (c : Dev nD) (t : Fin cfg1.N) (h : t.val = 0) :
    acc1 V c t.val t.isLt = k1_pay2 (iblk1 V c 0 t) (iblk1 V c 1 t) (iblk1 V c 2 t) (k1_pay1 (F := F)) := by
  obtain ⟨n, hn⟩ := t
  cases n with
  | zero => rfl
  | succ n => exact absurd h (Nat.succ_ne_zero n)

theorem acc1_pos (c : Dev nD) (t : Fin cfg1.N) (h : t.val ≠ 0) :
    acc1 V c t.val t.isLt = k1_pay2 (iblk1 V c 0 t) (iblk1 V c 1 t) (iblk1 V c 2 t)
      (acc1 V c (t.val - 1) (Nat.lt_of_le_of_lt (Nat.sub_le _ _) t.isLt)) := by
  obtain ⟨n, hn⟩ := t
  cases n with
  | zero => exact absurd rfl h
  | succ n => rfl

abbrev scM1 : Memref sig .tc .vmem S512x512 .f32 := Memref.whole cc1_scratch0

abbrev but1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(((∃ d, owns (c : Thread nD τ) scM1 fullShare d) ∗ but1 (F := F) c) ∗ (∃ r, prngReg c r)) := by
  unfold Pipeline.ΦA
  rw [Pipeline.scopedRest_split_of_list spec1 c [cc1_scratch0] (by decide) (by decide)]
  simp only [bigSepL_singleton, scM1, owns_whole]; try rfl

def PhiS1 (c : Dev nD) : (n : ℕ) → n ≤ cfg1.N → sProp 𝕄
  | 0, _ => Pipeline.ΦA spec1 c
  | n + 1, hn => iprop((owns (c : Thread nD τ) scM1 fullShare (acc1 V c n hn) ∗ but1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((owns (c : Thread nD τ) scM1 fullShare (acc1 V c n hn) ∗ but1 (F := F) c) ∗ (∃ r, prngReg c r)) := rfl

theorem PhiS1_pos (c : Dev nD) (n : ℕ) (h : n ≤ cfg1.N) (hz : n ≠ 0) :
    PhiS1 V c n h = iprop((owns (c : Thread nD τ) scM1 fullShare (acc1 V c (n - 1) (by omega)) ∗ but1 (F := F) c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = acc1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

theorem PhiS1_castSucc (c : Dev nD) (t : Fin cfg1.N) :
    (dat1 V c).Φ t.castSucc = PhiS1 V c t.val (Nat.le_of_lt t.isLt) := by
  dsimp only [dat1]; simp only [Fin.coe_castSucc]

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel

theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel

theorem liveAt1_3 : ∀ t : Fin cfg1.N, cond1_1 (grid1.coords t) → cfg1.idle 3 (grid1.coords t) = false := by decide +kernel

abbrev ms1_0 (t : Fin cfg1.N) : Memref sig .tc .vmem S2048x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x512 .f32 := win1_3.stage (cfg1.slots t 3)
abbrev hs1_3 (t : Fin cfg1.N) : (ms1_3 t).IsWhole := hstage1_3 ((cfg1.slots t 3).cast nbuf1_3)

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

-- One grid point, by its index: the first starts from the cleared accumulator, the last also copies the sum out.
set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 4 := lt_of_lt_of_eq t.isLt (show cfg1.N = 4 from N_1)
  by_cases h0 : t.val = 0
  · have hc0 : cond1_0 (grid1.coords t) := (hcond1_0 t).mpr h0
    have hc1 : ¬cond1_1 (grid1.coords t) := fun h => by have := (hcond1_1 t).mp h; omega
    rw [Dat.leavesExact_idle (dat1 V c) 3 t (idleAt1_3 t hc1) (noFlush1_3 t hc1)]
    rw [acc1_zero V c t h0]
    rw [PhiS1_castSucc V c t, PhiS1_zero V c _ _ h0, PhiA1_eq]
    iintro ⟨⟨⟨HS, HB⟩, Hg⟩, Ho, ⟨%d0, H0⟩, ⟨%d1, H1⟩, ⟨%d2, H2⟩, ⟨%d3, H3⟩⟩
    iapply (kernel1_A c (grid1.coords t) _ _ _ _ _ _ _ _ _ _ hc0 hc1 (iblk1 V c 0 t) (iblk1 V c 1 t) (iblk1 V c 2 t) ((dat1 V c).before 3 t d3) Set.univ _)
    iframe H0 H1 H2 H3 HS
    iintro ⟨H0, H1, H2, H3, HS⟩
    iframe
    iexists _; iexact H3
  · have hc0 : ¬cond1_0 (grid1.coords t) := fun h => h0 ((hcond1_0 t).mp h)
    rw [acc1_pos V c t h0]
    rw [PhiS1_castSucc V c t, PhiS1_pos V c _ _ h0]
    by_cases h1 : t.val = 3
    · have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3, acc1_pos V c t h0]
      iintro ⟨⟨⟨HS, HB⟩, Hg⟩, Ho, ⟨%d0, H0⟩, ⟨%d1, H1⟩, ⟨%d2, H2⟩, ⟨%d3, H3⟩⟩
      iapply (kernel1_C c (grid1.coords t) _ _ _ _ _ _ _ _ _ _ hc0 hc1 (iblk1 V c 0 t) (iblk1 V c 1 t) (iblk1 V c 2 t) _ Set.univ _)
      iframe H0 H1 H2
      isplitl [H3]; · iexists _; iexact H3
      isplitl [HS]; · iexact HS
      iintro ⟨H0, H1, H2, H3, HS⟩
      iframe
    · have hc1 : ¬cond1_1 (grid1.coords t) := fun h => h1 ((hcond1_1 t).mp h)
      rw [Dat.leavesExact_idle (dat1 V c) 3 t (idleAt1_3 t hc1) (noFlush1_3 t hc1)]
      iintro ⟨⟨⟨HS, HB⟩, Hg⟩, Ho, ⟨%d0, H0⟩, ⟨%d1, H1⟩, ⟨%d2, H2⟩, ⟨%d3, H3⟩⟩
      iapply (kernel1_B c (grid1.coords t) _ _ _ _ _ _ _ _ _ _ hc0 hc1 (iblk1 V c 0 t) (iblk1 V c 1 t) (iblk1 V c 2 t) ((dat1 V c).before 3 t d3) _ Set.univ _)
      iframe H0 H1 H2 H3 HS
      iintro ⟨H0, H1, H2, H3, HS⟩
      iframe
      iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, HB⟩, Hg⟩
  iframe HB Hg
  iexists _; iexact HS

theorem hout1 (c : Dev nD) : (dat1 V c).Φ (Fin.last cfg1.N) ⊢ Pipeline.ΦA spec1 c :=
  Phi_out1 V c _ (by rw [Fin.val_last]; have : cfg1.N = 4 := N_1; omega)

end Cert.KernelIdeal.Hand

end
-- ==== Proof.KI.Reg2.lean ====
import proofs.«422445_j52716428591540_1_alg».proof.Proof.Gen.KernelIdeal.Launch
import proofs.«422445_j52716428591540_1_alg».proof.Proof.Gen.KernelIdeal.Skeleton
import proofs.«422445_j52716428591540_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_L : Rect S2048x512 := Rect.unit (s := S2048x512) ![0, 0] S2048x512.size inb_S2048x512_S2048x512_0_0
abbrev r2_R : Rect S512x512 := Rect.unit (s := S512x512) ![0, 0] S512x512.size inb_S512x512_S512x512_0_0

-- A point's output tile: the product of its row tile with the square factor.
def out2_2 (x0 : Vec F S2048x512 .f32) (x1 : Vec F S512x512 .f32) : Vec F S2048x512 .f32 :=
  View.canon [⟨r2_L, k2_pay1 (View.ld x0 r2_L) (View.ld x1 r2_R)⟩]

theorem cover2_2 (p0 : Vec F S2048x512 .f32) (y : S2048x512.Idx) :
    ∃ pc ∈ ([⟨r2_L, p0⟩] : List (View.Piece (Elt F) S2048x512 .f32)), y ∈ pc.1.set :=
  View.cover_of_tiled [⟨r2_L, p0⟩] S2048x512.size (by rfl) y

set_option maxHeartbeats 1000000 in
theorem sound_kernel2 (c : Dev nD) (E : Set ℕ) (i : grid2.Coords)
    (arg1 : Memref sig .tc .vmem S2048x512 .f32) (harg1 : arg1.IsWhole)
    (arg2 : Memref sig .tc .vmem S512x512 .f32) (harg2 : arg2.IsWhole)
    (arg3 : Memref sig .tc .vmem S2048x512 .f32) (harg3 : arg3.IsWhole)
    (x0 : Vec F S2048x512 .f32) (x1 : Vec F S512x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__matmul_rm_kernel i arg1 harg1 arg2 harg2 arg3 harg3) K := by
  simp only [cc2__matmul_rm_kernel_eq_skeleton]; unfold cc2__matmul_rm_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  iframe H0 H1
  isplitl [H2]; · iexists _; iexact H2
  iintro ⟨H0, H1, H2⟩
  iframe

theorem body_obligation2 (c : Dev nD) : BodyObligation (dat2 (F := F) V c) (defs₀ (F := F)) Variants.none () Set.univ := fun t => by
  rw [bigSep_W2, bigSep_W2]
  exact sound_body2 V c t

end Cert.KernelIdeal.Hand
-- ==== Proof.KI.Run.lean ====
import proofs.«422445_j52716428591540_1_alg».proof.Proof.KI.Reg0
import proofs.«422445_j52716428591540_1_alg».proof.Proof.KI.Reg1
import proofs.«422445_j52716428591540_1_alg».proof.Proof.KI.Reg2
import proofs.«422445_j52716428591540_1_alg».proof.Proof.LibFrame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after main_part0_ops0 (W0 m ρ c)
abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev W3 : Dev nD → Valuation τ sig (Elt F) := fun c => StableHlo.after main_part0_ops1 (W2 m ρ c)
abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b

def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb

abbrev W6 : Dev nD → Valuation τ sig (Elt F) := fun c => StableHlo.after main_part0_ops2 (W5 m ρ c)
abbrev W7 : Dev nD → Valuation τ sig (Elt F) := fun c => StableHlo.after main_part1_ops0 (W6 m ρ c)
abbrev W8 : Dev nD → Valuation τ sig (Elt F) := fun c => StableHlo.after main_part1_ops1 (W7 m ρ c)
abbrev W9 : Dev nD → Valuation τ sig (Elt F) := fun c => StableHlo.after main_part1_ops2 (W8 m ρ c)
abbrev W10 : Dev nD → Valuation τ sig (Elt F) := fun c => StableHlo.after main_part2_ops0 (W9 m ρ c)
abbrev W11 : Dev nD → Valuation τ sig (Elt F) := fun c => StableHlo.after main_part2_ops1 (W10 m ρ c)
abbrev W12 : Dev nD → Valuation τ sig (Elt F) := fun c => StableHlo.after main_part2_ops2 (W11 m ρ c)
abbrev W13 : Dev nD → Valuation τ sig (Elt F) := fun c => StableHlo.after main_part3_ops0 (W12 m ρ c)
abbrev W14 : Dev nD → Valuation τ sig (Elt F) := fun c => StableHlo.after main_part3_ops1 (W13 m ρ c)
abbrev W15 : Dev nD → Valuation τ sig (Elt F) := fun c => StableHlo.after main_part3_ops2 (W14 m ρ c)
abbrev W16 : Dev nD → Valuation τ sig (Elt F) := fun c => StableHlo.after main_part4_ops0 (W15 m ρ c)
abbrev W17 : Dev nD → Valuation τ sig (Elt F) := fun c => StableHlo.after main_part5_ops0 (W16 m ρ c)
abbrev W18 : Dev nD → Valuation τ sig (Elt F) := fun c => StableHlo.after main_part5_ops1 (W17 m ρ c)
abbrev W19 : Dev nD → Valuation τ sig (Elt F) := fun c => StableHlo.after main_part5_ops2 (W18 m ρ c)
abbrev W20 : Dev nD → Valuation τ sig (Elt F) := fun c => StableHlo.after main_part6_ops0 (W19 m ρ c)

abbrev adm : (p : Fin 3) → (pcfgs (F := F) p).Adm := fun p => (cfgs p).toPCfg_adm

def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (W : Dev nD → Valuation τ sig (Elt F))
    (hfresh : ops.Forall fun op => op.fresh = ∅ := by simp only [List.Forall]; repeat' constructor) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W20 m ρ c) ∗ ∃ r, prngReg c r)

theorem toΦA {gr W : Nat} (win : Fin W → Pipeline.WinSpec sig gr) (c : Dev nD) (P : sProp 𝕄) :
    iprop((∃ r, prngReg c r) ∗ P ∗ Pipeline.scopedRest win c) ⊢ (Pipeline.ΦA win c : sProp 𝕄) := by
  unfold Pipeline.ΦA
  iintro ⟨Hp, -, Hr⟩
  isplitl [Hr]; · iexact Hr
  iexact Hp

theorem ofΦA {gr W : Nat} (win : Fin W → Pipeline.WinSpec sig gr) (c : Dev nD) :
    (Pipeline.ΦA win c : sProp 𝕄) ⊢ iprop((∃ r, prngReg c r) ∗ BI.emp ∗ Pipeline.scopedRest win c) := by
  unfold Pipeline.ΦA
  iintro ⟨Hr, Hp⟩
  isplitl [Hp]; · iexact Hp
  isplitr; · iempintro
  iexact Hr

-- A region of @main as a step from contents Win to Wout: Wout has the region's arrays at their final contents and agrees with Win elsewhere.
set_option backward.isDefEq.respectTransparency.types false in
def regSeg (p : Fin 3) (launch : Pipeline.LaunchFacts (nD := nD) (τ := τ) cfgs p) (Win Wout : Dev nD → Valuation τ sig (Elt F))
    (hbody : ∀ c, Pipeline.BodyObligationLoose (pdats m ρ p c) defs₀ 𝒱₀ () Set.univ)
    (hq : ∀ c w, (pdats m ρ p c).share w = fullShare) (howed : ∀ c t, (pdats m ρ p c).owed t = 0)
    (hrec : ∀ c, (pdats m ρ p c).recorded 0 = Set.univ)
    (hA : ∀ c w, (pdats m ρ p c).A w = Win c (Pipeline.arrRef (Pipeline.pin (pcfgs (F := F)) adm p).spec w))
    (hin : ∀ c, (Pipeline.ΦA (Pipeline.pin (pcfgs (F := F)) adm p).spec c : sProp 𝕄) ⊢ (pdats m ρ p c).Φ 0)
    (hout : ∀ c, (pdats m ρ p c).Φ (Fin.last (Pipeline.pin (pcfgs (F := F)) adm p).N) ⊢ (Pipeline.ΦA (Pipeline.pin (pcfgs (F := F)) adm p).spec c : sProp 𝕄))
    (hF : ∀ c w, (pdats m ρ p c).arrAt w (Pipeline.pin (pcfgs (F := F)) adm p).N = Wout c (Pipeline.arrRef (Pipeline.pin (pcfgs (F := F)) adm p).spec w))
    (hrest : ∀ c (b : Ref sig .tc), (∀ w, Pipeline.arrRef (Pipeline.pin (pcfgs (F := F)) adm p).spec w ≠ b) → Wout c b = Win c b) :
    Pipeline.RegionSeg (pcfgs (F := F)) adm (pdats m ρ) () defs₀ 𝒱₀ L lv p where
  win := launch.win.to₀
  block_pos := launch.block_pos
  stage_whole := launch.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (fun b => Win c b)
  hentry c := by
    rw [Pipeline.ownSems0_none]
    have hsplit := Pipeline.arrays_of_unscopedBufs (p := p) (pcfgs (F := F)) adm (pdats m ρ) launch.win launch.arr_whole c
      (hq c) (fun b => Win c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [hrec c]; trivial)
      rw [howed c 0]; iexact HO
    isplitl [Hp]; · iexact Hp
    iexact Hrest
  hin c := (toΦA _ c _).trans (hin c)
  hout c := by
    rw [Pipeline.ownSems0_none]
    exact (hout c).trans (ofΦA _ c)
  hexit c := by
    have hjoin := Pipeline.unscopedBufs_of_arrays (p := p) (pcfgs (F := F)) adm (Ix := Unit) (Name := ℕ) (U := UR sig nD τ) (Lvl := ℕ)
      launch.win launch.arr_whole c (pdats m ρ) (hq c) (fun b => Win c b) (fun b => Wout c b)
      ((pdats m ρ p c).arrAt · (Pipeline.pin (pcfgs (F := F)) adm p).N) (hF c)
      (fun b hb => hrest c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

set_option backward.isDefEq.respectTransparency.types false in
def reg0 : Pipeline.RegionSeg (pcfgs (F := F)) adm (pdats m ρ) () defs₀ 𝒱₀ L lv 0 :=
  regSeg m ρ 0 launch0 (W1 m ρ) (W2 m ρ) (fun c => (body_obligation0 (V1 m ρ) c).loose)
    (fun c => (pdats m ρ 0 c).share_full fun _ => rfl) (fun _ _ => rfl) (fun _ => rfl) (fun _ _ => rfl) (hin0 (V1 m ρ)) (hout0 (V1 m ρ))
    (fun c w => (W2_arr m ρ c w).symm) (W2_of_ne m ρ)

set_option backward.isDefEq.respectTransparency.types false in
def reg1 : Pipeline.RegionSeg (pcfgs (F := F)) adm (pdats m ρ) () defs₀ 𝒱₀ L lv 1 :=
  regSeg m ρ 1 launch1 (W3 m ρ) (W4 m ρ) (fun c => (body_obligation1 (V3 m ρ) c).loose)
    (fun c => (pdats m ρ 1 c).share_full fun _ => rfl) (fun _ _ => rfl) (fun _ => rfl) (fun _ _ => rfl) (hin1 (V3 m ρ)) (hout1 (V3 m ρ))
    (fun c w => (W4_arr m ρ c w).symm) (W4_of_ne m ρ)

set_option backward.isDefEq.respectTransparency.types false in
def reg2 : Pipeline.RegionSeg (pcfgs (F := F)) adm (pdats m ρ) () defs₀ 𝒱₀ L lv 2 :=
  regSeg m ρ 2 launch2 (W4 m ρ) (W5 m ρ) (fun c => (body_obligation2 (V4 m ρ) c).loose)
    (fun c => (pdats m ρ 2 c).share_full fun _ => rfl) (fun _ _ => rfl) (fun _ => rfl) (fun _ _ => rfl) (fun _ => .rfl) (fun _ => .rfl)
    (fun c w => (W5_arr m ρ c w).symm) (W5_of_ne m ρ)

abbrev segs : List (Pipeline.Seg (pcfgs (F := F)) adm (pdats m ρ) () defs₀ 𝒱₀ L lv) :=
  [ .host (hseg main_part0_ops0 main_part0_ops0_sub (W0 m ρ)),
    .region (reg0 m ρ),
    .host (hseg main_part0_ops1 main_part0_ops1_sub (W2 m ρ)),
    .region (reg1 m ρ),
    .region (reg2 m ρ),
    .host (hseg main_part0_ops2 main_part0_ops2_sub (W5 m ρ)),
    .host (hseg main_part1_ops0 main_part1_ops0_sub (W6 m ρ)),
    .host (hseg main_part1_ops1 main_part1_ops1_sub (W7 m ρ)),
    .host (hseg main_part1_ops2 main_part1_ops2_sub (W8 m ρ)),
    .host (hseg main_part2_ops0 main_part2_ops0_sub (W9 m ρ)),
    .host (hseg main_part2_ops1 main_part2_ops1_sub (W10 m ρ)),
    .host (hseg main_part2_ops2 main_part2_ops2_sub (W11 m ρ)),
    .host (hseg main_part3_ops0 main_part3_ops0_sub (W12 m ρ)),
    .host (hseg main_part3_ops1 main_part3_ops1_sub (W13 m ρ)),
    .host (hseg main_part3_ops2 main_part3_ops2_sub (W14 m ρ)),
    .host (hseg main_part4_ops0 main_part4_ops0_sub (W15 m ρ)),
    .host (hseg main_part5_ops0 main_part5_ops0_sub (W16 m ρ)),
    .host (hseg main_part5_ops1 main_part5_ops1_sub (W17 m ρ)),
    .host (hseg main_part5_ops2 main_part5_ops2_sub (W18 m ρ)),
    .host (hseg main_part6_ops0 main_part6_ops0_sub (W19 m ρ)) ]

theorem main_run (c : Dev nD) : main (F := F) c = Pipeline.Seg.run (segs m ρ) := (main_chain_windows c).trans (by chain_rfl)

abbrev args : List (Ref sig .tc) := [main_arg0, main_arg1, main_arg2, main_arg3, main_arg4]

-- A stretch whose operations each write one buffer that is not an argument leaves the arguments as they were.
theorem keeps (ops : List (HloOp τ sig (Elt F))) (W : Valuation τ sig (Elt F)) {b : Ref sig .tc} (hb : b ∈ args)
    (h : ops.Forall (fun op => ∃ y, y ∉ args ∧ op.writes = {Proc.devRef .tc y}) := by
      simp only [List.Forall]; repeat' (first | exact ⟨_, by decide, rfl⟩ | constructor)) :
    StableHlo.after ops W (Proc.devRef .tc b) = W (Proc.devRef .tc b) :=
  Cert.LibFrame.after_keeps h W hb

theorem mem_args {b : Ref sig .tc}
    (hb : b = main_arg0 ∨ b = main_arg1 ∨ b = main_arg2 ∨ b = main_arg3 ∨ b = main_arg4) : b ∈ args := by
  rcases hb with rfl | rfl | rfl | rfl | rfl <;> decide

theorem W5_arg (c : Dev nD) (b : Ref sig .tc)
    (hb : b = main_arg0 ∨ b = main_arg1 ∨ b = main_arg2 ∨ b = main_arg3 ∨ b = main_arg4) :
    W5 m ρ c (Proc.devRef .tc b) = m ((c : Thread nD τ).loc b) := by
  refine (W5_of_ne m ρ c b ?_).trans ((W4_of_ne m ρ c b ?_).trans ((keeps main_part0_ops1 _ (mem_args hb)).trans
    ((W2_of_ne m ρ c b ?_).trans (keeps main_part0_ops0 _ (mem_args hb))))) <;>
    rcases hb with rfl | rfl | rfl | rfl | rfl <;> decide

theorem W20_arg (c : Dev nD) (b : Ref sig .tc)
    (hb : b = main_arg0 ∨ b = main_arg1 ∨ b = main_arg2 ∨ b = main_arg3 ∨ b = main_arg4) :
    W20 m ρ c (Proc.devRef .tc b) = m ((c : Thread nD τ).loc b) :=
  have hb' := mem_args hb
  (keeps main_part6_ops0 _ hb').trans (
  (keeps main_part5_ops2 _ hb').trans (
  (keeps main_part5_ops1 _ hb').trans (
  (keeps main_part5_ops0 _ hb').trans (
  (keeps main_part4_ops0 _ hb').trans (
  (keeps main_part3_ops2 _ hb').trans (
  (keeps main_part3_ops1 _ hb').trans (
  (keeps main_part3_ops0 _ hb').trans (
  (keeps main_part2_ops2 _ hb').trans (
  (keeps main_part2_ops1 _ hb').trans (
  (keeps main_part2_ops0 _ hb').trans (
  (keeps main_part1_ops2 _ hb').trans (
  (keeps main_part1_ops1 _ hb').trans (
  (keeps main_part1_ops0 _ hb').trans (
  (keeps main_part0_ops2 _ hb').trans (W5_arg m ρ c b hb)))))))))))))))

-- Every weakly fair execution of @main terminates, nothing faulting, with each unscoped buffer at the last boundary's contents.
set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W20 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W20 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c => h c)

theorem run_val : θ_run defs (onTc (τ := τ) (main (F := F))) ⟨m, fun _ => 0, ρ⟩ (fun r => ∀ c : Dev nD,
      r.2.mem ((c.tc : Thread nD τ).loc main_v303) = W20 m ρ c (Proc.devRef .tc main_v303)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨h c _ (mem_uc main_v303 (by decide)),
    (h c _ (mem_uc main_arg0 (by decide))).trans (W20_arg m ρ c main_arg0 (Or.inl rfl)),
    (h c _ (mem_uc main_arg1 (by decide))).trans (W20_arg m ρ c main_arg1 (Or.inr (Or.inl rfl))),
    (h c _ (mem_uc main_arg2 (by decide))).trans (W20_arg m ρ c main_arg2 (Or.inr (Or.inr (Or.inl rfl)))),
    (h c _ (mem_uc main_arg3 (by decide))).trans (W20_arg m ρ c main_arg3 (Or.inr (Or.inr (Or.inr (Or.inl rfl))))),
    (h c _ (mem_uc main_arg4 (by decide))).trans (W20_arg m ρ c main_arg4 (Or.inr (Or.inr (Or.inr (Or.inr rfl)))))⟩)
    (run_all m ρ)

end Cert.KernelIdeal.Hand

end
-- ==== Proof.KI.Arr.lean ====
import proofs.«422445_j52716428591540_1_alg».proof.Proof.KI.Reg0
import proofs.«422445_j52716428591540_1_alg».proof.Proof.KI.Reg1
import proofs.«422445_j52716428591540_1_alg».proof.Proof.KI.Reg2
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem arrAt0_in (c : Dev nD) : (dat0 V c).arrAt 0 cfg0.N = V c (Pipeline.arrRef spec0 0) :=
  ((dat0 V c).arrAt_in 0 rfl _).trans (A_eq0 V c 0)

theorem idx0_1 : ∀ t : Fin cfg0.N, win0_1.index t (0 : Fin 2) = 0 ∧ win0_1.index t (1 : Fin 2) = 0 :=
  (by decide +kernel : ∀ t : Fin grid0.N, _)

theorem read_blk0_1 (t : Fin cfg0.N) (G : Vec F S1x512 .f32) (j : S1x512.Idx) :
    ((cfg0.win 1).blk t).view.read (Elt F) G j = G j := by
  obtain ⟨e0, e1⟩ := idx0_1 t
  show G (((cfg0.win 1).blk t).view.emb j) = G j
  congr 1; funext a; apply Fin.ext
  match a with
  | ⟨0, _⟩ => show win0_1.index t (0 : Fin 2) * 1 + 1 * (j 0).val = (j 0).val; omega
  | ⟨1, _⟩ => show win0_1.index t (1 : Fin 2) * 512 + 1 * (j 1).val = (j 1).val; omega

theorem mem_blk0_1 (t : Fin cfg0.N) (i : S1x512.Idx) :
    i ∈ ((cfg0.win 1).blk t).view.set ↔ ∀ a : Fin 2, win0_1.index t a * S1x512.size a ≤ (i a).val ∧ (i a).val < win0_1.index t a * S1x512.size a + S1x512.size a := by
  show i ∈ ((View.whole main_v35).slice (win0_1.rect t)).set ↔ _
  rw [View.set_slice_whole, Rect.mem_set_unit]
  exact Iff.rfl

-- The output row after the region is the accumulator after the last point: only that point writes it back, and its block is the whole row.
theorem arrAt0_out (c : Dev nD) : (dat0 V c).arrAt 1 cfg0.N = acc0 V c 3 (by show 3 < grid0.N; rw [N_0]; decide) := by
  refine (dat0 V c).arrAt_eq_of_cover 1 (acc0 V c 3 (by show 3 < grid0.N; rw [N_0]; decide)) (fun t hf => ?_) (fun i => ?_)
  · have ht : t.val = 3 := by
      have h := (flush0_1 t).mp hf
      have hN : t.val < 4 := lt_of_lt_of_eq t.isLt (show cfg0.N = 4 from N_0)
      omega
    show (cfg0.win 1).cut (grid0.coords t) ((dat0 V c).after 1 t) = _
    rw [after0_1]
    obtain ⟨n, hn⟩ := t
    dsimp only at ht; subst ht
    funext j
    exact (read_blk0_1 ⟨3, hn⟩ (acc0 V c 3 hn) j).symm
  · refine ⟨t0_3, (flush0_1 t0_3).mpr rfl, ?_⟩
    rw [mem_blk0_1]
    obtain ⟨e0, e1⟩ := idx0_1 t0_3
    intro a
    match a with
    | ⟨0, _⟩ =>
      show win0_1.index t0_3 (0 : Fin 2) * 1 ≤ (i 0).val ∧ (i 0).val < win0_1.index t0_3 (0 : Fin 2) * 1 + 1
      have hi : (i 0).val < 1 := (i 0).isLt
      omega
    | ⟨1, _⟩ =>
      show win0_1.index t0_3 (1 : Fin 2) * 512 ≤ (i 1).val ∧ (i 1).val < win0_1.index t0_3 (1 : Fin 2) * 512 + 512
      have hi : (i 1).val < 512 := (i 1).isLt
      omega

theorem arrAt1_in0 (c : Dev nD) : (dat1 V c).arrAt 0 cfg1.N = V c (Pipeline.arrRef spec1 0) :=
  ((dat1 V c).arrAt_in 0 rfl cfg1.N).trans (A_eq1 V c 0)
theorem arrAt1_in1 (c : Dev nD) : (dat1 V c).arrAt 1 cfg1.N = V c (Pipeline.arrRef spec1 1) :=
  ((dat1 V c).arrAt_in 1 rfl cfg1.N).trans (A_eq1 V c 1)
theorem arrAt1_in2 (c : Dev nD) : (dat1 V c).arrAt 2 cfg1.N = V c (Pipeline.arrRef spec1 2) :=
  ((dat1 V c).arrAt_in 2 rfl cfg1.N).trans (A_eq1 V c 2)

theorem origin1_3 : ∀ (t : Fin cfg1.N) (a : Fin win1_3.shape.rank), win1_3.index t a * main_v37.ty.shape.size a = 0 := by
  decide +kernel

theorem last_of_flush1_3 (t : Fin cfg1.N) (hf : (cfg1.win 3).flush t = true) : t = t1_3 := by
  have h3 := (flush1_3 t).mp hf
  have hN : t.val < 4 := lt_of_lt_of_eq t.isLt (show cfg1.N = 4 from N_1)
  exact Fin.ext (by show t.val = 3; omega)

theorem flushed1_3 (c : Dev nD) (t : Fin cfg1.N) (hf : (cfg1.win 3).flush t = true) :
    (dat1 V c).flushed 3 t = ((cfg1.win 3).blk t).view.read (Elt F) (acc1 V c 3 (by show 3 < grid1.N; rw [N_1]; decide)) := by
  obtain rfl := last_of_flush1_3 t hf
  show (cfg1.win 3).cut (grid1.coords t1_3) ((dat1 V c).after 3 t1_3) = _
  rw [after1_3]
  exact (Memref.read_access_unit_zero (Elt F) main_v37 (funext (origin1_3 t1_3)) (fun a => by rw [origin1_3 t1_3 a]; simp)
    (acc1 V c 3 (by show 3 < grid1.N; rw [N_1]; decide))).symm

-- Likewise the output array is the accumulator after the last point.
theorem arrAt1_out (c : Dev nD) : (dat1 V c).arrAt 3 cfg1.N = acc1 V c 3 (by show 3 < grid1.N; rw [N_1]; decide) :=
  (dat1 V c).arrAt_eq_of_cover 3 (acc1 V c 3 (by show 3 < grid1.N; rw [N_1]; decide)) (flushed1_3 V c) fun i =>
    ⟨t1_3, (flush1_3 t1_3).mpr rfl, by
      show i ∈ ((View.whole main_v37).slice (win1_3.rect t1_3)).set
      rw [View.set_slice_whole]
      exact View.mem_set_unit_zero (S := main_v37.ty.shape) (funext (origin1_3 t1_3)) _ i⟩

theorem arrAt2_in0 (c : Dev nD) : (dat2 V c).arrAt 0 cfg2.N = V c (Pipeline.arrRef spec2 0) :=
  ((dat2 V c).arrAt_in 0 rfl cfg2.N).trans (A_eq2 V c 0)
theorem arrAt2_in1 (c : Dev nD) : (dat2 V c).arrAt 1 cfg2.N = V c (Pipeline.arrRef spec2 1) :=
  ((dat2 V c).arrAt_in 1 rfl cfg2.N).trans (A_eq2 V c 1)

theorem zeros2 : (![0, 0] : Fin 2 → Nat) = fun _ => 0 := funext fun a => by fin_cases a <;> rfl

theorem tile_idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

def pt2 (i : S8192x512.Idx) : Fin cfg2.N := ⟨(i 0).val / 2048, by
  have h : (i 0).val < 8192 := (i 0).isLt
  show _ < grid2.N
  rw [N_2]; omega⟩

def loc2 (i : S8192x512.Idx) : S2048x512.Idx := fun d => match d with
  | ⟨0, _⟩ => ⟨(i 0).val % 2048, Nat.mod_lt _ (by decide)⟩
  | ⟨1, _⟩ => i 1

def X2 (c : Dev nD) : Vec F S8192x512 .f32 := fun i =>
  k2_pay1 (iblk2 V c 0 (pt2 i)) (V c (Pipeline.arrRef spec2 1)) (loc2 i)

theorem iblk2_1_eq (c : Dev nD) (t : Fin cfg2.N) : iblk2 V c 1 t = V c (Pipeline.arrRef spec2 1) := by
  obtain ⟨-, -, e2, e3, -, -⟩ := tile_idx2 t
  funext y
  show V c (Pipeline.arrRef spec2 1) (((cfg2.win 1).blk t).view.emb y) = V c (Pipeline.arrRef spec2 1) y
  congr 1
  funext a; apply Fin.ext
  match a with
  | ⟨0, _⟩ => show win2_1.index t (0 : Fin 2) * 512 + 1 * (y 0).val = (y 0).val; omega
  | ⟨1, _⟩ => show win2_1.index t (1 : Fin 2) * 512 + 1 * (y 1).val = (y 1).val; omega

theorem X2_emb (c : Dev nD) (t : Fin cfg2.N) (j : S2048x512.Idx) :
    X2 V c (((cfg2.win 2).blk t).view.emb j) = k2_pay1 (iblk2 V c 0 t) (V c (Pipeline.arrRef spec2 1)) j := by
  obtain ⟨-, -, -, -, e4, e5⟩ := tile_idx2 t
  have hj0 : (j 0).val < 2048 := (j 0).isLt
  have hr : ((((cfg2.win 2).blk t).view.emb j) 0).val = win2_2.index t (0 : Fin 2) * 2048 + 1 * (j 0).val := rfl
  have hc : ((((cfg2.win 2).blk t).view.emb j) 1).val = win2_2.index t (1 : Fin 2) * 512 + 1 * (j 1).val := rfl
  have hp : pt2 (((cfg2.win 2).blk t).view.emb j) = t := by
    apply Fin.ext
    show ((((cfg2.win 2).blk t).view.emb j) 0).val / 2048 = t.val
    rw [hr]; omega
  have hl : loc2 (((cfg2.win 2).blk t).view.emb j) = j := by
    funext a; apply Fin.ext
    match a with
    | ⟨0, _⟩ => show ((((cfg2.win 2).blk t).view.emb j) 0).val % 2048 = (j 0).val; rw [hr]; omega
    | ⟨1, _⟩ => show ((((cfg2.win 2).blk t).view.emb j) 1).val = (j 1).val; rw [hc]; omega
  unfold X2
  rw [hp, hl]

theorem flushed2_eq (c : Dev nD) (t : Fin cfg2.N) :
    (dat2 V c).flushed 2 t = ((cfg2.win 2).blk t).view.read (Elt F) (X2 V c) := by
  show (cfg2.win 2).cut (grid2.coords t) ((dat2 V c).after 2 t) = _
  rw [after2_2]
  unfold out2_2
  rw [View.canon_unit_zero zeros2]
  simp only [View.ld_unit_zero (S := S2048x512) zeros2, View.ld_unit_zero (S := S512x512) zeros2]
  rw [iblk2_1_eq]
  funext j
  exact (X2_emb V c t j).symm

theorem mem_blk2 (t : Fin cfg2.N) (i : S8192x512.Idx) :
    i ∈ ((cfg2.win 2).blk t).view.set ↔ ∀ a : Fin 2, win2_2.index t a * S2048x512.size a ≤ (i a).val ∧ (i a).val < win2_2.index t a * S2048x512.size a + S2048x512.size a := by
  show i ∈ ((View.whole main_v38).slice (win2_2.rect t)).set ↔ _
  rw [View.set_slice_whole, Rect.mem_set_unit]
  exact Iff.rfl

theorem cover2 (i : S8192x512.Idx) : ∃ t : Fin cfg2.N, (cfg2.win 2).flush t = true ∧ i ∈ ((cfg2.win 2).blk t).view.set := by
  refine ⟨pt2 i, flush2_2 _, ?_⟩
  rw [mem_blk2]
  obtain ⟨-, -, -, -, e4, e5⟩ := tile_idx2 (pt2 i)
  have hq : (pt2 i).val = (i 0).val / 2048 := rfl
  have h1 : (i 1).val < 512 := (i 1).isLt
  intro a
  match a with
  | ⟨0, _⟩ => show win2_2.index (pt2 i) (0 : Fin 2) * 2048 ≤ (i 0).val ∧ (i 0).val < win2_2.index (pt2 i) (0 : Fin 2) * 2048 + 2048; omega
  | ⟨1, _⟩ => show win2_2.index (pt2 i) (1 : Fin 2) * 512 ≤ (i 1).val ∧ (i 1).val < win2_2.index (pt2 i) (1 : Fin 2) * 512 + 512; omega

-- Each point writes its own row tile and the tiles cover the rows, so the output after the last point is X.
theorem arrAt2_out (c : Dev nD) : (dat2 V c).arrAt 2 cfg2.N = X2 V c :=
  (dat2 V c).arrAt_eq_of_cover 2 (X2 V c) (fun t _ => flushed2_eq V c t) cover2

end Cert.KernelIdeal.Hand

end
-- ==== Proof.KI.Prefix.lean ====
import proofs.«422445_j52716428591540_1_alg».proof.Proof.Gen.KernelIdeal.Launch
import Idealize.ShloMosaic.Lib.StableHlo.Run

set_option maxRecDepth 2816

noncomputable section

namespace Cert.KernelIdeal.Hand

open Idealize.ShloMosaic Idealize.SL.Sem
open Cert.KernelIdeal Cert.KernelIdeal.Gen

variable {F : FTy → Type} [FloatOps F]

def dstRow (A : IVec S3x8192 32) : IVec S8192 32 :=
  shapeCast S8192 (extractStridedSlice S1x8192 ![0, 0] A slices_S3x8192_S1x8192_0_0) shapeCasts_S1x8192_S8192

def relRow (A : IVec S3x8192 32) : IVec S8192 32 :=
  shapeCast S8192 (extractStridedSlice S1x8192 ![1, 0] A slices_S3x8192_S1x8192_1_0) shapeCasts_S1x8192_S8192

def srcRow (A : IVec S3x8192 32) : IVec S8192 32 :=
  shapeCast S8192 (extractStridedSlice S1x8192 ![2, 0] A slices_S3x8192_S1x8192_2_0) shapeCasts_S1x8192_S8192

def wrapCol4096 (x : IVec S8192 32) : IVec S8192x1 32 :=
  broadcastInDim S8192x1 ![0] bcast_S8192_S8192x1_0
    (select (cmpi .slt x (broadcastInDim S8192 ![] bcast_S_S8192 (constantI S_ 32 0#32)))
      (addi x (broadcastInDim S8192 ![] bcast_S_S8192 (constantI S_ 32 4096#32))) x)

def wrapCol8192 (x : IVec S8192 32) : IVec S8192x1 32 :=
  broadcastInDim S8192x1 ![0] bcast_S8192_S8192x1_0
    (select (cmpi .slt x (broadcastInDim S8192 ![] bcast_S_S8192 (constantI S_ 32 0#32)))
      (addi x (broadcastInDim S8192 ![] bcast_S_S8192 (constantI S_ 32 8192#32))) x)

def bcastCount (r : FVec F S8192 .f32) : FVec F S8192x512 .f32 :=
  broadcastInDim S8192x512 ![0, 1] bcast_S8192x1_S8192x512_0_1 (broadcastInDim S8192x1 ![0] bcast_S8192_S8192x1_0 r)

def edgeH (h : FVec F S4096x512 .f32) (A : IVec S3x8192 32) (r : FVec F S8192 .f32) : FVec F S8192x512 .f32 :=
  Host.divf
    (subf (Host.gather gather_S4096x512_S8192x1_S8192x512_1_0_n_n_0_1_1512 h (wrapCol4096 (srcRow A)))
          (Host.gather gather_S4096x512_S8192x1_S8192x512_1_0_n_n_0_1_1512 h (wrapCol4096 (dstRow A))))
    (bcastCount r)

def preI (h : FVec F S4096x512 .f32) (A : IVec S3x8192 32) (r : FVec F S8192 .f32) : FVec F S8192x512 .f32 :=
  Host.scatterAdd scatter_S8192x512_S8192x1_S8192x512_1_0_0_1
    (broadcastInDim S8192x512 ![] bcast_S_S8192x512 (constant (F := F) S_ .f32 0x00000000#32))
    (wrapCol8192 (relRow A)) (edgeH h A r)

def preR (h : FVec F S4096x512 .f32) (A : IVec S3x8192 32) (r : FVec F S8192 .f32) : FVec F S8192x512 .f32 :=
  Host.divf (preI h A r) (bcastCount r)

variable (W : Valuation τ sig (Elt F))

theorem pre_v1 : StableHlo.after main_part0_ops0 W (Proc.devRef .tc main_v1) = dstRow (W (Proc.devRef .tc main_arg1)) := by
  after_results; rfl

theorem pre_v3 : StableHlo.after main_part0_ops0 W (Proc.devRef .tc main_v3) = relRow (W (Proc.devRef .tc main_arg1)) := by
  after_results; rfl

theorem pre_v5 : StableHlo.after main_part0_ops0 W (Proc.devRef .tc main_v5) = srcRow (W (Proc.devRef .tc main_arg1)) := by
  after_results; rfl

set_option maxHeartbeats 4000000 in
theorem pre_v31 : StableHlo.after main_part0_ops0 W (Proc.devRef .tc main_v31)
    = preI (W (Proc.devRef .tc main_arg0)) (W (Proc.devRef .tc main_arg1)) (W (Proc.devRef .tc main_arg2)) := by
  after_results_simp
  rfl

set_option maxHeartbeats 4000000 in
theorem pre_v34 : StableHlo.after main_part0_ops0 W (Proc.devRef .tc main_v34)
    = preR (W (Proc.devRef .tc main_arg0)) (W (Proc.devRef .tc main_arg1)) (W (Proc.devRef .tc main_arg2)) := by
  after_results_simp
  rfl

theorem pre_keeps (b : Ref sig .tc)
    (hb : b = main_arg0 ∨ b = main_arg1 ∨ b = main_arg2 ∨ b = main_arg3 ∨ b = main_arg4) :
    StableHlo.after main_part0_ops0 W (Proc.devRef .tc b) = W (Proc.devRef .tc b) := by
  rcases hb with rfl | rfl | rfl | rfl | rfl <;>
  exact StableHlo.after_of_forall_not_mem (b := Proc.devRef .tc _) _ _ (List.forall_iff_forall_mem.mp (by
    simp only [main_part0_ops0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

end Cert.KernelIdeal.Hand

end
-- ==== Proof.KI.Glue.lean ====
import proofs.«422445_j52716428591540_1_alg».proof.Proof.KI.Run
import proofs.«422445_j52716428591540_1_alg».proof.Proof.KI.Arr
import proofs.«422445_j52716428591540_1_alg».proof.Proof.KI.Prefix

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

theorem W1_v34 (c : Dev nD) : W1 m ρ c (Proc.devRef .tc main_v34)
    = preR (W0 m ρ c (Proc.devRef .tc main_arg0)) (W0 m ρ c (Proc.devRef .tc main_arg1)) (W0 m ρ c (Proc.devRef .tc main_arg2)) :=
  pre_v34 (W0 m ρ c)
theorem W1_v31 (c : Dev nD) : W1 m ρ c (Proc.devRef .tc main_v31)
    = preI (W0 m ρ c (Proc.devRef .tc main_arg0)) (W0 m ρ c (Proc.devRef .tc main_arg1)) (W0 m ρ c (Proc.devRef .tc main_arg2)) :=
  pre_v31 (W0 m ρ c)
theorem W1_v1 (c : Dev nD) : W1 m ρ c (Proc.devRef .tc main_v1) = dstRow (W0 m ρ c (Proc.devRef .tc main_arg1)) := pre_v1 (W0 m ρ c)
theorem W1_v3 (c : Dev nD) : W1 m ρ c (Proc.devRef .tc main_v3) = relRow (W0 m ρ c (Proc.devRef .tc main_arg1)) := pre_v3 (W0 m ρ c)
theorem W1_v5 (c : Dev nD) : W1 m ρ c (Proc.devRef .tc main_v5) = srcRow (W0 m ρ c (Proc.devRef .tc main_arg1)) := pre_v5 (W0 m ρ c)

theorem W2_v34 (c : Dev nD) : W2 m ρ c (Proc.devRef .tc main_v34) = W1 m ρ c (Proc.devRef .tc main_v34) :=
  (W2_arr m ρ c 0).trans (arrAt0_in (V1 m ρ) c)
theorem W2_v35 (c : Dev nD) : W2 m ρ c (Proc.devRef .tc main_v35) = acc0 (V1 m ρ) c 3 (by show 3 < grid0.N; rw [N_0]; decide) :=
  (W2_arr m ρ c 1).trans (arrAt0_out (V1 m ρ) c)
theorem W2_v31 (c : Dev nD) : W2 m ρ c (Proc.devRef .tc main_v31) = W1 m ρ c (Proc.devRef .tc main_v31) := W2_of_ne m ρ c main_v31 (by decide)
theorem W2_v1 (c : Dev nD) : W2 m ρ c (Proc.devRef .tc main_v1) = W1 m ρ c (Proc.devRef .tc main_v1) := W2_of_ne m ρ c main_v1 (by decide)
theorem W2_v3 (c : Dev nD) : W2 m ρ c (Proc.devRef .tc main_v3) = W1 m ρ c (Proc.devRef .tc main_v3) := W2_of_ne m ρ c main_v3 (by decide)
theorem W2_v5 (c : Dev nD) : W2 m ρ c (Proc.devRef .tc main_v5) = W1 m ρ c (Proc.devRef .tc main_v5) := W2_of_ne m ρ c main_v5 (by decide)

theorem W3_v36 (c : Dev nD) : W3 m ρ c (Proc.devRef .tc main_v36)
    = shapeCast S512x1 (W2 m ρ c (Proc.devRef .tc main_v35) : FVec F S1x512 .f32) shapeCasts_S1x512_S512x1 := by
  show StableHlo.after main_part0_ops1 (W2 m ρ c) (Proc.devRef .tc main_v36) = _
  after_results
  rfl
theorem W3_keep (c : Dev nD) (b : Ref sig .tc) (hb : b ≠ main_v36) :
    W3 m ρ c (Proc.devRef .tc b) = W2 m ρ c (Proc.devRef .tc b) := by
  refine StableHlo.after_of_forall_not_mem (b := Proc.devRef .tc b) _ _ (List.forall_iff_forall_mem.mp ?_)
  simp only [main_part0_ops1, List.Forall, StableHlo.reshape_writes, Finset.mem_singleton]
  exact StableHlo.devRef_ne_of_ne hb

theorem W4_v34 (c : Dev nD) : W4 m ρ c (Proc.devRef .tc main_v34) = W3 m ρ c (Proc.devRef .tc main_v34) :=
  (W4_arr m ρ c 0).trans (arrAt1_in0 (V3 m ρ) c)
theorem W4_v37 (c : Dev nD) : W4 m ρ c (Proc.devRef .tc main_v37) = acc1 (V3 m ρ) c 3 (by show 3 < grid1.N; rw [N_1]; decide) :=
  (W4_arr m ρ c 3).trans (arrAt1_out (V3 m ρ) c)
theorem W4_v1 (c : Dev nD) : W4 m ρ c (Proc.devRef .tc main_v1) = W3 m ρ c (Proc.devRef .tc main_v1) := W4_of_ne m ρ c main_v1 (by decide)
theorem W4_v3 (c : Dev nD) : W4 m ρ c (Proc.devRef .tc main_v3) = W3 m ρ c (Proc.devRef .tc main_v3) := W4_of_ne m ρ c main_v3 (by decide)
theorem W4_v5 (c : Dev nD) : W4 m ρ c (Proc.devRef .tc main_v5) = W3 m ρ c (Proc.devRef .tc main_v5) := W4_of_ne m ρ c main_v5 (by decide)

theorem W5_v38 (c : Dev nD) : W5 m ρ c (Proc.devRef .tc main_v38) = X2 (V4 m ρ) c :=
  (W5_arr m ρ c 2).trans (arrAt2_out (V4 m ρ) c)
theorem W5_v1 (c : Dev nD) : W5 m ρ c (Proc.devRef .tc main_v1) = W4 m ρ c (Proc.devRef .tc main_v1) := W5_of_ne m ρ c main_v1 (by decide)
theorem W5_v3 (c : Dev nD) : W5 m ρ c (Proc.devRef .tc main_v3) = W4 m ρ c (Proc.devRef .tc main_v3) := W5_of_ne m ρ c main_v3 (by decide)
theorem W5_v5 (c : Dev nD) : W5 m ρ c (Proc.devRef .tc main_v5) = W4 m ρ c (Proc.devRef .tc main_v5) := W5_of_ne m ρ c main_v5 (by decide)

theorem W5_rows (c : Dev nD) :
    W5 m ρ c (Proc.devRef .tc main_v1) = dstRow (W0 m ρ c (Proc.devRef .tc main_arg1))
    ∧ W5 m ρ c (Proc.devRef .tc main_v3) = relRow (W0 m ρ c (Proc.devRef .tc main_arg1))
    ∧ W5 m ρ c (Proc.devRef .tc main_v5) = srcRow (W0 m ρ c (Proc.devRef .tc main_arg1)) :=
  ⟨(W5_v1 m ρ c).trans ((W4_v1 m ρ c).trans ((W3_keep m ρ c main_v1 (by decide)).trans ((W2_v1 m ρ c).trans (W1_v1 m ρ c)))),
   (W5_v3 m ρ c).trans ((W4_v3 m ρ c).trans ((W3_keep m ρ c main_v3 (by decide)).trans ((W2_v3 m ρ c).trans (W1_v3 m ρ c)))),
   (W5_v5 m ρ c).trans ((W4_v5 m ρ c).trans ((W3_keep m ρ c main_v5 (by decide)).trans ((W2_v5 m ρ c).trans (W1_v5 m ρ c))))⟩

theorem V3_v34 (c : Dev nD) : V3 m ρ c main_v34 = W1 m ρ c (Proc.devRef .tc main_v34) :=
  (W3_keep m ρ c main_v34 (by decide)).trans (W2_v34 m ρ c)
theorem V3_v31 (c : Dev nD) : V3 m ρ c main_v31 = W1 m ρ c (Proc.devRef .tc main_v31) :=
  (W3_keep m ρ c main_v31 (by decide)).trans (W2_v31 m ρ c)
theorem V3_v36 (c : Dev nD) : V3 m ρ c main_v36
    = shapeCast S512x1 (acc0 (V1 m ρ) c 3 (by show 3 < grid0.N; rw [N_0]; decide)) shapeCasts_S1x512_S512x1 :=
  (W3_v36 m ρ c).trans (by rw [W2_v35])

theorem V4_v34 (c : Dev nD) : V4 m ρ c main_v34 = W1 m ρ c (Proc.devRef .tc main_v34) :=
  (W4_v34 m ρ c).trans (V3_v34 m ρ c)
theorem V4_v37 (c : Dev nD) : V4 m ρ c main_v37 = acc1 (V3 m ρ) c 3 (by show 3 < grid1.N; rw [N_1]; decide) := W4_v37 m ρ c

end Cert.KernelIdeal.Hand

end
-- ==== Proof.KI.PrefixFin.lean ====
import proofs.«422445_j52716428591540_1_alg».proof.Proof.KI.Prefix
import Idealize.ShloMosaic.PureOps.Ideal.Laws

noncomputable section

open scoped BigOperators

namespace Cert.KernelIdeal.Hand

open Idealize.ShloMosaic Idealize.SL.Sem
open Cert.KernelIdeal Cert.KernelIdeal.Gen

def AllReal {S : Shape} (x : FVec Ideal S .f32) : Prop := ∀ i, ∃ y : ℝ, x i = (y : EReal)

theorem real_sub {a b : EReal} (ha : ∃ y : ℝ, a = (y : EReal)) (hb : ∃ y : ℝ, b = (y : EReal)) :
    ∃ y : ℝ, a - b = (y : EReal) := by
  obtain ⟨x, rfl⟩ := ha
  obtain ⟨y, rfl⟩ := hb
  exact ⟨x - y, (EReal.coe_sub x y).symm⟩

theorem real_div {a b : EReal} (ha : ∃ y : ℝ, a = (y : EReal)) (hb : ∃ y : ℝ, b = (y : EReal)) (h0 : b ≠ 0) :
    ∃ y : ℝ, Ideal.div a b = (y : EReal) := by
  obtain ⟨x, rfl⟩ := ha
  obtain ⟨y, rfl⟩ := hb
  have hy : y ≠ 0 := fun h => h0 (by rw [h, EReal.coe_zero])
  rw [Ideal.div_coe hy]
  exact ⟨x * (1 / y), (EReal.coe_mul x (1 / y)).symm⟩

theorem real_sum {ι : Type} (s : Finset ι) (f : ι → EReal) (h : ∀ j ∈ s, ∃ y : ℝ, f j = (y : EReal)) :
    ∃ y : ℝ, ∑ j ∈ s, f j = (y : EReal) := by
  classical
  induction s using Finset.induction_on with
  | empty => exact ⟨0, by rw [Finset.sum_empty, EReal.coe_zero]⟩
  | insert a s ha ih =>
    obtain ⟨x, hx⟩ := h a (Finset.mem_insert_self a s)
    obtain ⟨y, hy⟩ := ih fun j hj => h j (Finset.mem_insert_of_mem hj)
    exact ⟨x + y, by rw [Finset.sum_insert ha, hx, hy, EReal.coe_add]⟩

theorem bcastCount_apply (r : FVec Ideal S8192 .f32) (i : S8192x512.Idx) : ∃ e : S8192.Idx, bcastCount r i = r e :=
  ⟨_, rfl⟩

theorem edgeH_real (h : FVec Ideal S4096x512 .f32) (A : IVec S3x8192 32) (r : FVec Ideal S8192 .f32)
    (hh : AllReal h) (hr : AllReal r) (hr0 : ∀ e, r e ≠ 0) : AllReal (edgeH (F := Ideal) h A r) := by
  intro i
  obtain ⟨e, he⟩ := bcastCount_apply r i

  show ∃ y : ℝ, Ideal.div (h _ - h _) (bcastCount r i) = (y : EReal)
  rw [he]
  exact real_div (real_sub (hh _) (hh _)) (hr e) (hr0 e)

theorem preI_real (h : FVec Ideal S4096x512 .f32) (A : IVec S3x8192 32) (r : FVec Ideal S8192 .f32)
    (hh : AllReal h) (hr : AllReal r) (hr0 : ∀ e, r e ≠ 0) : AllReal (preI (F := Ideal) h A r) := by
  intro i
  show ∃ y : ℝ, Ideal.ofBits .f32 0x00000000#32 + Finset.sum _ (fun j => edgeH (F := Ideal) h A r j) = (y : EReal)
  rw [Ideal.ofBits_zero_f32, zero_add]
  exact real_sum _ _ fun j _ => edgeH_real h A r hh hr hr0 j

theorem preR_real (h : FVec Ideal S4096x512 .f32) (A : IVec S3x8192 32) (r : FVec Ideal S8192 .f32)
    (hh : AllReal h) (hr : AllReal r) (hr0 : ∀ e, r e ≠ 0) : AllReal (preR (F := Ideal) h A r) := by
  intro i
  obtain ⟨e, he⟩ := bcastCount_apply r i
  show ∃ y : ℝ, Ideal.div (preI (F := Ideal) h A r i) (bcastCount r i) = (y : EReal)
  rw [he]
  exact real_div (preI_real h A r hh hr hr0 i) (hr e) (hr0 e)

end Cert.KernelIdeal.Hand

end
-- ==== Proof.LibSums.lean ====
import Idealize.ShloMosaic.Lib.ValueIdx

noncomputable section

open scoped BigOperators

namespace Cert.LibSums

def hi {N a b : Nat} (hN : N = a * b) (q : Fin N) : Fin a :=
  ⟨q.val / b, by have := q.isLt; subst hN; exact Nat.div_lt_of_lt_mul (by have h := Nat.mul_comm a b; omega)⟩

def lo {N : Nat} (b : Nat) (hb : 0 < b) (q : Fin N) : Fin b := ⟨q.val % b, Nat.mod_lt _ hb⟩

def flat {N a b : Nat} (hN : N = a * b) (k : Fin a) (p : Fin b) : Fin N :=
  ⟨k.val * b + p.val, by
    have hk := k.isLt; have hp := p.isLt; subst hN
    calc k.val * b + p.val < k.val * b + b := by omega
      _ = (k.val + 1) * b := by ring
      _ ≤ a * b := Nat.mul_le_mul_right b hk⟩

def pairEquiv (a b : Nat) (hb : 0 < b) : Fin (a * b) ≃ Fin a × Fin b where
  toFun q := (hi rfl q, lo b hb q)
  invFun x := flat rfl x.1 x.2
  left_inv q := by
    apply Fin.ext
    show q.val / b * b + q.val % b = q.val
    exact Nat.div_add_mod' q.val b
  right_inv x := by
    obtain ⟨k, p⟩ := x
    apply Prod.ext
    · apply Fin.ext
      show (k.val * b + p.val) / b = k.val
      rw [Nat.add_comm, Nat.add_mul_div_right _ _ hb, Nat.div_eq_of_lt p.isLt, Nat.zero_add]
    · apply Fin.ext
      show (k.val * b + p.val) % b = p.val
      rw [Nat.add_comm, Nat.add_mul_mod_self_right, Nat.mod_eq_of_lt p.isLt]

theorem sum_filter_flat {M : Type} [AddCommMonoid M] {N a b : Nat} (hN : N = a * b) (hb : 0 < b)
    (P : Fin a → Fin b → Prop) [∀ k p, Decidable (P k p)] (f : Fin a → Fin b → M) :
    ∑ q ∈ Finset.univ.filter (fun q : Fin N => P (hi hN q) (lo b hb q)), f (hi hN q) (lo b hb q)
      = ∑ k : Fin a, ∑ p ∈ Finset.univ.filter (fun p : Fin b => P k p), f k p := by
  subst hN
  rw [Finset.sum_filter]
  refine (Fintype.sum_equiv (pairEquiv a b hb)
    (fun q : Fin (a * b) => if P (hi rfl q) (lo b hb q) then f (hi rfl q) (lo b hb q) else 0)
    (fun x : Fin a × Fin b => if P x.1 x.2 then f x.1 x.2 else 0) (fun _ => rfl)).trans ?_
  rw [Fintype.sum_prod_type]
  refine Finset.sum_congr rfl (fun k _ => ?_)
  rw [Finset.sum_filter]

theorem sum_tiles {M : Type} [AddCommMonoid M] {N a b : Nat} (hN : N = a * b) (f : Fin N → M) :
    ∑ r : Fin N, f r = ∑ t : Fin a, ∑ i : Fin b, f (flat hN t i) := by
  subst hN
  rcases Nat.eq_zero_or_pos b with hb | hb
  · subst hb
    haveI : IsEmpty (Fin (a * 0)) := ⟨fun q => absurd q.isLt (by simp)⟩
    rw [Fintype.sum_empty]
    exact (Finset.sum_eq_zero (fun t _ => Fintype.sum_empty _)).symm
  · refine ((pairEquiv a b hb).symm.sum_comp f).symm.trans ?_
    rw [Fintype.sum_prod_type]
    rfl

end Cert.LibSums

end
-- ==== Proof.KI.Reg0Val.lean ====
import proofs.«422445_j52716428591540_1_alg».proof.Proof.KI.Arr
import proofs.«422445_j52716428591540_1_alg».proof.Proof.LibSums
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

abbrev R0 (c : Dev nD) : FVec Ideal S8192x512 .f32 := V c main_v34

theorem k0_pay1_apply (i : S1x512.Idx) : k0_pay1 (F := Ideal) i = 0 := by
  unfold k0_pay1
  rw [shapeCast_self]
  exact Ideal.ofBits_zero_f32

theorem k0_pay2_apply (v3 : Vec Ideal S1x512 .f32) (v4 : Vec Ideal S2048x512 .f32) (a : Fin 512) :
    k0_pay2 v3 v4 (ix2 (0 : Fin 1) a) = v3 (ix2 (0 : Fin 1) a) + ∑ i : Fin 2048, v4 (ix2 i a) := by
  unfold k0_pay2
  rw [shapeCast_self, shapeCast_self]
  show v3 (ix2 (0 : Fin 1) a) + shapeCast S1x512 _ shapeCasts_S512_S1x512 (ix2 (0 : Fin 1) a) = _
  rw [shapeCast_a_1a_apply]
  refine congrArg (v3 (ix2 (0 : Fin 1) a) + ·) ?_

  refine (Ideal.multiReduction_add_single v4 _ reduces_S2048x512_S512 _ _ (ix1 a)).trans ?_
  refine Finset.sum_congr rfl fun k _ => congrArg v4 ?_
  funext d
  match d with
  | ⟨0, _⟩ => rfl
  | ⟨1, _⟩ => rfl

theorem tile_idx0 : ∀ t : Fin cfg0.N, win0_0.index t (0 : Fin 2) = t.val ∧ win0_0.index t (1 : Fin 2) = 0 :=
  (by decide +kernel : ∀ t : Fin grid0.N, _)

theorem iblk0_apply (c : Dev nD) (t : Fin cfg0.N) (i : Fin 2048) (a : Fin 512) (hr : t.val * 2048 + i.val < 8192) :
    iblk0 V c 0 t (ix2 i a) = R0 V c (ix2 ⟨t.val * 2048 + i.val, hr⟩ a) := by
  obtain ⟨e0, e1⟩ := tile_idx0 t
  show V c main_v34 (((cfg0.win 0).blk t).view.emb (ix2 i a)) = V c main_v34 (ix2 ⟨t.val * 2048 + i.val, hr⟩ a)
  congr 1
  funext d; apply Fin.ext
  match d with
  | ⟨0, _⟩ => show win0_0.index t (0 : Fin 2) * 2048 + 1 * i.val = t.val * 2048 + i.val; omega
  | ⟨1, _⟩ => show win0_0.index t (1 : Fin 2) * 512 + 1 * a.val = a.val; omega

theorem tile_sum0 (c : Dev nD) (t : Fin cfg0.N) (k : Fin 4) (hk : t.val = k.val) (a : Fin 512)
    (x0 : Vec Ideal S2048x512 .f32) (hx : x0 = iblk0 V c 0 t) :
    ∑ i : Fin 2048, x0 (ix2 i a)
      = ∑ i : Fin 2048, R0 V c (ix2 (Cert.LibSums.flat (show 8192 = 4 * 2048 from rfl) k i) a) := by
  subst hx
  refine Finset.sum_congr rfl fun i _ => ?_
  have hr : t.val * 2048 + i.val < 8192 := by have := k.isLt; have := i.isLt; omega
  rw [iblk0_apply V c t i a hr]
  refine congrArg (fun j => R0 V c (ix2 j a)) (Fin.ext ?_)
  show t.val * 2048 + i.val = k.val * 2048 + i.val
  rw [hk]

theorem acc0_apply (c : Dev nD) (a : Fin 512) :
    acc0 V c 3 (by show 3 < grid0.N; rw [N_0]; decide) (ix2 (0 : Fin 1) a) = ∑ j : Fin 8192, R0 V c (ix2 j a) := by
  have h0 : 0 < cfg0.N := by show 0 < grid0.N; rw [N_0]; decide
  have h1 : 1 < cfg0.N := by show 1 < grid0.N; rw [N_0]; decide
  have h2 : 2 < cfg0.N := by show 2 < grid0.N; rw [N_0]; decide
  have h3 : 3 < cfg0.N := by show 3 < grid0.N; rw [N_0]; decide

  show k0_pay2 (k0_pay2 (k0_pay2 (k0_pay2 (k0_pay1 (F := Ideal)) (iblk0 V c 0 ⟨0, h0⟩)) (iblk0 V c 0 ⟨1, h1⟩))
      (iblk0 V c 0 ⟨2, h2⟩)) (iblk0 V c 0 ⟨3, h3⟩) (ix2 (0 : Fin 1) a) = _
  rw [k0_pay2_apply, k0_pay2_apply, k0_pay2_apply, k0_pay2_apply, k0_pay1_apply, zero_add]

  rw [tile_sum0 V c ⟨0, h0⟩ 0 rfl a (iblk0 V c 0 ⟨0, h0⟩) rfl, tile_sum0 V c ⟨1, h1⟩ 1 rfl a (iblk0 V c 0 ⟨1, h1⟩) rfl,
    tile_sum0 V c ⟨2, h2⟩ 2 rfl a (iblk0 V c 0 ⟨2, h2⟩) rfl, tile_sum0 V c ⟨3, h3⟩ 3 rfl a (iblk0 V c 0 ⟨3, h3⟩) rfl]
  rw [Cert.LibSums.sum_tiles (show 8192 = 4 * 2048 from rfl) (fun j => R0 V c (ix2 j a)), Fin.sum_univ_four]

end Cert.KernelIdeal.Hand

end
-- ==== Proof.KI.Reg1Val.lean ====
import proofs.«422445_j52716428591540_1_alg».proof.Proof.KI.Arr
import proofs.«422445_j52716428591540_1_alg».proof.Proof.LibSums
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window cellOf)
open Idealize.ShloMosaic.ValueIdx
open scoped BigOperators

theorem lhs_rs1_0 (j : S2048x1.Idx) (k : dot_S2048x512_S512x1_S2048x1_1_0_0_1_n_n.contr.Idx) :
    (dot_S2048x512_S512x1_S2048x1_1_0_0_1_n_n.lhsIdx j k 0 : ℕ) = j 0 := by
  simp [DotDims.lhsIdx, dot_S2048x512_S512x1_S2048x1_1_0_0_1_n_n]; rfl

theorem lhs_rs1_1 (j : S2048x1.Idx) (k : dot_S2048x512_S512x1_S2048x1_1_0_0_1_n_n.contr.Idx) :
    (dot_S2048x512_S512x1_S2048x1_1_0_0_1_n_n.lhsIdx j k 1 : ℕ) = k ⟨0, by decide⟩ := by
  simp [DotDims.lhsIdx, dot_S2048x512_S512x1_S2048x1_1_0_0_1_n_n]; rfl

theorem rhs_rs1_0 (j : S2048x1.Idx) (k : dot_S2048x512_S512x1_S2048x1_1_0_0_1_n_n.contr.Idx) :
    (dot_S2048x512_S512x1_S2048x1_1_0_0_1_n_n.rhsIdx j k 0 : ℕ) = k ⟨0, by decide⟩ := by
  simp [DotDims.rhsIdx, dot_S2048x512_S512x1_S2048x1_1_0_0_1_n_n]; rfl

theorem rhs_rs1_1 (j : S2048x1.Idx) (k : dot_S2048x512_S512x1_S2048x1_1_0_0_1_n_n.contr.Idx) :
    (dot_S2048x512_S512x1_S2048x1_1_0_0_1_n_n.rhsIdx j k 1 : ℕ) = j 1 := by
  have h1 : (j 1).val < 1 := (j 1).isLt
  have h2 : (dot_S2048x512_S512x1_S2048x1_1_0_0_1_n_n.rhsIdx j k 1 : ℕ) < 1 := (dot_S2048x512_S512x1_S2048x1_1_0_0_1_n_n.rhsIdx j k 1).isLt
  omega

theorem lhs_tq1_0 (j : S512x512.Idx) (k : dot_S512x2048_S2048x512_S512x512_1_0_0_1_n_n.contr.Idx) :
    (dot_S512x2048_S2048x512_S512x512_1_0_0_1_n_n.lhsIdx j k 0 : ℕ) = j 0 := by
  simp [DotDims.lhsIdx, dot_S512x2048_S2048x512_S512x512_1_0_0_1_n_n]; rfl
theorem lhs_tq1_1 (j : S512x512.Idx) (k : dot_S512x2048_S2048x512_S512x512_1_0_0_1_n_n.contr.Idx) :
    (dot_S512x2048_S2048x512_S512x512_1_0_0_1_n_n.lhsIdx j k 1 : ℕ) = k ⟨0, by decide⟩ := by
  simp [DotDims.lhsIdx, dot_S512x2048_S2048x512_S512x512_1_0_0_1_n_n]; rfl
theorem rhs_tq1_0 (j : S512x512.Idx) (k : dot_S512x2048_S2048x512_S512x512_1_0_0_1_n_n.contr.Idx) :
    (dot_S512x2048_S2048x512_S512x512_1_0_0_1_n_n.rhsIdx j k 0 : ℕ) = k ⟨0, by decide⟩ := by
  simp [DotDims.rhsIdx, dot_S512x2048_S2048x512_S512x512_1_0_0_1_n_n]; rfl
theorem rhs_tq1_1 (j : S512x512.Idx) (k : dot_S512x2048_S2048x512_S512x512_1_0_0_1_n_n.contr.Idx) :
    (dot_S512x2048_S2048x512_S512x512_1_0_0_1_n_n.rhsIdx j k 1 : ℕ) = j 1 := by
  simp [DotDims.rhsIdx, dot_S512x2048_S2048x512_S512x512_1_0_0_1_n_n]; rfl

theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

theorem rowdot1_apply (A : FVec Ideal S2048x512 .f32) (s : FVec Ideal S512x1 .f32) (p : Fin 2048) :
    FloatOps.matmul dot_S2048x512_S512x1_S2048x1_1_0_0_1_n_n none A s (constant (F := Ideal) S2048x1 .f32 0x00000000#32) (ix2 p (0 : Fin 1))
      = ∑ b : Fin 512, A (ix2 p b) * s (ix2 b (0 : Fin 1)) := by
  rw [Ideal.matmul_constant_zero_apply]
  rw [← Equiv.sum_comp (contrEquiv1 dot_S2048x512_S512x1_S2048x1_1_0_0_1_n_n 512 rfl rfl).symm]
  refine Finset.sum_congr rfl fun b _ => ?_
  have hk : (((contrEquiv1 dot_S2048x512_S512x1_S2048x1_1_0_0_1_n_n 512 rfl rfl).symm b) ⟨0, by decide⟩ : ℕ) = b.val :=
    contrEquiv1_symm_val dot_S2048x512_S512x1_S2048x1_1_0_0_1_n_n 512 rfl rfl b
  have hl : dot_S2048x512_S512x1_S2048x1_1_0_0_1_n_n.lhsIdx (ix2 p (0 : Fin 1)) ((contrEquiv1 dot_S2048x512_S512x1_S2048x1_1_0_0_1_n_n 512 rfl rfl).symm b) = ix2 p b := by
    funext d; apply Fin.ext
    match d with
    | ⟨0, _⟩ => exact lhs_rs1_0 _ _
    | ⟨1, _⟩ => exact (lhs_rs1_1 _ _).trans hk
  have hr : dot_S2048x512_S512x1_S2048x1_1_0_0_1_n_n.rhsIdx (ix2 p (0 : Fin 1)) ((contrEquiv1 dot_S2048x512_S512x1_S2048x1_1_0_0_1_n_n 512 rfl rfl).symm b) = ix2 b (0 : Fin 1) := by
    funext d; apply Fin.ext
    match d with
    | ⟨0, _⟩ => exact (rhs_rs1_0 _ _).trans hk
    | ⟨1, _⟩ => exact rhs_rs1_1 _ _
  show A (dot_S2048x512_S512x1_S2048x1_1_0_0_1_n_n.lhsIdx (ix2 p (0 : Fin 1)) _) * s (dot_S2048x512_S512x1_S2048x1_1_0_0_1_n_n.rhsIdx (ix2 p (0 : Fin 1)) _) = _
  rw [hl, hr]

theorem pay2_apply (A B : FVec Ideal S2048x512 .f32) (s : FVec Ideal S512x1 .f32) (acc : FVec Ideal S512x512 .f32) (a f : Fin 512) :
    k1_pay2 A B s acc (ix2 a f)
      = acc (ix2 a f) + ∑ p : Fin 2048, A (ix2 p a) * Ideal.div (B (ix2 p f)) (∑ b : Fin 512, A (ix2 p b) * s (ix2 b (0 : Fin 1))) := by
  unfold k1_pay2
  dsimp only
  simp only [shapeCast_self]
  rw [addf_apply]
  congr 1
  simp only [matmul]
  rw [Ideal.matmul_constant_zero_apply]
  rw [← Equiv.sum_comp (contrEquiv1 dot_S512x2048_S2048x512_S512x512_1_0_0_1_n_n 2048 rfl rfl).symm]
  refine Finset.sum_congr rfl fun p _ => ?_
  have hk : (((contrEquiv1 dot_S512x2048_S2048x512_S512x512_1_0_0_1_n_n 2048 rfl rfl).symm p) ⟨0, by decide⟩ : ℕ) = p.val :=
    contrEquiv1_symm_val dot_S512x2048_S2048x512_S512x512_1_0_0_1_n_n 2048 rfl rfl p
  have hl : dot_S512x2048_S2048x512_S512x512_1_0_0_1_n_n.lhsIdx (ix2 a f) ((contrEquiv1 dot_S512x2048_S2048x512_S512x512_1_0_0_1_n_n 2048 rfl rfl).symm p) = ix2 a p := by
    funext d; apply Fin.ext
    match d with
    | ⟨0, _⟩ => exact lhs_tq1_0 _ _
    | ⟨1, _⟩ => exact (lhs_tq1_1 _ _).trans hk
  have hr : dot_S512x2048_S2048x512_S512x512_1_0_0_1_n_n.rhsIdx (ix2 a f) ((contrEquiv1 dot_S512x2048_S2048x512_S512x512_1_0_0_1_n_n 2048 rfl rfl).symm p) = ix2 p f := by
    funext d; apply Fin.ext
    match d with
    | ⟨0, _⟩ => exact (rhs_tq1_0 _ _).trans hk
    | ⟨1, _⟩ => exact rhs_tq1_1 _ _
  rw [hl, hr, transpose_ix2_apply, divf_apply, broadcastTo_a1_ab_apply, rowdot1_apply]

theorem pay1_apply (j : S512x512.Idx) : k1_pay1 (F := Ideal) j = 0 := by
  unfold k1_pay1
  rw [shapeCast_self]
  show Ideal.ofBits .f32 0x00000000#32 = 0
  exact Ideal.ofBits_zero_f32

variable (V : (c : Dev nD) → (b : Ref sig .tc) → Buf (Elt Ideal) ((c : Thread nD τ).loc b))

abbrev R1 (c : Dev nD) : FVec Ideal S8192x512 .f32 := V c main_v34
abbrev I1 (c : Dev nD) : FVec Ideal S8192x512 .f32 := V c main_v31
abbrev s1 (c : Dev nD) : FVec Ideal S512x1 .f32 := V c main_v36

theorem tile_idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0 :=
  (by decide +kernel : ∀ t : Fin grid1.N, _)

abbrev row1 (k : Fin 4) (p : Fin 2048) : Fin 8192 := Cert.LibSums.flat (N := 8192) (a := 4) (b := 2048) rfl k p

theorem iblk1_0_apply (c : Dev nD) (t : Fin cfg1.N) (h4 : t.val < 4) (p : Fin 2048) (a : Fin 512) :
    (iblk1 V c 0 t : FVec Ideal S2048x512 .f32) (ix2 p a) = R1 V c (ix2 (row1 ⟨t.val, h4⟩ p) a) := by
  obtain ⟨e0, e1, -, -, -, -⟩ := tile_idx1 t
  show R1 V c (((cfg1.win 0).blk t).view.emb (ix2 p a)) = R1 V c (ix2 (row1 ⟨t.val, h4⟩ p) a)
  refine congrArg (R1 V c) (funext fun d => Fin.ext ?_)
  match d with
  | ⟨0, _⟩ => show win1_0.index t (0 : Fin 2) * 2048 + 1 * p.val = t.val * 2048 + p.val; omega
  | ⟨1, _⟩ => show win1_0.index t (1 : Fin 2) * 512 + 1 * a.val = a.val; omega

theorem iblk1_1_apply (c : Dev nD) (t : Fin cfg1.N) (h4 : t.val < 4) (p : Fin 2048) (f : Fin 512) :
    (iblk1 V c 1 t : FVec Ideal S2048x512 .f32) (ix2 p f) = I1 V c (ix2 (row1 ⟨t.val, h4⟩ p) f) := by
  obtain ⟨-, -, e2, e3, -, -⟩ := tile_idx1 t
  show I1 V c (((cfg1.win 1).blk t).view.emb (ix2 p f)) = I1 V c (ix2 (row1 ⟨t.val, h4⟩ p) f)
  refine congrArg (I1 V c) (funext fun d => Fin.ext ?_)
  match d with
  | ⟨0, _⟩ => show win1_1.index t (0 : Fin 2) * 2048 + 1 * p.val = t.val * 2048 + p.val; omega
  | ⟨1, _⟩ => show win1_1.index t (1 : Fin 2) * 512 + 1 * f.val = f.val; omega

theorem iblk1_2_apply (c : Dev nD) (t : Fin cfg1.N) (b : Fin 512) :
    (iblk1 V c 2 t : FVec Ideal S512x1 .f32) (ix2 b (0 : Fin 1)) = s1 V c (ix2 b (0 : Fin 1)) := by
  obtain ⟨-, -, -, -, e4, e5⟩ := tile_idx1 t
  show s1 V c (((cfg1.win 2).blk t).view.emb (ix2 b (0 : Fin 1))) = s1 V c (ix2 b (0 : Fin 1))
  refine congrArg (s1 V c) (funext fun d => Fin.ext ?_)
  match d with
  | ⟨0, _⟩ => show win1_2.index t (0 : Fin 2) * 512 + 1 * b.val = b.val; omega
  | ⟨1, _⟩ => show win1_2.index t (1 : Fin 2) * 1 + 1 * 0 = 0; omega

def term1 (c : Dev nD) (a f : Fin 512) (j : Fin 8192) : EReal :=
  R1 V c (ix2 j a) * Ideal.div (I1 V c (ix2 j f)) (∑ b : Fin 512, R1 V c (ix2 j b) * s1 V c (ix2 b (0 : Fin 1)))

def tileSum1 (c : Dev nD) (k : Fin 4) (a f : Fin 512) : EReal := ∑ p : Fin 2048, term1 V c a f (row1 k p)

theorem pay_tile1 (c : Dev nD) (n : ℕ) (hn : n < cfg1.N) (h4 : n < 4) (acc : FVec Ideal S512x512 .f32) (a f : Fin 512) :
    k1_pay2 (iblk1 V c 0 ⟨n, hn⟩) (iblk1 V c 1 ⟨n, hn⟩) (iblk1 V c 2 ⟨n, hn⟩) acc (ix2 a f)
      = acc (ix2 a f) + tileSum1 V c ⟨n, h4⟩ a f := by
  rw [pay2_apply]
  congr 1
  unfold tileSum1 term1
  refine Finset.sum_congr rfl fun p _ => ?_
  rw [iblk1_0_apply V c ⟨n, hn⟩ h4 p a, iblk1_1_apply V c ⟨n, hn⟩ h4 p f]
  congr 2
  refine Finset.sum_congr rfl fun b _ => ?_
  rw [iblk1_0_apply V c ⟨n, hn⟩ h4 p b, iblk1_2_apply V c ⟨n, hn⟩ b]

theorem acc1_zero_apply (c : Dev nD) (hn : 0 < cfg1.N) (a f : Fin 512) :
    acc1 V c 0 hn (ix2 a f) = tileSum1 V c ⟨0, by decide⟩ a f := by
  show k1_pay2 (iblk1 V c 0 ⟨0, hn⟩) (iblk1 V c 1 ⟨0, hn⟩) (iblk1 V c 2 ⟨0, hn⟩) (k1_pay1 (F := Ideal)) (ix2 a f) = _
  rw [pay_tile1 V c 0 hn (by decide), pay1_apply, zero_add]

theorem acc1_succ_apply (c : Dev nD) (n : ℕ) (hn : n + 1 < cfg1.N) (h4 : n + 1 < 4) (a f : Fin 512) :
    acc1 V c (n + 1) hn (ix2 a f) = acc1 V c n (Nat.lt_of_succ_lt hn) (ix2 a f) + tileSum1 V c ⟨n + 1, h4⟩ a f := by
  show k1_pay2 (iblk1 V c 0 ⟨n + 1, hn⟩) (iblk1 V c 1 ⟨n + 1, hn⟩) (iblk1 V c 2 ⟨n + 1, hn⟩) (acc1 V c n (Nat.lt_of_succ_lt hn)) (ix2 a f) = _
  exact pay_tile1 V c (n + 1) hn h4 _ a f

theorem acc1_apply (c : Dev nD) (a f : Fin 512) :
    acc1 V c 3 (by show 3 < grid1.N; rw [N_1]; decide) (ix2 a f)
      = ∑ j : Fin 8192, R1 V c (ix2 j a) * Ideal.div (I1 V c (ix2 j f)) (∑ b : Fin 512, R1 V c (ix2 j b) * s1 V c (ix2 b (0 : Fin 1))) := by
  have h3 : (3 : ℕ) < cfg1.N := by show 3 < grid1.N; rw [N_1]; decide
  have e3 := acc1_succ_apply V c 2 h3 (by decide) a f
  have e2 := acc1_succ_apply V c 1 (Nat.lt_of_succ_lt h3) (by decide) a f
  have e1 := acc1_succ_apply V c 0 (Nat.lt_of_succ_lt (Nat.lt_of_succ_lt h3)) (by decide) a f
  have e0 := acc1_zero_apply V c (Nat.lt_of_succ_lt (Nat.lt_of_succ_lt (Nat.lt_of_succ_lt h3))) a f
  have key : acc1 V c 3 h3 (ix2 a f)
      = ((tileSum1 V c 0 a f + tileSum1 V c 1 a f) + tileSum1 V c 2 a f) + tileSum1 V c 3 a f :=
    e3.trans (congrArg (· + tileSum1 V c 3 a f) (e2.trans (congrArg (· + tileSum1 V c 2 a f) (e1.trans (congrArg (· + tileSum1 V c 1 a f) e0)))))
  refine key.trans ?_
  show _ = ∑ j : Fin 8192, term1 V c a f j
  rw [Cert.LibSums.sum_tiles (show 8192 = 4 * 2048 from rfl), Fin.sum_univ_four]
  rfl

end Cert.KernelIdeal.Hand
-- ==== Proof.KI.Reg2Val.lean ====
import proofs.«422445_j52716428591540_1_alg».proof.Proof.KI.Arr
import Idealize.ShloMosaic.PureOps.Ideal.Laws
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window cellOf)
open Idealize.ShloMosaic.ValueIdx
open scoped BigOperators

theorem lhs_prod2_0 (j : S2048x512.Idx) (k : dot_S2048x512_S512x512_S2048x512_1_0_0_1_n_n.contr.Idx) :
    (dot_S2048x512_S512x512_S2048x512_1_0_0_1_n_n.lhsIdx j k 0 : ℕ) = j 0 := by
  simp [DotDims.lhsIdx, dot_S2048x512_S512x512_S2048x512_1_0_0_1_n_n]; rfl

theorem lhs_prod2_1 (j : S2048x512.Idx) (k : dot_S2048x512_S512x512_S2048x512_1_0_0_1_n_n.contr.Idx) :
    (dot_S2048x512_S512x512_S2048x512_1_0_0_1_n_n.lhsIdx j k 1 : ℕ) = k ⟨0, by decide⟩ := by
  simp [DotDims.lhsIdx, dot_S2048x512_S512x512_S2048x512_1_0_0_1_n_n]; rfl

theorem rhs_prod2_0 (j : S2048x512.Idx) (k : dot_S2048x512_S512x512_S2048x512_1_0_0_1_n_n.contr.Idx) :
    (dot_S2048x512_S512x512_S2048x512_1_0_0_1_n_n.rhsIdx j k 0 : ℕ) = k ⟨0, by decide⟩ := by
  simp [DotDims.rhsIdx, dot_S2048x512_S512x512_S2048x512_1_0_0_1_n_n]; rfl

theorem rhs_prod2_1 (j : S2048x512.Idx) (k : dot_S2048x512_S512x512_S2048x512_1_0_0_1_n_n.contr.Idx) :
    (dot_S2048x512_S512x512_S2048x512_1_0_0_1_n_n.rhsIdx j k 1 : ℕ) = j 1 := by
  simp [DotDims.rhsIdx, dot_S2048x512_S512x512_S2048x512_1_0_0_1_n_n]; rfl

variable (V : (c : Dev nD) → (b : Ref sig .tc) → Buf (Elt Ideal) ((c : Thread nD τ).loc b))

abbrev lhs2 (c : Dev nD) : FVec Ideal S8192x512 .f32 := V c main_v34
abbrev rhs2 (c : Dev nD) : FVec Ideal S512x512 .f32 := V c main_v37

theorem X2_apply (c : Dev nD) (i : Fin 8192) (f : Fin 512) :
    X2 V c (ix2 i f) = ∑ a : Fin 512, lhs2 V c (ix2 i a) * rhs2 V c (ix2 a f) := by
  unfold X2 k2_pay1
  dsimp only
  rw [shapeCast_self, shapeCast_self]
  simp only [matmul]
  rw [Ideal.matmul_constant_zero_apply]
  rw [← Equiv.sum_comp (contrEquiv1 dot_S2048x512_S512x512_S2048x512_1_0_0_1_n_n 512 rfl rfl).symm]
  refine Finset.sum_congr rfl fun a _ => ?_
  have hk : (((contrEquiv1 dot_S2048x512_S512x512_S2048x512_1_0_0_1_n_n 512 rfl rfl).symm a) ⟨0, by decide⟩ : ℕ) = a.val :=
    contrEquiv1_symm_val dot_S2048x512_S512x512_S2048x512_1_0_0_1_n_n 512 rfl rfl a
  have a0 : (dot_S2048x512_S512x512_S2048x512_1_0_0_1_n_n.lhsIdx (loc2 (ix2 i f)) ((contrEquiv1 dot_S2048x512_S512x512_S2048x512_1_0_0_1_n_n 512 rfl rfl).symm a) 0 : ℕ) = i.val % 2048 :=
    lhs_prod2_0 _ _
  have a1 : (dot_S2048x512_S512x512_S2048x512_1_0_0_1_n_n.lhsIdx (loc2 (ix2 i f)) ((contrEquiv1 dot_S2048x512_S512x512_S2048x512_1_0_0_1_n_n 512 rfl rfl).symm a) 1 : ℕ) = a.val :=
    (lhs_prod2_1 _ _).trans hk
  have b0 : (dot_S2048x512_S512x512_S2048x512_1_0_0_1_n_n.rhsIdx (loc2 (ix2 i f)) ((contrEquiv1 dot_S2048x512_S512x512_S2048x512_1_0_0_1_n_n 512 rfl rfl).symm a) 0 : ℕ) = a.val :=
    (rhs_prod2_0 _ _).trans hk
  have b1 : (dot_S2048x512_S512x512_S2048x512_1_0_0_1_n_n.rhsIdx (loc2 (ix2 i f)) ((contrEquiv1 dot_S2048x512_S512x512_S2048x512_1_0_0_1_n_n 512 rfl rfl).symm a) 1 : ℕ) = f.val :=
    rhs_prod2_1 _ _
  obtain ⟨t0, t1, -, -, -, -⟩ := tile_idx2 (pt2 (ix2 i f))
  have hq : (pt2 (ix2 i f)).val = i.val / 2048 := rfl
  have hL : iblk2 V c 0 (pt2 (ix2 i f)) (dot_S2048x512_S512x512_S2048x512_1_0_0_1_n_n.lhsIdx (loc2 (ix2 i f)) ((contrEquiv1 dot_S2048x512_S512x512_S2048x512_1_0_0_1_n_n 512 rfl rfl).symm a))
      = lhs2 V c (ix2 i a) := by
    show lhs2 V c (((cfg2.win 0).blk (pt2 (ix2 i f))).view.emb (dot_S2048x512_S512x512_S2048x512_1_0_0_1_n_n.lhsIdx (loc2 (ix2 i f)) ((contrEquiv1 dot_S2048x512_S512x512_S2048x512_1_0_0_1_n_n 512 rfl rfl).symm a)))
      = lhs2 V c (ix2 i a)
    refine congrArg (lhs2 V c) (funext fun d => Fin.ext ?_)
    match d with
    | ⟨0, _⟩ =>
      show win2_0.index (pt2 (ix2 i f)) (0 : Fin 2) * 2048 + 1 * (dot_S2048x512_S512x512_S2048x512_1_0_0_1_n_n.lhsIdx (loc2 (ix2 i f)) ((contrEquiv1 dot_S2048x512_S512x512_S2048x512_1_0_0_1_n_n 512 rfl rfl).symm a) 0 : ℕ) = i.val
      omega
    | ⟨1, _⟩ =>
      show win2_0.index (pt2 (ix2 i f)) (1 : Fin 2) * 512 + 1 * (dot_S2048x512_S512x512_S2048x512_1_0_0_1_n_n.lhsIdx (loc2 (ix2 i f)) ((contrEquiv1 dot_S2048x512_S512x512_S2048x512_1_0_0_1_n_n 512 rfl rfl).symm a) 1 : ℕ) = a.val
      omega
  have hR : V c (Pipeline.arrRef spec2 1) (dot_S2048x512_S512x512_S2048x512_1_0_0_1_n_n.rhsIdx (loc2 (ix2 i f)) ((contrEquiv1 dot_S2048x512_S512x512_S2048x512_1_0_0_1_n_n 512 rfl rfl).symm a))
      = rhs2 V c (ix2 a f) := by
    show rhs2 V c (dot_S2048x512_S512x512_S2048x512_1_0_0_1_n_n.rhsIdx (loc2 (ix2 i f)) ((contrEquiv1 dot_S2048x512_S512x512_S2048x512_1_0_0_1_n_n 512 rfl rfl).symm a))
      = rhs2 V c (ix2 a f)
    refine congrArg (rhs2 V c) (funext fun d => Fin.ext ?_)
    match d with
    | ⟨0, _⟩ => exact b0
    | ⟨1, _⟩ => exact b1
  exact congrArg₂ (· * ·) hL hR

end Cert.KernelIdeal.Hand
-- ==== Proof.RI.Core.lean ====
import proofs.«422445_j52716428591540_1_alg».proof.ReferenceIdeal
import Idealize.ShloMosaic.Lib.StableHlo.Run

set_option synthInstance.maxSize 4096

noncomputable section

namespace Cert.ReferenceIdeal.Hand

open Idealize.ShloMosaic Idealize.SL.Sem Cert.ReferenceIdeal
open Cert.ReferenceIdeal.Facts₀ Cert.ReferenceIdeal.Facts

variable {F : FTy → Type} [FloatOps F] [Facts]

def coreT (R : FVec F S8192x512 .f32) : FVec F S512x8192 .f32 :=
  (transpose S512x8192 [1, 0] · transposes_S8192x512_S512x8192_1_0) R

def coreA (R : FVec F S8192x512 .f32) : FVec F S8192x8192 .f32 :=
  (fun l r => Host.dotGeneral dot_S8192x512_S512x8192_S8192x8192_1_0_0_1_n_n none l r) R (coreT R)

def rowsum (R : FVec F S8192x512 .f32) : FVec F S8192 .f32 :=
  (fun x v => Host.reduceAdd x v reducesTo_S8192x8192_S8192_d1 h_S_) (coreA R)
    (constant S_ .f32 0x00000000#32)

def coreD (R : FVec F S8192x512 .f32) : FVec F S8192x8192 .f32 :=
  broadcastInDim S8192x8192 ![0, 1] bcast_S1x8192_S8192x8192_0_1
    (broadcastInDim S1x8192 ![1] bcast_S8192_S1x8192_1 (rowsum R))

def coreN (R : FVec F S8192x512 .f32) : FVec F S8192x8192 .f32 :=
  Host.divf (coreA R) (coreD R)

def coreX (R I : FVec F S8192x512 .f32) : FVec F S8192x512 .f32 :=
  (fun l r => Host.dotGeneral dot_S8192x8192_S8192x512_S8192x512_1_0_0_1_n_n none l r) (coreN R) I

end Cert.ReferenceIdeal.Hand

end
-- ==== Proof.RI.CoreVal.lean ====
import proofs.«422445_j52716428591540_1_alg».proof.Proof.RI.Core
import Idealize.ShloMosaic.PureOps.Ideal.Laws
import Idealize.ShloMosaic.Lib.ValueIdx
import Idealize.ShloMosaic.Lib.Pipeline.Value
import Idealize.ShloMosaic.Lib.ValueLayout
import Idealize.ShloMosaic.Lib.StackMember
import Idealize.ShloMosaic.Lib.KernelVsHost

set_option synthInstance.maxSize 4096

noncomputable section

namespace Cert.ReferenceIdeal.Hand

open Idealize.ShloMosaic Idealize.SL.Sem Cert.ReferenceIdeal
open Cert.ReferenceIdeal.Facts₀ Cert.ReferenceIdeal.Facts

open Idealize.ShloMosaic.ValueIdx
open scoped BigOperators

section AtIdeal
variable [Facts]

theorem coreT_apply (R : FVec Ideal S8192x512 .f32) (a : Fin 512) (k : Fin 8192) :
    coreT R (ix2 a k) = R (ix2 k a) :=
  transpose_ix2_apply R transposes_S8192x512_S512x8192_1_0 a k

theorem coreA_apply (R : FVec Ideal S8192x512 .f32) (i j : Fin 8192) :
    coreA R (ix2 i j) = ∑ a : Fin 512, R (ix2 i a) * R (ix2 j a) := by
  show Host.dotGeneral (DotDims.plain 8192 512 8192) none R (coreT R) (ix2 i j) = _
  rw [StackMember.dotGeneral_plain_apply]
  exact Finset.sum_congr rfl fun a _ => by rw [coreT_apply]

theorem rowsum_apply (R : FVec Ideal S8192x512 .f32) (j : Fin 8192) :
    rowsum R (ix1 j) = ∑ k : Fin 8192, ∑ a : Fin 512, R (ix2 j a) * R (ix2 k a) := by
  have hred : S8192x8192.Reduces [1] S8192 := by decide
  show Ideal.hostReduceAdd reducesTo_S8192x8192_S8192_d1 (coreA R) (Ideal.ofBits .f32 0x00000000#32) (ix1 j) = _
  rw [Ideal.hostReduceAdd_single reducesTo_S8192x8192_S8192_d1 hred, Ideal.ofBits_zero_f32, zero_add]
  refine Finset.sum_congr rfl fun k _ => ?_
  have hl : hred.lift (ix1 j) k = ix2 j k := by
    funext ax; apply Fin.ext
    match ax with
    | ⟨0, _⟩ => rfl
    | ⟨1, _⟩ => rfl
  rw [hl]; exact coreA_apply R j k

theorem broadcastInDim_asRow_apply {α : Type} {n : ℕ}
    (h : (⟨1, ![n]⟩ : Shape).BroadcastsInDim ⟨2, ![1, n]⟩ ![1]) (x : (⟨1, ![n]⟩ : Shape).Idx → α) (t : Fin n) :
    broadcastInDim ⟨2, ![1, n]⟩ ![1] h x (ix2 (0 : Fin 1) t) = x (ix1 t) := by
  refine broadcastInDim_apply ![1] h x (ix2 (0 : Fin 1) t) (ix1 t) ?_
  intro a
  match a with
  | ⟨0, _⟩ =>
    show t.val = if n = 1 then 0 else t.val
    split
    · have := t.isLt; omega
    · rfl

theorem coreD_apply (R : FVec Ideal S8192x512 .f32) (i j : Fin 8192) :
    coreD R (ix2 i j) = rowsum R (ix1 j) := by
  unfold coreD
  rw [broadcastInDim_oneRow_apply, broadcastInDim_asRow_apply]

theorem coreN_apply (R : FVec Ideal S8192x512 .f32) (i j : Fin 8192) :
    coreN R (ix2 i j)
      = Ideal.div (∑ a : Fin 512, R (ix2 i a) * R (ix2 j a)) (rowsum R (ix1 j)) := by
  show Ideal.div (coreA R (ix2 i j)) (coreD R (ix2 i j)) = _
  rw [coreA_apply, coreD_apply]

theorem coreX_apply (R I : FVec Ideal S8192x512 .f32) (i : Fin 8192) (f : Fin 512) :
    coreX R I (ix2 i f)
      = ∑ j : Fin 8192, Ideal.div (∑ a : Fin 512, R (ix2 i a) * R (ix2 j a)) (rowsum R (ix1 j)) * I (ix2 j f) := by
  show Host.dotGeneral (DotDims.plain 8192 8192 512) none (coreN R) I (ix2 i f) = _
  rw [StackMember.dotGeneral_plain_apply]
  exact Finset.sum_congr rfl fun j _ => by rw [coreN_apply]

end AtIdeal

end Cert.ReferenceIdeal.Hand

end
-- ==== Proof.LibCoreAlg.lean ====
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Group.Finset.Sigma
import Mathlib.Algebra.BigOperators.Ring.Finset

open scoped BigOperators
open Idealize.ShloMosaic

theorem EReal.coe_finset_sum' {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

namespace Idealize.ShloMosaic.Ideal

theorem div_coe_coe (x : ℝ) {z : ℝ} (hz : z ≠ 0) : Ideal.div (x : EReal) (z : EReal) = ((x / z : ℝ) : EReal) := by
  rw [Ideal.div_coe hz, ← EReal.coe_mul, mul_one_div]

end Idealize.ShloMosaic.Ideal

namespace Cert.CoreAlg

theorem real_of_coe (x : ℝ) : ∃ y : ℝ, (x : EReal) = y := ⟨x, rfl⟩

theorem real_of_zero : ∃ y : ℝ, (0 : EReal) = y := ⟨0, rfl⟩

theorem real_of_add {a b : EReal} (ha : ∃ x : ℝ, a = x) (hb : ∃ x : ℝ, b = x) : ∃ y : ℝ, a + b = y := by
  obtain ⟨x, rfl⟩ := ha
  obtain ⟨z, rfl⟩ := hb
  exact ⟨x + z, (EReal.coe_add x z).symm⟩

theorem real_of_neg {a : EReal} (ha : ∃ x : ℝ, a = x) : ∃ y : ℝ, -a = y := by
  obtain ⟨x, rfl⟩ := ha
  exact ⟨-x, (EReal.coe_neg x).symm⟩

theorem real_of_sub {a b : EReal} (ha : ∃ x : ℝ, a = x) (hb : ∃ x : ℝ, b = x) : ∃ y : ℝ, a - b = y := by
  obtain ⟨x, rfl⟩ := ha
  obtain ⟨z, rfl⟩ := hb
  exact ⟨x - z, (EReal.coe_sub x z).symm⟩

theorem real_of_mul {a b : EReal} (ha : ∃ x : ℝ, a = x) (hb : ∃ x : ℝ, b = x) : ∃ y : ℝ, a * b = y := by
  obtain ⟨x, rfl⟩ := ha
  obtain ⟨z, rfl⟩ := hb
  exact ⟨x * z, (EReal.coe_mul x z).symm⟩

theorem real_of_sum {ι : Type*} (s : Finset ι) (g : ι → EReal) (h : ∀ i ∈ s, ∃ y : ℝ, g i = y) :
    ∃ y : ℝ, ∑ i ∈ s, g i = y := by
  classical
  induction s using Finset.induction_on with
  | empty => exact ⟨0, by simp⟩
  | insert a s ha ih =>
    rw [Finset.sum_insert ha]
    exact real_of_add (h a (Finset.mem_insert_self a s)) (ih fun i hi => h i (Finset.mem_insert_of_mem hi))

theorem real_of_div_coe (x : ℝ) {z : ℝ} (hz : z ≠ 0) : ∃ y : ℝ, Ideal.div (x : EReal) (z : EReal) = y :=
  ⟨x / z, Ideal.div_coe_coe x hz⟩

theorem real_of_div {a b : EReal} (ha : ∃ x : ℝ, a = x) (hb : ∃ x : ℝ, b = x) (hb0 : b ≠ 0) :
    ∃ y : ℝ, Ideal.div a b = y := by
  obtain ⟨x, rfl⟩ := ha
  obtain ⟨z, rfl⟩ := hb
  exact real_of_div_coe x (EReal.coe_ne_zero.1 hb0)

theorem rowsum_real {E A : Type*} [Fintype E] [Fintype A] (R : E → A → ℝ) (j : E) :
    ∑ b, R j b * ∑ k, R k b = ∑ k, ∑ a, R j a * R k a := by
  rw [Finset.sum_comm]
  exact Finset.sum_congr rfl fun b _ => Finset.mul_sum _ _ _

theorem core_real {E A : Type*} [Fintype E] [Fintype A] (R I : E → A → ℝ) (i : E) (f : A) :
    ∑ j, ((∑ a, R i a * R j a) / (∑ k, ∑ a, R j a * R k a)) * I j f
      = ∑ a, R i a * ∑ j, R j a * (I j f / ∑ b, R j b * ∑ k, R k b) := by
  calc ∑ j, ((∑ a, R i a * R j a) / (∑ k, ∑ a, R j a * R k a)) * I j f
      = ∑ j, ∑ a, R i a * (R j a * (I j f / ∑ k, ∑ a, R j a * R k a)) := by
        refine Finset.sum_congr rfl fun j _ => ?_
        rw [div_mul_eq_mul_div, mul_div_assoc, Finset.sum_mul]
        exact Finset.sum_congr rfl fun a _ => mul_assoc _ _ _
    _ = ∑ a, ∑ j, R i a * (R j a * (I j f / ∑ k, ∑ a, R j a * R k a)) := Finset.sum_comm
    _ = ∑ a, R i a * ∑ j, R j a * (I j f / ∑ b, R j b * ∑ k, R k b) := by
        refine Finset.sum_congr rfl fun a _ => ?_
        rw [Finset.mul_sum]
        refine Finset.sum_congr rfl fun j _ => ?_
        rw [rowsum_real]

theorem core_ereal {E A : Type*} [Fintype E] [Fintype A] (R I : E → A → ℝ)
    (hs : ∀ j, (∑ k, ∑ a, R j a * R k a) ≠ 0) (i : E) (f : A) :
    (∑ j, Ideal.div (∑ a, (R i a : EReal) * (R j a : EReal)) (∑ k, ∑ a, (R j a : EReal) * (R k a : EReal)) * (I j f : EReal))
      = ∑ a, (R i a : EReal) * ∑ j, (R j a : EReal) * Ideal.div (I j f : EReal) (∑ b, (R j b : EReal) * ∑ k, (R k b : EReal)) := by
  have hrs : ∀ j, (∑ b, R j b * ∑ k, R k b) ≠ 0 := fun j => by rw [rowsum_real]; exact hs j

  have hL : (∑ j, Ideal.div (∑ a, (R i a : EReal) * (R j a : EReal)) (∑ k, ∑ a, (R j a : EReal) * (R k a : EReal)) * (I j f : EReal))
      = ((∑ j, ((∑ a, R i a * R j a) / (∑ k, ∑ a, R j a * R k a)) * I j f : ℝ) : EReal) := by
    rw [EReal.coe_finset_sum']
    refine Finset.sum_congr rfl fun j _ => ?_
    rw [EReal.coe_mul, ← Ideal.div_coe_coe _ (hs j), EReal.coe_finset_sum', EReal.coe_finset_sum']
    simp only [EReal.coe_finset_sum', EReal.coe_mul]

  have hR : (∑ a, (R i a : EReal) * ∑ j, (R j a : EReal) * Ideal.div (I j f : EReal) (∑ b, (R j b : EReal) * ∑ k, (R k b : EReal)))
      = ((∑ a, R i a * ∑ j, R j a * (I j f / ∑ b, R j b * ∑ k, R k b) : ℝ) : EReal) := by
    rw [EReal.coe_finset_sum']
    refine Finset.sum_congr rfl fun a _ => ?_
    rw [EReal.coe_mul, EReal.coe_finset_sum']
    refine congrArg _ (Finset.sum_congr rfl fun j _ => ?_)
    rw [EReal.coe_mul, ← Ideal.div_coe_coe _ (hrs j), EReal.coe_finset_sum']
    simp only [EReal.coe_finset_sum', EReal.coe_mul]
  rw [hL, hR, core_real]

theorem core_ereal_fun {E A : Type*} [Fintype E] [Fintype A] (R I : E → A → EReal)
    (hR : ∀ e a, ∃ y : ℝ, R e a = y) (hI : ∀ e a, ∃ y : ℝ, I e a = y)
    (hs : ∀ j, (∑ k, ∑ a, R j a * R k a) ≠ 0) (i : E) (f : A) :
    (∑ j, Ideal.div (∑ a, R i a * R j a) (∑ k, ∑ a, R j a * R k a) * I j f)
      = ∑ a, R i a * ∑ j, R j a * Ideal.div (I j f) (∑ b, R j b * ∑ k, R k b) := by
  choose r hr using hR
  choose ι hι using hI
  obtain rfl : R = fun e a => (r e a : EReal) := funext fun e => funext fun a => hr e a
  obtain rfl : I = fun e a => (ι e a : EReal) := funext fun e => funext fun a => hι e a
  refine core_ereal r ι (fun j h0 => hs j ?_) i f
  simp only [← EReal.coe_mul, ← EReal.coe_finset_sum']
  rw [h0, EReal.coe_zero]

end Cert.CoreAlg
-- ==== Proof.CoreBridge.lean ====
import proofs.«422445_j52716428591540_1_alg».proof.Proof.LibCoreAlg
import Idealize.ShloMosaic.PureOps.Ideal
import Idealize.ShloMosaic.Lib.ValueIdx

open scoped BigOperators

namespace Cert.CoreBridge

open Idealize.ShloMosaic Idealize.ShloMosaic.ValueIdx

abbrev S8192x512 : Shape := ⟨2, ![8192, 512]⟩
abbrev S1x512 : Shape := ⟨2, ![1, 512]⟩
abbrev S512x1 : Shape := ⟨2, ![512, 1]⟩
abbrev S512x512 : Shape := ⟨2, ![512, 512]⟩
abbrev S8192 : Shape := ⟨1, ![8192]⟩

def AllReal {S : Shape} (x : FVec Ideal S .f32) : Prop := ∀ i, ∃ y : ℝ, x i = (y : EReal)

theorem core_bridge (R I XK XR : FVec Ideal S8192x512 .f32) (S : FVec Ideal S1x512 .f32) (s : FVec Ideal S512x1 .f32)
    (M : FVec Ideal S512x512 .f32) (rs : FVec Ideal S8192 .f32)
    (hR : AllReal R) (hI : AllReal I)
    (hS : ∀ a : Fin 512, S (ix2 (0 : Fin 1) a) = ∑ j : Fin 8192, R (ix2 j a))
    (hs : ∀ a : Fin 512, s (ix2 a (0 : Fin 1)) = S (ix2 (0 : Fin 1) a))
    (hM : ∀ a f : Fin 512, M (ix2 a f)
      = ∑ j : Fin 8192, R (ix2 j a) * Ideal.div (I (ix2 j f)) (∑ b : Fin 512, R (ix2 j b) * s (ix2 b (0 : Fin 1))))
    (hXK : ∀ (i : Fin 8192) (f : Fin 512), XK (ix2 i f) = ∑ a : Fin 512, R (ix2 i a) * M (ix2 a f))
    (hrs : ∀ j : Fin 8192, rs (ix1 j) = ∑ k : Fin 8192, ∑ a : Fin 512, R (ix2 j a) * R (ix2 k a))
    (hrs0 : ∀ j : Fin 8192, rs (ix1 j) ≠ 0)
    (hXR : ∀ (i : Fin 8192) (f : Fin 512), XR (ix2 i f)
      = ∑ j : Fin 8192, Ideal.div (∑ a : Fin 512, R (ix2 i a) * R (ix2 j a)) (rs (ix1 j)) * I (ix2 j f)) :
    XK = XR := by
  funext j

  obtain ⟨i, f, rfl⟩ : ∃ (i : Fin 8192) (f : Fin 512), j = ix2 i f := ⟨j 0, j 1, eq_ix2 j⟩

  have hs' : ∀ j : Fin 8192, (∑ k : Fin 8192, ∑ a : Fin 512, R (ix2 j a) * R (ix2 k a)) ≠ 0 := fun j => by
    rw [← hrs]; exact hrs0 j

  rw [hXK, hXR]
  simp only [hM, hs, hS, hrs]

  exact (Cert.CoreAlg.core_ereal_fun (fun j a => R (ix2 j a)) (fun j a => I (ix2 j a))
    (fun e a => hR (ix2 e a)) (fun e a => hI (ix2 e a)) hs' i f).symm

end Cert.CoreBridge
-- ==== Proof.LibReshapeCol.lean ====
import Idealize.ShloMosaic.Lib.ValueIdx
import Idealize.ShloMosaic.Lib.ValueLayout
import Idealize.ShloMosaic.Lib.Pipeline.Value

namespace Cert.ReshapeCol

open Idealize.ShloMosaic Idealize.ShloMosaic.ValueIdx

variable {α : Type}

theorem shapeCast_1n_n1_apply {n : ℕ} (x : (⟨2, ![1, n]⟩ : Shape).Idx → α)
    (h : (⟨2, ![1, n]⟩ : Shape).ShapeCasts ⟨2, ![n, 1]⟩) (a : Fin n) (u : Fin 1) :
    shapeCast ⟨2, ![n, 1]⟩ x h (ix2 a u) = x (ix2 (0 : Fin 1) a) :=
  shapeCast_apply x h _ _ (by
    have hu : u.val = 0 := by omega
    rw [Shape.rowMajor_val_two, Shape.rowMajor_val_two]
    show 0 * n + a.val = a.val * 1 + u.val
    rw [hu, Nat.zero_mul, Nat.zero_add, Nat.mul_one, Nat.add_zero])

theorem shapeCast_n1_1n_apply {n : ℕ} (x : (⟨2, ![n, 1]⟩ : Shape).Idx → α)
    (h : (⟨2, ![n, 1]⟩ : Shape).ShapeCasts ⟨2, ![1, n]⟩) (u : Fin 1) (a : Fin n) :
    shapeCast ⟨2, ![1, n]⟩ x h (ix2 u a) = x (ix2 a (0 : Fin 1)) :=
  shapeCast_apply x h _ _ (by
    have hu : u.val = 0 := by omega
    rw [Shape.rowMajor_val_two, Shape.rowMajor_val_two]
    show a.val * 1 + 0 = u.val * n + a.val
    rw [hu, Nat.zero_mul, Nat.zero_add, Nat.mul_one, Nat.add_zero])

theorem shapeCast_1x512_512x1_apply (x : (⟨2, ![1, 512]⟩ : Shape).Idx → α)
    (h : (⟨2, ![1, 512]⟩ : Shape).ShapeCasts ⟨2, ![512, 1]⟩) (a : Fin 512) :
    shapeCast ⟨2, ![512, 1]⟩ x h (ix2 a (0 : Fin 1)) = x (ix2 (0 : Fin 1) a) :=
  shapeCast_1n_n1_apply x h a 0

end Cert.ReshapeCol
-- ==== Proof.KI.CoreEq.lean ====
import proofs.«422445_j52716428591540_1_alg».proof.Proof.KI.Glue
import proofs.«422445_j52716428591540_1_alg».proof.Proof.KI.PrefixFin
import proofs.«422445_j52716428591540_1_alg».proof.Proof.KI.Reg0Val
import proofs.«422445_j52716428591540_1_alg».proof.Proof.KI.Reg1Val
import proofs.«422445_j52716428591540_1_alg».proof.Proof.KI.Reg2Val
import proofs.«422445_j52716428591540_1_alg».proof.Proof.RI.CoreVal
import proofs.«422445_j52716428591540_1_alg».proof.Proof.Gen.ReferenceIdeal
import proofs.«422445_j52716428591540_1_alg».proof.Proof.CoreBridge
import proofs.«422445_j52716428591540_1_alg».proof.Proof.LibReshapeCol

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

theorem core_eq (c : Dev nD) (h : FVec Ideal S4096x512 .f32) (A : IVec S3x8192 32) (r : FVec Ideal S8192 .f32)
    (eh : W0 m ρ c (Proc.devRef .tc main_arg0) = h) (eA : W0 m ρ c (Proc.devRef .tc main_arg1) = A)
    (er : W0 m ρ c (Proc.devRef .tc main_arg2) = r)
    (hh : AllReal h) (hr : AllReal r) (hr0 : ∀ e, r e ≠ 0)
    (hs0 : ∀ j : Fin 8192, Cert.ReferenceIdeal.Hand.rowsum (preR (F := Ideal) h A r) (ix1 j) ≠ 0) :
    X2 (V4 m ρ) c = Cert.ReferenceIdeal.Hand.coreX (preR (F := Ideal) h A r) (preI (F := Ideal) h A r) := by
  have eR : W1 m ρ c (Proc.devRef .tc main_v34) = preR (F := Ideal) h A r := by rw [W1_v34, eh, eA, er]
  have eI : W1 m ρ c (Proc.devRef .tc main_v31) = preI (F := Ideal) h A r := by rw [W1_v31, eh, eA, er]
  have e0 : R0 (V1 m ρ) c = preR (F := Ideal) h A r := eR
  have e1R : R1 (V3 m ρ) c = preR (F := Ideal) h A r := (V3_v34 m ρ c).trans eR
  have e1I : I1 (V3 m ρ) c = preI (F := Ideal) h A r := (V3_v31 m ρ c).trans eI
  have e1s : s1 (V3 m ρ) c = shapeCast S512x1 (acc0 (V1 m ρ) c 3 (by show 3 < grid0.N; rw [N_0]; decide)) shapeCasts_S1x512_S512x1 :=
    V3_v36 m ρ c
  have e2R : lhs2 (V4 m ρ) c = preR (F := Ideal) h A r := (V4_v34 m ρ c).trans eR
  have e2M : rhs2 (V4 m ρ) c = acc1 (V3 m ρ) c 3 (by show 3 < grid1.N; rw [N_1]; decide) := V4_v37 m ρ c
  refine Cert.CoreBridge.core_bridge (preR (F := Ideal) h A r) (preI (F := Ideal) h A r) (X2 (V4 m ρ) c)
    (Cert.ReferenceIdeal.Hand.coreX (preR (F := Ideal) h A r) (preI (F := Ideal) h A r))
    (acc0 (V1 m ρ) c 3 (by show 3 < grid0.N; rw [N_0]; decide))
    (shapeCast S512x1 (acc0 (V1 m ρ) c 3 (by show 3 < grid0.N; rw [N_0]; decide)) shapeCasts_S1x512_S512x1)
    (acc1 (V3 m ρ) c 3 (by show 3 < grid1.N; rw [N_1]; decide))
    (Cert.ReferenceIdeal.Hand.rowsum (preR (F := Ideal) h A r))
    (fun i => preR_real h A r hh hr hr0 i) (fun i => preI_real h A r hh hr hr0 i) ?_ ?_ ?_ ?_ ?_ hs0 ?_
  · intro a; rw [acc0_apply, e0]
  · intro a; exact Cert.ReshapeCol.shapeCast_1x512_512x1_apply _ _ a
  · intro a f; rw [acc1_apply, e1R, e1I, e1s]
  · intro i f; rw [X2_apply, e2R, e2M]
  · intro j; exact Cert.ReferenceIdeal.Hand.rowsum_apply _ j
  · intro i f; exact Cert.ReferenceIdeal.Hand.coreX_apply _ _ i f

end Cert.KernelIdeal.Hand

end
-- ==== Proof.RI.Ops.lean ====
/- The reference program's @main as LISTS of its host operations, in order: a transcription of the printed program,
   one list per window (window 0 in three stretches); each element is the term of one operation line, a call line
   being replaced by the callee's operations over that call's buffers. No statement is proved here. -/
import proofs.«422445_j52716428591540_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.SL.Sem

variable {F : FTy → Type} [FloatOps F]

set_option maxHeartbeats 40000000 in
/-- @main, window 0, first stretch: through the operation printing %34: 42 operations, in order. -/
abbrev ops0a : List (HloOp τ sig (Elt F)) :=
  ( StableHlo.unary main_arg1 main_v0 ((extractStridedSlice S1x8192 ![0, 0] · slices_S3x8192_S1x8192_0_0) : (⟨S3x8192, .i32⟩ : BufTy).Contents (Elt F) → (⟨S1x8192, .i32⟩ : BufTy).Contents (Elt F)) -- %0
  :: StableHlo.reshape main_v0 main_v1 rfl shapeCasts_S1x8192_S8192 -- %1
  :: StableHlo.unary main_arg1 main_v2 ((extractStridedSlice S1x8192 ![1, 0] · slices_S3x8192_S1x8192_1_0) : (⟨S3x8192, .i32⟩ : BufTy).Contents (Elt F) → (⟨S1x8192, .i32⟩ : BufTy).Contents (Elt F)) -- %2
  :: StableHlo.reshape main_v2 main_v3 rfl shapeCasts_S1x8192_S8192 -- %3
  :: StableHlo.unary main_arg1 main_v4 ((extractStridedSlice S1x8192 ![2, 0] · slices_S3x8192_S1x8192_2_0) : (⟨S3x8192, .i32⟩ : BufTy).Contents (Elt F) → (⟨S1x8192, .i32⟩ : BufTy).Contents (Elt F)) -- %4
  :: StableHlo.reshape main_v4 main_v5 rfl shapeCasts_S1x8192_S8192 -- %5
  :: StableHlo.nullary main_c (constantI S_ 32 0#32) -- %c
  :: StableHlo.unary main_c main_v6 (broadcastInDim S8192 ![] bcast_S_S8192 : (⟨S_, .i32⟩ : BufTy).Contents (Elt F) → (⟨S8192, .i32⟩ : BufTy).Contents (Elt F)) -- %6
  :: StableHlo.binary main_v5 main_v6 main_v7 (cmpi .slt : (⟨S8192, .i32⟩ : BufTy).Contents (Elt F) → (⟨S8192, .i32⟩ : BufTy).Contents (Elt F) → (⟨S8192, .i1⟩ : BufTy).Contents (Elt F)) -- %7
  :: StableHlo.nullary main_c_0 (constantI S_ 32 4096#32) -- %c_0
  :: StableHlo.unary main_c_0 main_v8 (broadcastInDim S8192 ![] bcast_S_S8192 : (⟨S_, .i32⟩ : BufTy).Contents (Elt F) → (⟨S8192, .i32⟩ : BufTy).Contents (Elt F)) -- %8
  :: StableHlo.binary main_v5 main_v8 main_v9 (addi : (⟨S8192, .i32⟩ : BufTy).Contents (Elt F) → (⟨S8192, .i32⟩ : BufTy).Contents (Elt F) → (⟨S8192, .i32⟩ : BufTy).Contents (Elt F)) -- %9
  :: StableHlo.ternary main_v7 main_v9 main_v5 main_v10 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) -- %10
  :: StableHlo.unary main_v10 main_v11 (broadcastInDim S8192x1 ![0] bcast_S8192_S8192x1_0 : (⟨S8192, .i32⟩ : BufTy).Contents (Elt F) → (⟨S8192x1, .i32⟩ : BufTy).Contents (Elt F)) -- %11
  :: StableHlo.binary main_arg0 main_v11 main_v12 ((fun x i => Host.gather gather_S4096x512_S8192x1_S8192x512_1_0_n_n_0_1_1512 x i) : (⟨S4096x512, .f32⟩ : BufTy).Contents (Elt F) → (⟨S8192x1, .i32⟩ : BufTy).Contents (Elt F) → (⟨S8192x512, .f32⟩ : BufTy).Contents (Elt F)) -- %12
  :: StableHlo.nullary main_c_1 (constantI S_ 32 0#32) -- %c_1
  :: StableHlo.unary main_c_1 main_v13 (broadcastInDim S8192 ![] bcast_S_S8192 : (⟨S_, .i32⟩ : BufTy).Contents (Elt F) → (⟨S8192, .i32⟩ : BufTy).Contents (Elt F)) -- %13
  :: StableHlo.binary main_v1 main_v13 main_v14 (cmpi .slt : (⟨S8192, .i32⟩ : BufTy).Contents (Elt F) → (⟨S8192, .i32⟩ : BufTy).Contents (Elt F) → (⟨S8192, .i1⟩ : BufTy).Contents (Elt F)) -- %14
  :: StableHlo.nullary main_c_2 (constantI S_ 32 4096#32) -- %c_2
  :: StableHlo.unary main_c_2 main_v15 (broadcastInDim S8192 ![] bcast_S_S8192 : (⟨S_, .i32⟩ : BufTy).Contents (Elt F) → (⟨S8192, .i32⟩ : BufTy).Contents (Elt F)) -- %15
  :: StableHlo.binary main_v1 main_v15 main_v16 (addi : (⟨S8192, .i32⟩ : BufTy).Contents (Elt F) → (⟨S8192, .i32⟩ : BufTy).Contents (Elt F) → (⟨S8192, .i32⟩ : BufTy).Contents (Elt F)) -- %16
  :: StableHlo.ternary main_v14 main_v16 main_v1 main_v17 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) -- %17
  :: StableHlo.unary main_v17 main_v18 (broadcastInDim S8192x1 ![0] bcast_S8192_S8192x1_0 : (⟨S8192, .i32⟩ : BufTy).Contents (Elt F) → (⟨S8192x1, .i32⟩ : BufTy).Contents (Elt F)) -- %18
  :: StableHlo.binary main_arg0 main_v18 main_v19 ((fun x i => Host.gather gather_S4096x512_S8192x1_S8192x512_1_0_n_n_0_1_1512 x i) : (⟨S4096x512, .f32⟩ : BufTy).Contents (Elt F) → (⟨S8192x1, .i32⟩ : BufTy).Contents (Elt F) → (⟨S8192x512, .f32⟩ : BufTy).Contents (Elt F)) -- %19
  :: StableHlo.binary main_v12 main_v19 main_v20 (subf : (⟨S8192x512, .f32⟩ : BufTy).Contents (Elt F) → (⟨S8192x512, .f32⟩ : BufTy).Contents (Elt F) → (⟨S8192x512, .f32⟩ : BufTy).Contents (Elt F)) -- %20
  :: StableHlo.unary main_arg2 main_v21 (broadcastInDim S8192x1 ![0] bcast_S8192_S8192x1_0 : (⟨S8192, .f32⟩ : BufTy).Contents (Elt F) → (⟨S8192x1, .f32⟩ : BufTy).Contents (Elt F)) -- %21
  :: StableHlo.unary main_v21 main_v22 (broadcastInDim S8192x512 ![0, 1] bcast_S8192x1_S8192x512_0_1 : (⟨S8192x1, .f32⟩ : BufTy).Contents (Elt F) → (⟨S8192x512, .f32⟩ : BufTy).Contents (Elt F)) -- %22
  :: StableHlo.binary main_v20 main_v22 main_v23 (Host.divf : (⟨S8192x512, .f32⟩ : BufTy).Contents (Elt F) → (⟨S8192x512, .f32⟩ : BufTy).Contents (Elt F) → (⟨S8192x512, .f32⟩ : BufTy).Contents (Elt F)) -- %23
  :: StableHlo.nullary main_cst (constant S_ .f32 0x00000000#32) -- %cst
  :: StableHlo.unary main_cst main_v24 (broadcastInDim S8192x512 ![] bcast_S_S8192x512 : (⟨S_, .f32⟩ : BufTy).Contents (Elt F) → (⟨S8192x512, .f32⟩ : BufTy).Contents (Elt F)) -- %24
  :: StableHlo.nullary main_c_3 (constantI S_ 32 0#32) -- %c_3
  :: StableHlo.unary main_c_3 main_v25 (broadcastInDim S8192 ![] bcast_S_S8192 : (⟨S_, .i32⟩ : BufTy).Contents (Elt F) → (⟨S8192, .i32⟩ : BufTy).Contents (Elt F)) -- %25
  :: StableHlo.binary main_v3 main_v25 main_v26 (cmpi .slt : (⟨S8192, .i32⟩ : BufTy).Contents (Elt F) → (⟨S8192, .i32⟩ : BufTy).Contents (Elt F) → (⟨S8192, .i1⟩ : BufTy).Contents (Elt F)) -- %26
  :: StableHlo.nullary main_c_4 (constantI S_ 32 8192#32) -- %c_4
  :: StableHlo.unary main_c_4 main_v27 (broadcastInDim S8192 ![] bcast_S_S8192 : (⟨S_, .i32⟩ : BufTy).Contents (Elt F) → (⟨S8192, .i32⟩ : BufTy).Contents (Elt F)) -- %27
  :: StableHlo.binary main_v3 main_v27 main_v28 (addi : (⟨S8192, .i32⟩ : BufTy).Contents (Elt F) → (⟨S8192, .i32⟩ : BufTy).Contents (Elt F) → (⟨S8192, .i32⟩ : BufTy).Contents (Elt F)) -- %28
  :: StableHlo.ternary main_v26 main_v28 main_v3 main_v29 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) -- %29
  :: StableHlo.unary main_v29 main_v30 (broadcastInDim S8192x1 ![0] bcast_S8192_S8192x1_0 : (⟨S8192, .i32⟩ : BufTy).Contents (Elt F) → (⟨S8192x1, .i32⟩ : BufTy).Contents (Elt F)) -- %30
  :: StableHlo.ternary main_v24 main_v30 main_v23 main_v31 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)) -- %31
  :: StableHlo.unary main_arg2 main_v32 (broadcastInDim S8192x1 ![0] bcast_S8192_S8192x1_0 : (⟨S8192, .f32⟩ : BufTy).Contents (Elt F) → (⟨S8192x1, .f32⟩ : BufTy).Contents (Elt F)) -- %32
  :: StableHlo.unary main_v32 main_v33 (broadcastInDim S8192x512 ![0, 1] bcast_S8192x1_S8192x512_0_1 : (⟨S8192x1, .f32⟩ : BufTy).Contents (Elt F) → (⟨S8192x512, .f32⟩ : BufTy).Contents (Elt F)) -- %33
  :: StableHlo.binary main_v31 main_v33 main_v34 (Host.divf : (⟨S8192x512, .f32⟩ : BufTy).Contents (Elt F) → (⟨S8192x512, .f32⟩ : BufTy).Contents (Elt F) → (⟨S8192x512, .f32⟩ : BufTy).Contents (Elt F)) -- %34
  :: [] )

set_option maxHeartbeats 40000000 in
/-- @main, window 0, second stretch: after %34, through the operation printing %41: 8 operations, in order. -/
abbrev ops0b : List (HloOp τ sig (Elt F)) :=
  ( StableHlo.unary main_v34 main_v35 ((transpose S512x8192 [1, 0] · transposes_S8192x512_S512x8192_1_0) : (⟨S8192x512, .f32⟩ : BufTy).Contents (Elt F) → (⟨S512x8192, .f32⟩ : BufTy).Contents (Elt F)) -- %35
  :: StableHlo.binary main_v34 main_v35 main_v36 ((fun l r => Host.dotGeneral dot_S8192x512_S512x8192_S8192x8192_1_0_0_1_n_n none l r) : (⟨S8192x512, .f32⟩ : BufTy).Contents (Elt F) → (⟨S512x8192, .f32⟩ : BufTy).Contents (Elt F) → (⟨S8192x8192, .f32⟩ : BufTy).Contents (Elt F)) -- %36
  :: StableHlo.nullary main_cst_5 (constant S_ .f32 0x00000000#32) -- %cst_5
  :: StableHlo.binary main_v36 main_cst_5 main_v37 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)) -- %37
  :: StableHlo.unary main_v37 main_v38 (broadcastInDim S1x8192 ![1] bcast_S8192_S1x8192_1 : (⟨S8192, .f32⟩ : BufTy).Contents (Elt F) → (⟨S1x8192, .f32⟩ : BufTy).Contents (Elt F)) -- %38
  :: StableHlo.unary main_v38 main_v39 (broadcastInDim S8192x8192 ![0, 1] bcast_S1x8192_S8192x8192_0_1 : (⟨S1x8192, .f32⟩ : BufTy).Contents (Elt F) → (⟨S8192x8192, .f32⟩ : BufTy).Contents (Elt F)) -- %39
  :: StableHlo.binary main_v36 main_v39 main_v40 (Host.divf : (⟨S8192x8192, .f32⟩ : BufTy).Contents (Elt F) → (⟨S8192x8192, .f32⟩ : BufTy).Contents (Elt F) → (⟨S8192x8192, .f32⟩ : BufTy).Contents (Elt F)) -- %40
  :: StableHlo.binary main_v40 main_v31 main_v41 ((fun l r => Host.dotGeneral dot_S8192x8192_S8192x512_S8192x512_1_0_0_1_n_n none l r) : (⟨S8192x8192, .f32⟩ : BufTy).Contents (Elt F) → (⟨S8192x512, .f32⟩ : BufTy).Contents (Elt F) → (⟨S8192x512, .f32⟩ : BufTy).Contents (Elt F)) -- %41
  :: [] )

set_option maxHeartbeats 40000000 in
/-- @main, window 0, the rest: 10 operations, in order. -/
abbrev ops0c : List (HloOp τ sig (Elt F)) :=
  ( StableHlo.nullary main_c_6 (constantI S_ 32 0#32) -- %c_6
  :: StableHlo.unary main_c_6 main_v42 (broadcastInDim S8192 ![] bcast_S_S8192 : (⟨S_, .i32⟩ : BufTy).Contents (Elt F) → (⟨S8192, .i32⟩ : BufTy).Contents (Elt F)) -- %42
  :: StableHlo.binary main_v5 main_v42 main_v43 (cmpi .slt : (⟨S8192, .i32⟩ : BufTy).Contents (Elt F) → (⟨S8192, .i32⟩ : BufTy).Contents (Elt F) → (⟨S8192, .i1⟩ : BufTy).Contents (Elt F)) -- %43
  :: StableHlo.nullary main_c_7 (constantI S_ 32 4096#32) -- %c_7
  :: StableHlo.unary main_c_7 main_v44 (broadcastInDim S8192 ![] bcast_S_S8192 : (⟨S_, .i32⟩ : BufTy).Contents (Elt F) → (⟨S8192, .i32⟩ : BufTy).Contents (Elt F)) -- %44
  :: StableHlo.binary main_v5 main_v44 main_v45 (addi : (⟨S8192, .i32⟩ : BufTy).Contents (Elt F) → (⟨S8192, .i32⟩ : BufTy).Contents (Elt F) → (⟨S8192, .i32⟩ : BufTy).Contents (Elt F)) -- %45
  :: StableHlo.ternary main_v43 main_v45 main_v5 main_v46 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) -- %46
  :: StableHlo.unary main_v46 main_v47 (broadcastInDim S8192x1 ![0] bcast_S8192_S8192x1_0 : (⟨S8192, .i32⟩ : BufTy).Contents (Elt F) → (⟨S8192x1, .i32⟩ : BufTy).Contents (Elt F)) -- %47
  :: StableHlo.binary main_arg0 main_v47 main_v48 ((fun x i => Host.gather gather_S4096x512_S8192x1_S8192x512_1_0_n_n_0_1_1512 x i) : (⟨S4096x512, .f32⟩ : BufTy).Contents (Elt F) → (⟨S8192x1, .i32⟩ : BufTy).Contents (Elt F) → (⟨S8192x512, .f32⟩ : BufTy).Contents (Elt F)) -- %48
  :: StableHlo.unary main_arg4 main_v49 ((extractStridedSlice S1x1x512x1 ![0, 0, 0, 0] · slices_S4x2x512x1_S1x1x512x1_0_0_0_0) : (⟨S4x2x512x1, .f32⟩ : BufTy).Contents (Elt F) → (⟨S1x1x512x1, .f32⟩ : BufTy).Contents (Elt F)) -- %49
  :: [] )

set_option maxHeartbeats 40000000 in
/-- @main, window 1: 66 operations, in order. -/
abbrev ops1 : List (HloOp τ sig (Elt F)) :=
  ( StableHlo.reshape main_v49 main_v50 rfl shapeCasts_S1x1x512x1_S512x1 -- %50
  :: StableHlo.binary main_v48 main_v50 main_v51 ((fun l r => Host.dotGeneral dot_S8192x512_S512x1_S8192x1_1_0_0_1_n_n none l r) : (⟨S8192x512, .f32⟩ : BufTy).Contents (Elt F) → (⟨S512x1, .f32⟩ : BufTy).Contents (Elt F) → (⟨S8192x1, .f32⟩ : BufTy).Contents (Elt F)) -- %51
  :: StableHlo.nullary main_c_8 (constantI S_ 32 0#32) -- %c_8
  :: StableHlo.unary main_c_8 main_v52 (broadcastInDim S8192 ![] bcast_S_S8192 : (⟨S_, .i32⟩ : BufTy).Contents (Elt F) → (⟨S8192, .i32⟩ : BufTy).Contents (Elt F)) -- %52
  :: StableHlo.binary main_v3 main_v52 main_v53 (cmpi .slt : (⟨S8192, .i32⟩ : BufTy).Contents (Elt F) → (⟨S8192, .i32⟩ : BufTy).Contents (Elt F) → (⟨S8192, .i1⟩ : BufTy).Contents (Elt F)) -- %53
  :: StableHlo.nullary main_c_9 (constantI S_ 32 8192#32) -- %c_9
  :: StableHlo.unary main_c_9 main_v54 (broadcastInDim S8192 ![] bcast_S_S8192 : (⟨S_, .i32⟩ : BufTy).Contents (Elt F) → (⟨S8192, .i32⟩ : BufTy).Contents (Elt F)) -- %54
  :: StableHlo.binary main_v3 main_v54 main_v55 (addi : (⟨S8192, .i32⟩ : BufTy).Contents (Elt F) → (⟨S8192, .i32⟩ : BufTy).Contents (Elt F) → (⟨S8192, .i32⟩ : BufTy).Contents (Elt F)) -- %55
  :: StableHlo.ternary main_v53 main_v55 main_v3 main_v56 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) -- %56
  :: StableHlo.unary main_v56 main_v57 (broadcastInDim S8192x1 ![0] bcast_S8192_S8192x1_0 : (⟨S8192, .i32⟩ : BufTy).Contents (Elt F) → (⟨S8192x1, .i32⟩ : BufTy).Contents (Elt F)) -- %57
  :: StableHlo.binary main_v41 main_v57 main_v58 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)) -- %58
  :: StableHlo.unary main_arg4 main_v59 ((extractStridedSlice S1x1x512x1 ![0, 1, 0, 0] · slices_S4x2x512x1_S1x1x512x1_0_1_0_0) : (⟨S4x2x512x1, .f32⟩ : BufTy).Contents (Elt F) → (⟨S1x1x512x1, .f32⟩ : BufTy).Contents (Elt F)) -- %59
  :: StableHlo.reshape main_v59 main_v60 rfl shapeCasts_S1x1x512x1_S512x1 -- %60
  :: StableHlo.binary main_v58 main_v60 main_v61 ((fun l r => Host.dotGeneral dot_S8192x512_S512x1_S8192x1_1_0_0_1_n_n none l r) : (⟨S8192x512, .f32⟩ : BufTy).Contents (Elt F) → (⟨S512x1, .f32⟩ : BufTy).Contents (Elt F) → (⟨S8192x1, .f32⟩ : BufTy).Contents (Elt F)) -- %61
  :: StableHlo.binary main_v51 main_v61 main_v62 (addf : (⟨S8192x1, .f32⟩ : BufTy).Contents (Elt F) → (⟨S8192x1, .f32⟩ : BufTy).Contents (Elt F) → (⟨S8192x1, .f32⟩ : BufTy).Contents (Elt F)) -- %62
  :: StableHlo.reshape main_v62 main_v63 rfl shapeCasts_S8192x1_S8192 -- %63
  :: StableHlo.nullary main_cst_10 (constant S_ .f32 0x3E4CCCCD#32) -- %cst_10
  :: StableHlo.TRef.nullary (.of main_call0_cst : StableHlo.TRef sig ⟨S_, .f32⟩) (constant S_ .f32 0x00000000#32) -- in the call printing %64: %cst
  :: StableHlo.TRef.unary (.of main_call0_cst : StableHlo.TRef sig ⟨S_, .f32⟩) (.of main_call0_v0 : StableHlo.TRef sig ⟨S8192, .f32⟩) (broadcastInDim S8192 ![] bcast_S_S8192) -- in the call printing %64: %0
  :: StableHlo.TRef.binary (.of main_v63 : StableHlo.TRef sig ⟨S8192, .f32⟩) (.of main_call0_v0 : StableHlo.TRef sig ⟨S8192, .f32⟩) (.of main_call0_v1 : StableHlo.TRef sig ⟨S8192, .i1⟩) (cmpf .oge) -- in the call printing %64: %1
  :: StableHlo.TRef.unary (.of main_cst_10 : StableHlo.TRef sig ⟨S_, .f32⟩) (.of main_call0_v2 : StableHlo.TRef sig ⟨S_, .f32⟩) id -- in the call printing %64: %2
  :: StableHlo.TRef.unary (.of main_call0_v2 : StableHlo.TRef sig ⟨S_, .f32⟩) (.of main_call0_v3 : StableHlo.TRef sig ⟨S8192, .f32⟩) (broadcastInDim S8192 ![] bcast_S_S8192) -- in the call printing %64: %3
  :: StableHlo.TRef.binary (.of main_call0_v3 : StableHlo.TRef sig ⟨S8192, .f32⟩) (.of main_v63 : StableHlo.TRef sig ⟨S8192, .f32⟩) (.of main_call0_v4 : StableHlo.TRef sig ⟨S8192, .f32⟩) mulf -- in the call printing %64: %4
  :: StableHlo.TRef.ternary (.of main_call0_v1 : StableHlo.TRef sig ⟨S8192, .i1⟩) (.of main_v63 : StableHlo.TRef sig ⟨S8192, .f32⟩) (.of main_call0_v4 : StableHlo.TRef sig ⟨S8192, .f32⟩) (.of main_v64 : StableHlo.TRef sig ⟨S8192, .f32⟩) select -- in the call printing %64, nested call printing %5: %0
  :: StableHlo.unary main_v64 main_v65 (Host.negf : (⟨S8192, .f32⟩ : BufTy).Contents (Elt F) → (⟨S8192, .f32⟩ : BufTy).Contents (Elt F)) -- %65
  :: StableHlo.unary main_v65 main_v66 (Host.exp : (⟨S8192, .f32⟩ : BufTy).Contents (Elt F) → (⟨S8192, .f32⟩ : BufTy).Contents (Elt F)) -- %66
  :: StableHlo.nullary main_cst_11 (constant S_ .f32 0x00000000#32) -- %cst_11
  :: StableHlo.unary main_cst_11 main_v67 (broadcastInDim S4096 ![] bcast_S_S4096 : (⟨S_, .f32⟩ : BufTy).Contents (Elt F) → (⟨S4096, .f32⟩ : BufTy).Contents (Elt F)) -- %67
  :: StableHlo.nullary main_c_12 (constantI S_ 32 0#32) -- %c_12
  :: StableHlo.unary main_c_12 main_v68 (broadcastInDim S8192 ![] bcast_S_S8192 : (⟨S_, .i32⟩ : BufTy).Contents (Elt F) → (⟨S8192, .i32⟩ : BufTy).Contents (Elt F)) -- %68
  :: StableHlo.binary main_v1 main_v68 main_v69 (cmpi .slt : (⟨S8192, .i32⟩ : BufTy).Contents (Elt F) → (⟨S8192, .i32⟩ : BufTy).Contents (Elt F) → (⟨S8192, .i1⟩ : BufTy).Contents (Elt F)) -- %69
  :: StableHlo.nullary main_c_13 (constantI S_ 32 4096#32) -- %c_13
  :: StableHlo.unary main_c_13 main_v70 (broadcastInDim S8192 ![] bcast_S_S8192 : (⟨S_, .i32⟩ : BufTy).Contents (Elt F) → (⟨S8192, .i32⟩ : BufTy).Contents (Elt F)) -- %70
  :: StableHlo.binary main_v1 main_v70 main_v71 (addi : (⟨S8192, .i32⟩ : BufTy).Contents (Elt F) → (⟨S8192, .i32⟩ : BufTy).Contents (Elt F) → (⟨S8192, .i32⟩ : BufTy).Contents (Elt F)) -- %71
  :: StableHlo.ternary main_v69 main_v71 main_v1 main_v72 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) -- %72
  :: StableHlo.unary main_v72 main_v73 (broadcastInDim S8192x1 ![0] bcast_S8192_S8192x1_0 : (⟨S8192, .i32⟩ : BufTy).Contents (Elt F) → (⟨S8192x1, .i32⟩ : BufTy).Contents (Elt F)) -- %73
  :: StableHlo.ternary main_v67 main_v73 main_v66 main_v74 ((fun x i u => Host.scatterAdd scatter_S4096_S8192x1_S8192_n_0_0_1 x i u) : (⟨S4096, .f32⟩ : BufTy).Contents (Elt F) → (⟨S8192x1, .i32⟩ : BufTy).Contents (Elt F) → (⟨S8192, .f32⟩ : BufTy).Contents (Elt F) → (⟨S4096, .f32⟩ : BufTy).Contents (Elt F)) -- %74
  :: StableHlo.nullary main_c_14 (constantI S_ 32 0#32) -- %c_14
  :: StableHlo.unary main_c_14 main_v75 (broadcastInDim S8192 ![] bcast_S_S8192 : (⟨S_, .i32⟩ : BufTy).Contents (Elt F) → (⟨S8192, .i32⟩ : BufTy).Contents (Elt F)) -- %75
  :: StableHlo.binary main_v5 main_v75 main_v76 (cmpi .slt : (⟨S8192, .i32⟩ : BufTy).Contents (Elt F) → (⟨S8192, .i32⟩ : BufTy).Contents (Elt F) → (⟨S8192, .i1⟩ : BufTy).Contents (Elt F)) -- %76
  :: StableHlo.nullary main_c_15 (constantI S_ 32 4096#32) -- %c_15
  :: StableHlo.unary main_c_15 main_v77 (broadcastInDim S8192 ![] bcast_S_S8192 : (⟨S_, .i32⟩ : BufTy).Contents (Elt F) → (⟨S8192, .i32⟩ : BufTy).Contents (Elt F)) -- %77
  :: StableHlo.binary main_v5 main_v77 main_v78 (addi : (⟨S8192, .i32⟩ : BufTy).Contents (Elt F) → (⟨S8192, .i32⟩ : BufTy).Contents (Elt F) → (⟨S8192, .i32⟩ : BufTy).Contents (Elt F)) -- %78
  :: StableHlo.ternary main_v76 main_v78 main_v5 main_v79 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) -- %79
  :: StableHlo.unary main_v79 main_v80 (broadcastInDim S8192x1 ![0] bcast_S8192_S8192x1_0 : (⟨S8192, .i32⟩ : BufTy).Contents (Elt F) → (⟨S8192x1, .i32⟩ : BufTy).Contents (Elt F)) -- %80
  :: StableHlo.binary main_arg0 main_v80 main_v81 ((fun x i => Host.gather gather_S4096x512_S8192x1_S8192x512_1_0_n_n_0_1_1512 x i) : (⟨S4096x512, .f32⟩ : BufTy).Contents (Elt F) → (⟨S8192x1, .i32⟩ : BufTy).Contents (Elt F) → (⟨S8192x512, .f32⟩ : BufTy).Contents (Elt F)) -- %81
  :: StableHlo.nullary main_c_16 (constantI S_ 32 0#32) -- %c_16
  :: StableHlo.unary main_c_16 main_v82 (broadcastInDim S8192 ![] bcast_S_S8192 : (⟨S_, .i32⟩ : BufTy).Contents (Elt F) → (⟨S8192, .i32⟩ : BufTy).Contents (Elt F)) -- %82
  :: StableHlo.binary main_v3 main_v82 main_v83 (cmpi .slt : (⟨S8192, .i32⟩ : BufTy).Contents (Elt F) → (⟨S8192, .i32⟩ : BufTy).Contents (Elt F) → (⟨S8192, .i1⟩ : BufTy).Contents (Elt F)) -- %83
  :: StableHlo.nullary main_c_17 (constantI S_ 32 8192#32) -- %c_17
  :: StableHlo.unary main_c_17 main_v84 (broadcastInDim S8192 ![] bcast_S_S8192 : (⟨S_, .i32⟩ : BufTy).Contents (Elt F) → (⟨S8192, .i32⟩ : BufTy).Contents (Elt F)) -- %84
  :: StableHlo.binary main_v3 main_v84 main_v85 (addi : (⟨S8192, .i32⟩ : BufTy).Contents (Elt F) → (⟨S8192, .i32⟩ : BufTy).Contents (Elt F) → (⟨S8192, .i32⟩ : BufTy).Contents (Elt F)) -- %85
  :: StableHlo.ternary main_v83 main_v85 main_v3 main_v86 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) -- %86
  :: StableHlo.unary main_v86 main_v87 (broadcastInDim S8192x1 ![0] bcast_S8192_S8192x1_0 : (⟨S8192, .i32⟩ : BufTy).Contents (Elt F) → (⟨S8192x1, .i32⟩ : BufTy).Contents (Elt F)) -- %87
  :: StableHlo.binary main_v41 main_v87 main_v88 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)) -- %88
  :: StableHlo.binary main_v81 main_v88 main_v89 (subf : (⟨S8192x512, .f32⟩ : BufTy).Contents (Elt F) → (⟨S8192x512, .f32⟩ : BufTy).Contents (Elt F) → (⟨S8192x512, .f32⟩ : BufTy).Contents (Elt F)) -- %89
  :: StableHlo.unary main_v66 main_v90 (broadcastInDim S8192x1 ![0] bcast_S8192_S8192x1_0 : (⟨S8192, .f32⟩ : BufTy).Contents (Elt F) → (⟨S8192x1, .f32⟩ : BufTy).Contents (Elt F)) -- %90
  :: StableHlo.unary main_v90 main_v91 (broadcastInDim S8192x512 ![0, 1] bcast_S8192x1_S8192x512_0_1 : (⟨S8192x1, .f32⟩ : BufTy).Contents (Elt F) → (⟨S8192x512, .f32⟩ : BufTy).Contents (Elt F)) -- %91
  :: StableHlo.binary main_v89 main_v91 main_v92 (mulf : (⟨S8192x512, .f32⟩ : BufTy).Contents (Elt F) → (⟨S8192x512, .f32⟩ : BufTy).Contents (Elt F) → (⟨S8192x512, .f32⟩ : BufTy).Contents (Elt F)) -- %92
  :: StableHlo.nullary main_cst_18 (constant S_ .f32 0x00000000#32) -- %cst_18
  :: StableHlo.unary main_cst_18 main_v93 (broadcastInDim S4096x512 ![] bcast_S_S4096x512 : (⟨S_, .f32⟩ : BufTy).Contents (Elt F) → (⟨S4096x512, .f32⟩ : BufTy).Contents (Elt F)) -- %93
  :: StableHlo.nullary main_c_19 (constantI S_ 32 0#32) -- %c_19
  :: StableHlo.unary main_c_19 main_v94 (broadcastInDim S8192 ![] bcast_S_S8192 : (⟨S_, .i32⟩ : BufTy).Contents (Elt F) → (⟨S8192, .i32⟩ : BufTy).Contents (Elt F)) -- %94
  :: StableHlo.binary main_v1 main_v94 main_v95 (cmpi .slt : (⟨S8192, .i32⟩ : BufTy).Contents (Elt F) → (⟨S8192, .i32⟩ : BufTy).Contents (Elt F) → (⟨S8192, .i1⟩ : BufTy).Contents (Elt F)) -- %95
  :: StableHlo.nullary main_c_20 (constantI S_ 32 4096#32) -- %c_20
  :: StableHlo.unary main_c_20 main_v96 (broadcastInDim S8192 ![] bcast_S_S8192 : (⟨S_, .i32⟩ : BufTy).Contents (Elt F) → (⟨S8192, .i32⟩ : BufTy).Contents (Elt F)) -- %96
  :: [] )

set_option maxHeartbeats 40000000 in
/-- @main, window 2: 66 operations, in order. -/
abbrev ops2 : List (HloOp τ sig (Elt F)) :=
  ( StableHlo.binary main_v1 main_v96 main_v97 (addi : (⟨S8192, .i32⟩ : BufTy).Contents (Elt F) → (⟨S8192, .i32⟩ : BufTy).Contents (Elt F) → (⟨S8192, .i32⟩ : BufTy).Contents (Elt F)) -- %97
  :: StableHlo.ternary main_v95 main_v97 main_v1 main_v98 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) -- %98
  :: StableHlo.unary main_v98 main_v99 (broadcastInDim S8192x1 ![0] bcast_S8192_S8192x1_0 : (⟨S8192, .i32⟩ : BufTy).Contents (Elt F) → (⟨S8192x1, .i32⟩ : BufTy).Contents (Elt F)) -- %99
  :: StableHlo.ternary main_v93 main_v99 main_v92 main_v100 ((fun x i u => Host.scatterAdd scatter_S4096x512_S8192x1_S8192x512_1_0_0_1 x i u) : (⟨S4096x512, .f32⟩ : BufTy).Contents (Elt F) → (⟨S8192x1, .i32⟩ : BufTy).Contents (Elt F) → (⟨S8192x512, .f32⟩ : BufTy).Contents (Elt F) → (⟨S4096x512, .f32⟩ : BufTy).Contents (Elt F)) -- %100
  :: StableHlo.unary main_v74 main_v101 (broadcastInDim S4096x1 ![0] bcast_S4096_S4096x1_0 : (⟨S4096, .f32⟩ : BufTy).Contents (Elt F) → (⟨S4096x1, .f32⟩ : BufTy).Contents (Elt F)) -- %101
  :: StableHlo.unary main_v101 main_v102 (broadcastInDim S4096x512 ![0, 1] bcast_S4096x1_S4096x512_0_1 : (⟨S4096x1, .f32⟩ : BufTy).Contents (Elt F) → (⟨S4096x512, .f32⟩ : BufTy).Contents (Elt F)) -- %102
  :: StableHlo.binary main_v100 main_v102 main_v103 (Host.divf : (⟨S4096x512, .f32⟩ : BufTy).Contents (Elt F) → (⟨S4096x512, .f32⟩ : BufTy).Contents (Elt F) → (⟨S4096x512, .f32⟩ : BufTy).Contents (Elt F)) -- %103
  :: StableHlo.unary main_arg3 main_v104 ((extractStridedSlice S1x1x512 ![0, 0, 0] · slices_S3x1x512_S1x1x512_0_0_0) : (⟨S3x1x512, .f32⟩ : BufTy).Contents (Elt F) → (⟨S1x1x512, .f32⟩ : BufTy).Contents (Elt F)) -- %104
  :: StableHlo.reshape main_v104 main_v105 rfl shapeCasts_S1x1x512_S1x512 -- %105
  :: StableHlo.unary main_v105 main_v106 (broadcastInDim S4096x512 ![0, 1] bcast_S1x512_S4096x512_0_1 : (⟨S1x512, .f32⟩ : BufTy).Contents (Elt F) → (⟨S4096x512, .f32⟩ : BufTy).Contents (Elt F)) -- %106
  :: StableHlo.binary main_arg0 main_v106 main_v107 (mulf : (⟨S4096x512, .f32⟩ : BufTy).Contents (Elt F) → (⟨S4096x512, .f32⟩ : BufTy).Contents (Elt F) → (⟨S4096x512, .f32⟩ : BufTy).Contents (Elt F)) -- %107
  :: StableHlo.nullary main_c_21 (constantI S_ 32 0#32) -- %c_21
  :: StableHlo.unary main_c_21 main_v108 (broadcastInDim S8192 ![] bcast_S_S8192 : (⟨S_, .i32⟩ : BufTy).Contents (Elt F) → (⟨S8192, .i32⟩ : BufTy).Contents (Elt F)) -- %108
  :: StableHlo.binary main_v5 main_v108 main_v109 (cmpi .slt : (⟨S8192, .i32⟩ : BufTy).Contents (Elt F) → (⟨S8192, .i32⟩ : BufTy).Contents (Elt F) → (⟨S8192, .i1⟩ : BufTy).Contents (Elt F)) -- %109
  :: StableHlo.nullary main_c_22 (constantI S_ 32 4096#32) -- %c_22
  :: StableHlo.unary main_c_22 main_v110 (broadcastInDim S8192 ![] bcast_S_S8192 : (⟨S_, .i32⟩ : BufTy).Contents (Elt F) → (⟨S8192, .i32⟩ : BufTy).Contents (Elt F)) -- %110
  :: StableHlo.binary main_v5 main_v110 main_v111 (addi : (⟨S8192, .i32⟩ : BufTy).Contents (Elt F) → (⟨S8192, .i32⟩ : BufTy).Contents (Elt F) → (⟨S8192, .i32⟩ : BufTy).Contents (Elt F)) -- %111
  :: StableHlo.ternary main_v109 main_v111 main_v5 main_v112 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) -- %112
  :: StableHlo.unary main_v112 main_v113 (broadcastInDim S8192x1 ![0] bcast_S8192_S8192x1_0 : (⟨S8192, .i32⟩ : BufTy).Contents (Elt F) → (⟨S8192x1, .i32⟩ : BufTy).Contents (Elt F)) -- %113
  :: StableHlo.binary main_v107 main_v113 main_v114 ((fun x i => Host.gather gather_S4096x512_S8192x1_S8192x512_1_0_n_n_0_1_1512 x i) : (⟨S4096x512, .f32⟩ : BufTy).Contents (Elt F) → (⟨S8192x1, .i32⟩ : BufTy).Contents (Elt F) → (⟨S8192x512, .f32⟩ : BufTy).Contents (Elt F)) -- %114
  :: StableHlo.unary main_arg4 main_v115 ((extractStridedSlice S1x1x512x1 ![1, 0, 0, 0] · slices_S4x2x512x1_S1x1x512x1_1_0_0_0) : (⟨S4x2x512x1, .f32⟩ : BufTy).Contents (Elt F) → (⟨S1x1x512x1, .f32⟩ : BufTy).Contents (Elt F)) -- %115
  :: StableHlo.reshape main_v115 main_v116 rfl shapeCasts_S1x1x512x1_S512x1 -- %116
  :: StableHlo.binary main_v114 main_v116 main_v117 ((fun l r => Host.dotGeneral dot_S8192x512_S512x1_S8192x1_1_0_0_1_n_n none l r) : (⟨S8192x512, .f32⟩ : BufTy).Contents (Elt F) → (⟨S512x1, .f32⟩ : BufTy).Contents (Elt F) → (⟨S8192x1, .f32⟩ : BufTy).Contents (Elt F)) -- %117
  :: StableHlo.nullary main_c_23 (constantI S_ 32 0#32) -- %c_23
  :: StableHlo.unary main_c_23 main_v118 (broadcastInDim S8192 ![] bcast_S_S8192 : (⟨S_, .i32⟩ : BufTy).Contents (Elt F) → (⟨S8192, .i32⟩ : BufTy).Contents (Elt F)) -- %118
  :: StableHlo.binary main_v3 main_v118 main_v119 (cmpi .slt : (⟨S8192, .i32⟩ : BufTy).Contents (Elt F) → (⟨S8192, .i32⟩ : BufTy).Contents (Elt F) → (⟨S8192, .i1⟩ : BufTy).Contents (Elt F)) -- %119
  :: StableHlo.nullary main_c_24 (constantI S_ 32 8192#32) -- %c_24
  :: StableHlo.unary main_c_24 main_v120 (broadcastInDim S8192 ![] bcast_S_S8192 : (⟨S_, .i32⟩ : BufTy).Contents (Elt F) → (⟨S8192, .i32⟩ : BufTy).Contents (Elt F)) -- %120
  :: StableHlo.binary main_v3 main_v120 main_v121 (addi : (⟨S8192, .i32⟩ : BufTy).Contents (Elt F) → (⟨S8192, .i32⟩ : BufTy).Contents (Elt F) → (⟨S8192, .i32⟩ : BufTy).Contents (Elt F)) -- %121
  :: StableHlo.ternary main_v119 main_v121 main_v3 main_v122 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) -- %122
  :: StableHlo.unary main_v122 main_v123 (broadcastInDim S8192x1 ![0] bcast_S8192_S8192x1_0 : (⟨S8192, .i32⟩ : BufTy).Contents (Elt F) → (⟨S8192x1, .i32⟩ : BufTy).Contents (Elt F)) -- %123
  :: StableHlo.binary main_v41 main_v123 main_v124 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)) -- %124
  :: StableHlo.unary main_arg4 main_v125 ((extractStridedSlice S1x1x512x1 ![1, 1, 0, 0] · slices_S4x2x512x1_S1x1x512x1_1_1_0_0) : (⟨S4x2x512x1, .f32⟩ : BufTy).Contents (Elt F) → (⟨S1x1x512x1, .f32⟩ : BufTy).Contents (Elt F)) -- %125
  :: StableHlo.reshape main_v125 main_v126 rfl shapeCasts_S1x1x512x1_S512x1 -- %126
  :: StableHlo.binary main_v124 main_v126 main_v127 ((fun l r => Host.dotGeneral dot_S8192x512_S512x1_S8192x1_1_0_0_1_n_n none l r) : (⟨S8192x512, .f32⟩ : BufTy).Contents (Elt F) → (⟨S512x1, .f32⟩ : BufTy).Contents (Elt F) → (⟨S8192x1, .f32⟩ : BufTy).Contents (Elt F)) -- %127
  :: StableHlo.binary main_v117 main_v127 main_v128 (addf : (⟨S8192x1, .f32⟩ : BufTy).Contents (Elt F) → (⟨S8192x1, .f32⟩ : BufTy).Contents (Elt F) → (⟨S8192x1, .f32⟩ : BufTy).Contents (Elt F)) -- %128
  :: StableHlo.reshape main_v128 main_v129 rfl shapeCasts_S8192x1_S8192 -- %129
  :: StableHlo.nullary main_cst_25 (constant S_ .f32 0x3E4CCCCD#32) -- %cst_25
  :: StableHlo.TRef.nullary (.of main_call1_cst : StableHlo.TRef sig ⟨S_, .f32⟩) (constant S_ .f32 0x00000000#32) -- in the call printing %130: %cst
  :: StableHlo.TRef.unary (.of main_call1_cst : StableHlo.TRef sig ⟨S_, .f32⟩) (.of main_call1_v0 : StableHlo.TRef sig ⟨S8192, .f32⟩) (broadcastInDim S8192 ![] bcast_S_S8192) -- in the call printing %130: %0
  :: StableHlo.TRef.binary (.of main_v129 : StableHlo.TRef sig ⟨S8192, .f32⟩) (.of main_call1_v0 : StableHlo.TRef sig ⟨S8192, .f32⟩) (.of main_call1_v1 : StableHlo.TRef sig ⟨S8192, .i1⟩) (cmpf .oge) -- in the call printing %130: %1
  :: StableHlo.TRef.unary (.of main_cst_25 : StableHlo.TRef sig ⟨S_, .f32⟩) (.of main_call1_v2 : StableHlo.TRef sig ⟨S_, .f32⟩) id -- in the call printing %130: %2
  :: StableHlo.TRef.unary (.of main_call1_v2 : StableHlo.TRef sig ⟨S_, .f32⟩) (.of main_call1_v3 : StableHlo.TRef sig ⟨S8192, .f32⟩) (broadcastInDim S8192 ![] bcast_S_S8192) -- in the call printing %130: %3
  :: StableHlo.TRef.binary (.of main_call1_v3 : StableHlo.TRef sig ⟨S8192, .f32⟩) (.of main_v129 : StableHlo.TRef sig ⟨S8192, .f32⟩) (.of main_call1_v4 : StableHlo.TRef sig ⟨S8192, .f32⟩) mulf -- in the call printing %130: %4
  :: StableHlo.TRef.ternary (.of main_call1_v1 : StableHlo.TRef sig ⟨S8192, .i1⟩) (.of main_v129 : StableHlo.TRef sig ⟨S8192, .f32⟩) (.of main_call1_v4 : StableHlo.TRef sig ⟨S8192, .f32⟩) (.of main_v130 : StableHlo.TRef sig ⟨S8192, .f32⟩) select -- in the call printing %130, nested call printing %5: %0
  :: StableHlo.unary main_v130 main_v131 (Host.negf : (⟨S8192, .f32⟩ : BufTy).Contents (Elt F) → (⟨S8192, .f32⟩ : BufTy).Contents (Elt F)) -- %131
  :: StableHlo.unary main_v131 main_v132 (Host.exp : (⟨S8192, .f32⟩ : BufTy).Contents (Elt F) → (⟨S8192, .f32⟩ : BufTy).Contents (Elt F)) -- %132
  :: StableHlo.nullary main_cst_26 (constant S_ .f32 0x00000000#32) -- %cst_26
  :: StableHlo.unary main_cst_26 main_v133 (broadcastInDim S4096 ![] bcast_S_S4096 : (⟨S_, .f32⟩ : BufTy).Contents (Elt F) → (⟨S4096, .f32⟩ : BufTy).Contents (Elt F)) -- %133
  :: StableHlo.nullary main_c_27 (constantI S_ 32 0#32) -- %c_27
  :: StableHlo.unary main_c_27 main_v134 (broadcastInDim S8192 ![] bcast_S_S8192 : (⟨S_, .i32⟩ : BufTy).Contents (Elt F) → (⟨S8192, .i32⟩ : BufTy).Contents (Elt F)) -- %134
  :: StableHlo.binary main_v1 main_v134 main_v135 (cmpi .slt : (⟨S8192, .i32⟩ : BufTy).Contents (Elt F) → (⟨S8192, .i32⟩ : BufTy).Contents (Elt F) → (⟨S8192, .i1⟩ : BufTy).Contents (Elt F)) -- %135
  :: StableHlo.nullary main_c_28 (constantI S_ 32 4096#32) -- %c_28
  :: StableHlo.unary main_c_28 main_v136 (broadcastInDim S8192 ![] bcast_S_S8192 : (⟨S_, .i32⟩ : BufTy).Contents (Elt F) → (⟨S8192, .i32⟩ : BufTy).Contents (Elt F)) -- %136
  :: StableHlo.binary main_v1 main_v136 main_v137 (addi : (⟨S8192, .i32⟩ : BufTy).Contents (Elt F) → (⟨S8192, .i32⟩ : BufTy).Contents (Elt F) → (⟨S8192, .i32⟩ : BufTy).Contents (Elt F)) -- %137
  :: StableHlo.ternary main_v135 main_v137 main_v1 main_v138 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) -- %138
  :: StableHlo.unary main_v138 main_v139 (broadcastInDim S8192x1 ![0] bcast_S8192_S8192x1_0 : (⟨S8192, .i32⟩ : BufTy).Contents (Elt F) → (⟨S8192x1, .i32⟩ : BufTy).Contents (Elt F)) -- %139
  :: StableHlo.ternary main_v133 main_v139 main_v132 main_v140 ((fun x i u => Host.scatterAdd scatter_S4096_S8192x1_S8192_n_0_0_1 x i u) : (⟨S4096, .f32⟩ : BufTy).Contents (Elt F) → (⟨S8192x1, .i32⟩ : BufTy).Contents (Elt F) → (⟨S8192, .f32⟩ : BufTy).Contents (Elt F) → (⟨S4096, .f32⟩ : BufTy).Contents (Elt F)) -- %140
  :: StableHlo.nullary main_c_29 (constantI S_ 32 0#32) -- %c_29
  :: StableHlo.unary main_c_29 main_v141 (broadcastInDim S8192 ![] bcast_S_S8192 : (⟨S_, .i32⟩ : BufTy).Contents (Elt F) → (⟨S8192, .i32⟩ : BufTy).Contents (Elt F)) -- %141
  :: StableHlo.binary main_v5 main_v141 main_v142 (cmpi .slt : (⟨S8192, .i32⟩ : BufTy).Contents (Elt F) → (⟨S8192, .i32⟩ : BufTy).Contents (Elt F) → (⟨S8192, .i1⟩ : BufTy).Contents (Elt F)) -- %142
  :: StableHlo.nullary main_c_30 (constantI S_ 32 4096#32) -- %c_30
  :: StableHlo.unary main_c_30 main_v143 (broadcastInDim S8192 ![] bcast_S_S8192 : (⟨S_, .i32⟩ : BufTy).Contents (Elt F) → (⟨S8192, .i32⟩ : BufTy).Contents (Elt F)) -- %143
  :: StableHlo.binary main_v5 main_v143 main_v144 (addi : (⟨S8192, .i32⟩ : BufTy).Contents (Elt F) → (⟨S8192, .i32⟩ : BufTy).Contents (Elt F) → (⟨S8192, .i32⟩ : BufTy).Contents (Elt F)) -- %144
  :: StableHlo.ternary main_v142 main_v144 main_v5 main_v145 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) -- %145
  :: StableHlo.unary main_v145 main_v146 (broadcastInDim S8192x1 ![0] bcast_S8192_S8192x1_0 : (⟨S8192, .i32⟩ : BufTy).Contents (Elt F) → (⟨S8192x1, .i32⟩ : BufTy).Contents (Elt F)) -- %146
  :: [] )

set_option maxHeartbeats 40000000 in
/-- @main, window 3: 66 operations, in order. -/
abbrev ops3 : List (HloOp τ sig (Elt F)) :=
  ( StableHlo.binary main_v107 main_v146 main_v147 ((fun x i => Host.gather gather_S4096x512_S8192x1_S8192x512_1_0_n_n_0_1_1512 x i) : (⟨S4096x512, .f32⟩ : BufTy).Contents (Elt F) → (⟨S8192x1, .i32⟩ : BufTy).Contents (Elt F) → (⟨S8192x512, .f32⟩ : BufTy).Contents (Elt F)) -- %147
  :: StableHlo.nullary main_c_31 (constantI S_ 32 0#32) -- %c_31
  :: StableHlo.unary main_c_31 main_v148 (broadcastInDim S8192 ![] bcast_S_S8192 : (⟨S_, .i32⟩ : BufTy).Contents (Elt F) → (⟨S8192, .i32⟩ : BufTy).Contents (Elt F)) -- %148
  :: StableHlo.binary main_v3 main_v148 main_v149 (cmpi .slt : (⟨S8192, .i32⟩ : BufTy).Contents (Elt F) → (⟨S8192, .i32⟩ : BufTy).Contents (Elt F) → (⟨S8192, .i1⟩ : BufTy).Contents (Elt F)) -- %149
  :: StableHlo.nullary main_c_32 (constantI S_ 32 8192#32) -- %c_32
  :: StableHlo.unary main_c_32 main_v150 (broadcastInDim S8192 ![] bcast_S_S8192 : (⟨S_, .i32⟩ : BufTy).Contents (Elt F) → (⟨S8192, .i32⟩ : BufTy).Contents (Elt F)) -- %150
  :: StableHlo.binary main_v3 main_v150 main_v151 (addi : (⟨S8192, .i32⟩ : BufTy).Contents (Elt F) → (⟨S8192, .i32⟩ : BufTy).Contents (Elt F) → (⟨S8192, .i32⟩ : BufTy).Contents (Elt F)) -- %151
  :: StableHlo.ternary main_v149 main_v151 main_v3 main_v152 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) -- %152
  :: StableHlo.unary main_v152 main_v153 (broadcastInDim S8192x1 ![0] bcast_S8192_S8192x1_0 : (⟨S8192, .i32⟩ : BufTy).Contents (Elt F) → (⟨S8192x1, .i32⟩ : BufTy).Contents (Elt F)) -- %153
  :: StableHlo.binary main_v41 main_v153 main_v154 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)) -- %154
  :: StableHlo.binary main_v147 main_v154 main_v155 (subf : (⟨S8192x512, .f32⟩ : BufTy).Contents (Elt F) → (⟨S8192x512, .f32⟩ : BufTy).Contents (Elt F) → (⟨S8192x512, .f32⟩ : BufTy).Contents (Elt F)) -- %155
  :: StableHlo.unary main_v132 main_v156 (broadcastInDim S8192x1 ![0] bcast_S8192_S8192x1_0 : (⟨S8192, .f32⟩ : BufTy).Contents (Elt F) → (⟨S8192x1, .f32⟩ : BufTy).Contents (Elt F)) -- %156
  :: StableHlo.unary main_v156 main_v157 (broadcastInDim S8192x512 ![0, 1] bcast_S8192x1_S8192x512_0_1 : (⟨S8192x1, .f32⟩ : BufTy).Contents (Elt F) → (⟨S8192x512, .f32⟩ : BufTy).Contents (Elt F)) -- %157
  :: StableHlo.binary main_v155 main_v157 main_v158 (mulf : (⟨S8192x512, .f32⟩ : BufTy).Contents (Elt F) → (⟨S8192x512, .f32⟩ : BufTy).Contents (Elt F) → (⟨S8192x512, .f32⟩ : BufTy).Contents (Elt F)) -- %158
  :: StableHlo.nullary main_cst_33 (constant S_ .f32 0x00000000#32) -- %cst_33
  :: StableHlo.unary main_cst_33 main_v159 (broadcastInDim S4096x512 ![] bcast_S_S4096x512 : (⟨S_, .f32⟩ : BufTy).Contents (Elt F) → (⟨S4096x512, .f32⟩ : BufTy).Contents (Elt F)) -- %159
  :: StableHlo.nullary main_c_34 (constantI S_ 32 0#32) -- %c_34
  :: StableHlo.unary main_c_34 main_v160 (broadcastInDim S8192 ![] bcast_S_S8192 : (⟨S_, .i32⟩ : BufTy).Contents (Elt F) → (⟨S8192, .i32⟩ : BufTy).Contents (Elt F)) -- %160
  :: StableHlo.binary main_v1 main_v160 main_v161 (cmpi .slt : (⟨S8192, .i32⟩ : BufTy).Contents (Elt F) → (⟨S8192, .i32⟩ : BufTy).Contents (Elt F) → (⟨S8192, .i1⟩ : BufTy).Contents (Elt F)) -- %161
  :: StableHlo.nullary main_c_35 (constantI S_ 32 4096#32) -- %c_35
  :: StableHlo.unary main_c_35 main_v162 (broadcastInDim S8192 ![] bcast_S_S8192 : (⟨S_, .i32⟩ : BufTy).Contents (Elt F) → (⟨S8192, .i32⟩ : BufTy).Contents (Elt F)) -- %162
  :: StableHlo.binary main_v1 main_v162 main_v163 (addi : (⟨S8192, .i32⟩ : BufTy).Contents (Elt F) → (⟨S8192, .i32⟩ : BufTy).Contents (Elt F) → (⟨S8192, .i32⟩ : BufTy).Contents (Elt F)) -- %163
  :: StableHlo.ternary main_v161 main_v163 main_v1 main_v164 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) -- %164
  :: StableHlo.unary main_v164 main_v165 (broadcastInDim S8192x1 ![0] bcast_S8192_S8192x1_0 : (⟨S8192, .i32⟩ : BufTy).Contents (Elt F) → (⟨S8192x1, .i32⟩ : BufTy).Contents (Elt F)) -- %165
  :: StableHlo.ternary main_v159 main_v165 main_v158 main_v166 ((fun x i u => Host.scatterAdd scatter_S4096x512_S8192x1_S8192x512_1_0_0_1 x i u) : (⟨S4096x512, .f32⟩ : BufTy).Contents (Elt F) → (⟨S8192x1, .i32⟩ : BufTy).Contents (Elt F) → (⟨S8192x512, .f32⟩ : BufTy).Contents (Elt F) → (⟨S4096x512, .f32⟩ : BufTy).Contents (Elt F)) -- %166
  :: StableHlo.unary main_v140 main_v167 (broadcastInDim S4096x1 ![0] bcast_S4096_S4096x1_0 : (⟨S4096, .f32⟩ : BufTy).Contents (Elt F) → (⟨S4096x1, .f32⟩ : BufTy).Contents (Elt F)) -- %167
  :: StableHlo.unary main_v167 main_v168 (broadcastInDim S4096x512 ![0, 1] bcast_S4096x1_S4096x512_0_1 : (⟨S4096x1, .f32⟩ : BufTy).Contents (Elt F) → (⟨S4096x512, .f32⟩ : BufTy).Contents (Elt F)) -- %168
  :: StableHlo.binary main_v166 main_v168 main_v169 (Host.divf : (⟨S4096x512, .f32⟩ : BufTy).Contents (Elt F) → (⟨S4096x512, .f32⟩ : BufTy).Contents (Elt F) → (⟨S4096x512, .f32⟩ : BufTy).Contents (Elt F)) -- %169
  :: StableHlo.unary main_arg3 main_v170 ((extractStridedSlice S1x1x512 ![1, 0, 0] · slices_S3x1x512_S1x1x512_1_0_0) : (⟨S3x1x512, .f32⟩ : BufTy).Contents (Elt F) → (⟨S1x1x512, .f32⟩ : BufTy).Contents (Elt F)) -- %170
  :: StableHlo.reshape main_v170 main_v171 rfl shapeCasts_S1x1x512_S1x512 -- %171
  :: StableHlo.unary main_v171 main_v172 (broadcastInDim S4096x512 ![0, 1] bcast_S1x512_S4096x512_0_1 : (⟨S1x512, .f32⟩ : BufTy).Contents (Elt F) → (⟨S4096x512, .f32⟩ : BufTy).Contents (Elt F)) -- %172
  :: StableHlo.binary main_v107 main_v172 main_v173 (mulf : (⟨S4096x512, .f32⟩ : BufTy).Contents (Elt F) → (⟨S4096x512, .f32⟩ : BufTy).Contents (Elt F) → (⟨S4096x512, .f32⟩ : BufTy).Contents (Elt F)) -- %173
  :: StableHlo.nullary main_c_36 (constantI S_ 32 0#32) -- %c_36
  :: StableHlo.unary main_c_36 main_v174 (broadcastInDim S8192 ![] bcast_S_S8192 : (⟨S_, .i32⟩ : BufTy).Contents (Elt F) → (⟨S8192, .i32⟩ : BufTy).Contents (Elt F)) -- %174
  :: StableHlo.binary main_v5 main_v174 main_v175 (cmpi .slt : (⟨S8192, .i32⟩ : BufTy).Contents (Elt F) → (⟨S8192, .i32⟩ : BufTy).Contents (Elt F) → (⟨S8192, .i1⟩ : BufTy).Contents (Elt F)) -- %175
  :: StableHlo.nullary main_c_37 (constantI S_ 32 4096#32) -- %c_37
  :: StableHlo.unary main_c_37 main_v176 (broadcastInDim S8192 ![] bcast_S_S8192 : (⟨S_, .i32⟩ : BufTy).Contents (Elt F) → (⟨S8192, .i32⟩ : BufTy).Contents (Elt F)) -- %176
  :: StableHlo.binary main_v5 main_v176 main_v177 (addi : (⟨S8192, .i32⟩ : BufTy).Contents (Elt F) → (⟨S8192, .i32⟩ : BufTy).Contents (Elt F) → (⟨S8192, .i32⟩ : BufTy).Contents (Elt F)) -- %177
  :: StableHlo.ternary main_v175 main_v177 main_v5 main_v178 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) -- %178
  :: StableHlo.unary main_v178 main_v179 (broadcastInDim S8192x1 ![0] bcast_S8192_S8192x1_0 : (⟨S8192, .i32⟩ : BufTy).Contents (Elt F) → (⟨S8192x1, .i32⟩ : BufTy).Contents (Elt F)) -- %179
  :: StableHlo.binary main_v173 main_v179 main_v180 ((fun x i => Host.gather gather_S4096x512_S8192x1_S8192x512_1_0_n_n_0_1_1512 x i) : (⟨S4096x512, .f32⟩ : BufTy).Contents (Elt F) → (⟨S8192x1, .i32⟩ : BufTy).Contents (Elt F) → (⟨S8192x512, .f32⟩ : BufTy).Contents (Elt F)) -- %180
  :: StableHlo.unary main_arg4 main_v181 ((extractStridedSlice S1x1x512x1 ![2, 0, 0, 0] · slices_S4x2x512x1_S1x1x512x1_2_0_0_0) : (⟨S4x2x512x1, .f32⟩ : BufTy).Contents (Elt F) → (⟨S1x1x512x1, .f32⟩ : BufTy).Contents (Elt F)) -- %181
  :: StableHlo.reshape main_v181 main_v182 rfl shapeCasts_S1x1x512x1_S512x1 -- %182
  :: StableHlo.binary main_v180 main_v182 main_v183 ((fun l r => Host.dotGeneral dot_S8192x512_S512x1_S8192x1_1_0_0_1_n_n none l r) : (⟨S8192x512, .f32⟩ : BufTy).Contents (Elt F) → (⟨S512x1, .f32⟩ : BufTy).Contents (Elt F) → (⟨S8192x1, .f32⟩ : BufTy).Contents (Elt F)) -- %183
  :: StableHlo.nullary main_c_38 (constantI S_ 32 0#32) -- %c_38
  :: StableHlo.unary main_c_38 main_v184 (broadcastInDim S8192 ![] bcast_S_S8192 : (⟨S_, .i32⟩ : BufTy).Contents (Elt F) → (⟨S8192, .i32⟩ : BufTy).Contents (Elt F)) -- %184
  :: StableHlo.binary main_v3 main_v184 main_v185 (cmpi .slt : (⟨S8192, .i32⟩ : BufTy).Contents (Elt F) → (⟨S8192, .i32⟩ : BufTy).Contents (Elt F) → (⟨S8192, .i1⟩ : BufTy).Contents (Elt F)) -- %185
  :: StableHlo.nullary main_c_39 (constantI S_ 32 8192#32) -- %c_39
  :: StableHlo.unary main_c_39 main_v186 (broadcastInDim S8192 ![] bcast_S_S8192 : (⟨S_, .i32⟩ : BufTy).Contents (Elt F) → (⟨S8192, .i32⟩ : BufTy).Contents (Elt F)) -- %186
  :: StableHlo.binary main_v3 main_v186 main_v187 (addi : (⟨S8192, .i32⟩ : BufTy).Contents (Elt F) → (⟨S8192, .i32⟩ : BufTy).Contents (Elt F) → (⟨S8192, .i32⟩ : BufTy).Contents (Elt F)) -- %187
  :: StableHlo.ternary main_v185 main_v187 main_v3 main_v188 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) -- %188
  :: StableHlo.unary main_v188 main_v189 (broadcastInDim S8192x1 ![0] bcast_S8192_S8192x1_0 : (⟨S8192, .i32⟩ : BufTy).Contents (Elt F) → (⟨S8192x1, .i32⟩ : BufTy).Contents (Elt F)) -- %189
  :: StableHlo.binary main_v41 main_v189 main_v190 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)) -- %190
  :: StableHlo.unary main_arg4 main_v191 ((extractStridedSlice S1x1x512x1 ![2, 1, 0, 0] · slices_S4x2x512x1_S1x1x512x1_2_1_0_0) : (⟨S4x2x512x1, .f32⟩ : BufTy).Contents (Elt F) → (⟨S1x1x512x1, .f32⟩ : BufTy).Contents (Elt F)) -- %191
  :: StableHlo.reshape main_v191 main_v192 rfl shapeCasts_S1x1x512x1_S512x1 -- %192
  :: StableHlo.binary main_v190 main_v192 main_v193 ((fun l r => Host.dotGeneral dot_S8192x512_S512x1_S8192x1_1_0_0_1_n_n none l r) : (⟨S8192x512, .f32⟩ : BufTy).Contents (Elt F) → (⟨S512x1, .f32⟩ : BufTy).Contents (Elt F) → (⟨S8192x1, .f32⟩ : BufTy).Contents (Elt F)) -- %193
  :: StableHlo.binary main_v183 main_v193 main_v194 (addf : (⟨S8192x1, .f32⟩ : BufTy).Contents (Elt F) → (⟨S8192x1, .f32⟩ : BufTy).Contents (Elt F) → (⟨S8192x1, .f32⟩ : BufTy).Contents (Elt F)) -- %194
  :: StableHlo.reshape main_v194 main_v195 rfl shapeCasts_S8192x1_S8192 -- %195
  :: StableHlo.nullary main_cst_40 (constant S_ .f32 0x3E4CCCCD#32) -- %cst_40
  :: StableHlo.TRef.nullary (.of main_call2_cst : StableHlo.TRef sig ⟨S_, .f32⟩) (constant S_ .f32 0x00000000#32) -- in the call printing %196: %cst
  :: StableHlo.TRef.unary (.of main_call2_cst : StableHlo.TRef sig ⟨S_, .f32⟩) (.of main_call2_v0 : StableHlo.TRef sig ⟨S8192, .f32⟩) (broadcastInDim S8192 ![] bcast_S_S8192) -- in the call printing %196: %0
  :: StableHlo.TRef.binary (.of main_v195 : StableHlo.TRef sig ⟨S8192, .f32⟩) (.of main_call2_v0 : StableHlo.TRef sig ⟨S8192, .f32⟩) (.of main_call2_v1 : StableHlo.TRef sig ⟨S8192, .i1⟩) (cmpf .oge) -- in the call printing %196: %1
  :: StableHlo.TRef.unary (.of main_cst_40 : StableHlo.TRef sig ⟨S_, .f32⟩) (.of main_call2_v2 : StableHlo.TRef sig ⟨S_, .f32⟩) id -- in the call printing %196: %2
  :: StableHlo.TRef.unary (.of main_call2_v2 : StableHlo.TRef sig ⟨S_, .f32⟩) (.of main_call2_v3 : StableHlo.TRef sig ⟨S8192, .f32⟩) (broadcastInDim S8192 ![] bcast_S_S8192) -- in the call printing %196: %3
  :: StableHlo.TRef.binary (.of main_call2_v3 : StableHlo.TRef sig ⟨S8192, .f32⟩) (.of main_v195 : StableHlo.TRef sig ⟨S8192, .f32⟩) (.of main_call2_v4 : StableHlo.TRef sig ⟨S8192, .f32⟩) mulf -- in the call printing %196: %4
  :: StableHlo.TRef.ternary (.of main_call2_v1 : StableHlo.TRef sig ⟨S8192, .i1⟩) (.of main_v195 : StableHlo.TRef sig ⟨S8192, .f32⟩) (.of main_call2_v4 : StableHlo.TRef sig ⟨S8192, .f32⟩) (.of main_v196 : StableHlo.TRef sig ⟨S8192, .f32⟩) select -- in the call printing %196, nested call printing %5: %0
  :: [] )

set_option maxHeartbeats 40000000 in
/-- @main, window 4: 60 operations, in order. -/
abbrev ops4 : List (HloOp τ sig (Elt F)) :=
  ( StableHlo.unary main_v196 main_v197 (Host.negf : (⟨S8192, .f32⟩ : BufTy).Contents (Elt F) → (⟨S8192, .f32⟩ : BufTy).Contents (Elt F)) -- %197
  :: StableHlo.unary main_v197 main_v198 (Host.exp : (⟨S8192, .f32⟩ : BufTy).Contents (Elt F) → (⟨S8192, .f32⟩ : BufTy).Contents (Elt F)) -- %198
  :: StableHlo.nullary main_cst_41 (constant S_ .f32 0x00000000#32) -- %cst_41
  :: StableHlo.unary main_cst_41 main_v199 (broadcastInDim S4096 ![] bcast_S_S4096 : (⟨S_, .f32⟩ : BufTy).Contents (Elt F) → (⟨S4096, .f32⟩ : BufTy).Contents (Elt F)) -- %199
  :: StableHlo.nullary main_c_42 (constantI S_ 32 0#32) -- %c_42
  :: StableHlo.unary main_c_42 main_v200 (broadcastInDim S8192 ![] bcast_S_S8192 : (⟨S_, .i32⟩ : BufTy).Contents (Elt F) → (⟨S8192, .i32⟩ : BufTy).Contents (Elt F)) -- %200
  :: StableHlo.binary main_v1 main_v200 main_v201 (cmpi .slt : (⟨S8192, .i32⟩ : BufTy).Contents (Elt F) → (⟨S8192, .i32⟩ : BufTy).Contents (Elt F) → (⟨S8192, .i1⟩ : BufTy).Contents (Elt F)) -- %201
  :: StableHlo.nullary main_c_43 (constantI S_ 32 4096#32) -- %c_43
  :: StableHlo.unary main_c_43 main_v202 (broadcastInDim S8192 ![] bcast_S_S8192 : (⟨S_, .i32⟩ : BufTy).Contents (Elt F) → (⟨S8192, .i32⟩ : BufTy).Contents (Elt F)) -- %202
  :: StableHlo.binary main_v1 main_v202 main_v203 (addi : (⟨S8192, .i32⟩ : BufTy).Contents (Elt F) → (⟨S8192, .i32⟩ : BufTy).Contents (Elt F) → (⟨S8192, .i32⟩ : BufTy).Contents (Elt F)) -- %203
  :: StableHlo.ternary main_v201 main_v203 main_v1 main_v204 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) -- %204
  :: StableHlo.unary main_v204 main_v205 (broadcastInDim S8192x1 ![0] bcast_S8192_S8192x1_0 : (⟨S8192, .i32⟩ : BufTy).Contents (Elt F) → (⟨S8192x1, .i32⟩ : BufTy).Contents (Elt F)) -- %205
  :: StableHlo.ternary main_v199 main_v205 main_v198 main_v206 ((fun x i u => Host.scatterAdd scatter_S4096_S8192x1_S8192_n_0_0_1 x i u) : (⟨S4096, .f32⟩ : BufTy).Contents (Elt F) → (⟨S8192x1, .i32⟩ : BufTy).Contents (Elt F) → (⟨S8192, .f32⟩ : BufTy).Contents (Elt F) → (⟨S4096, .f32⟩ : BufTy).Contents (Elt F)) -- %206
  :: StableHlo.nullary main_c_44 (constantI S_ 32 0#32) -- %c_44
  :: StableHlo.unary main_c_44 main_v207 (broadcastInDim S8192 ![] bcast_S_S8192 : (⟨S_, .i32⟩ : BufTy).Contents (Elt F) → (⟨S8192, .i32⟩ : BufTy).Contents (Elt F)) -- %207
  :: StableHlo.binary main_v5 main_v207 main_v208 (cmpi .slt : (⟨S8192, .i32⟩ : BufTy).Contents (Elt F) → (⟨S8192, .i32⟩ : BufTy).Contents (Elt F) → (⟨S8192, .i1⟩ : BufTy).Contents (Elt F)) -- %208
  :: StableHlo.nullary main_c_45 (constantI S_ 32 4096#32) -- %c_45
  :: StableHlo.unary main_c_45 main_v209 (broadcastInDim S8192 ![] bcast_S_S8192 : (⟨S_, .i32⟩ : BufTy).Contents (Elt F) → (⟨S8192, .i32⟩ : BufTy).Contents (Elt F)) -- %209
  :: StableHlo.binary main_v5 main_v209 main_v210 (addi : (⟨S8192, .i32⟩ : BufTy).Contents (Elt F) → (⟨S8192, .i32⟩ : BufTy).Contents (Elt F) → (⟨S8192, .i32⟩ : BufTy).Contents (Elt F)) -- %210
  :: StableHlo.ternary main_v208 main_v210 main_v5 main_v211 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) -- %211
  :: StableHlo.unary main_v211 main_v212 (broadcastInDim S8192x1 ![0] bcast_S8192_S8192x1_0 : (⟨S8192, .i32⟩ : BufTy).Contents (Elt F) → (⟨S8192x1, .i32⟩ : BufTy).Contents (Elt F)) -- %212
  :: StableHlo.binary main_v173 main_v212 main_v213 ((fun x i => Host.gather gather_S4096x512_S8192x1_S8192x512_1_0_n_n_0_1_1512 x i) : (⟨S4096x512, .f32⟩ : BufTy).Contents (Elt F) → (⟨S8192x1, .i32⟩ : BufTy).Contents (Elt F) → (⟨S8192x512, .f32⟩ : BufTy).Contents (Elt F)) -- %213
  :: StableHlo.nullary main_c_46 (constantI S_ 32 0#32) -- %c_46
  :: StableHlo.unary main_c_46 main_v214 (broadcastInDim S8192 ![] bcast_S_S8192 : (⟨S_, .i32⟩ : BufTy).Contents (Elt F) → (⟨S8192, .i32⟩ : BufTy).Contents (Elt F)) -- %214
  :: StableHlo.binary main_v3 main_v214 main_v215 (cmpi .slt : (⟨S8192, .i32⟩ : BufTy).Contents (Elt F) → (⟨S8192, .i32⟩ : BufTy).Contents (Elt F) → (⟨S8192, .i1⟩ : BufTy).Contents (Elt F)) -- %215
  :: StableHlo.nullary main_c_47 (constantI S_ 32 8192#32) -- %c_47
  :: StableHlo.unary main_c_47 main_v216 (broadcastInDim S8192 ![] bcast_S_S8192 : (⟨S_, .i32⟩ : BufTy).Contents (Elt F) → (⟨S8192, .i32⟩ : BufTy).Contents (Elt F)) -- %216
  :: StableHlo.binary main_v3 main_v216 main_v217 (addi : (⟨S8192, .i32⟩ : BufTy).Contents (Elt F) → (⟨S8192, .i32⟩ : BufTy).Contents (Elt F) → (⟨S8192, .i32⟩ : BufTy).Contents (Elt F)) -- %217
  :: StableHlo.ternary main_v215 main_v217 main_v3 main_v218 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) -- %218
  :: StableHlo.unary main_v218 main_v219 (broadcastInDim S8192x1 ![0] bcast_S8192_S8192x1_0 : (⟨S8192, .i32⟩ : BufTy).Contents (Elt F) → (⟨S8192x1, .i32⟩ : BufTy).Contents (Elt F)) -- %219
  :: StableHlo.binary main_v41 main_v219 main_v220 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)) -- %220
  :: StableHlo.binary main_v213 main_v220 main_v221 (subf : (⟨S8192x512, .f32⟩ : BufTy).Contents (Elt F) → (⟨S8192x512, .f32⟩ : BufTy).Contents (Elt F) → (⟨S8192x512, .f32⟩ : BufTy).Contents (Elt F)) -- %221
  :: StableHlo.unary main_v198 main_v222 (broadcastInDim S8192x1 ![0] bcast_S8192_S8192x1_0 : (⟨S8192, .f32⟩ : BufTy).Contents (Elt F) → (⟨S8192x1, .f32⟩ : BufTy).Contents (Elt F)) -- %222
  :: StableHlo.unary main_v222 main_v223 (broadcastInDim S8192x512 ![0, 1] bcast_S8192x1_S8192x512_0_1 : (⟨S8192x1, .f32⟩ : BufTy).Contents (Elt F) → (⟨S8192x512, .f32⟩ : BufTy).Contents (Elt F)) -- %223
  :: StableHlo.binary main_v221 main_v223 main_v224 (mulf : (⟨S8192x512, .f32⟩ : BufTy).Contents (Elt F) → (⟨S8192x512, .f32⟩ : BufTy).Contents (Elt F) → (⟨S8192x512, .f32⟩ : BufTy).Contents (Elt F)) -- %224
  :: StableHlo.nullary main_cst_48 (constant S_ .f32 0x00000000#32) -- %cst_48
  :: StableHlo.unary main_cst_48 main_v225 (broadcastInDim S4096x512 ![] bcast_S_S4096x512 : (⟨S_, .f32⟩ : BufTy).Contents (Elt F) → (⟨S4096x512, .f32⟩ : BufTy).Contents (Elt F)) -- %225
  :: StableHlo.nullary main_c_49 (constantI S_ 32 0#32) -- %c_49
  :: StableHlo.unary main_c_49 main_v226 (broadcastInDim S8192 ![] bcast_S_S8192 : (⟨S_, .i32⟩ : BufTy).Contents (Elt F) → (⟨S8192, .i32⟩ : BufTy).Contents (Elt F)) -- %226
  :: StableHlo.binary main_v1 main_v226 main_v227 (cmpi .slt : (⟨S8192, .i32⟩ : BufTy).Contents (Elt F) → (⟨S8192, .i32⟩ : BufTy).Contents (Elt F) → (⟨S8192, .i1⟩ : BufTy).Contents (Elt F)) -- %227
  :: StableHlo.nullary main_c_50 (constantI S_ 32 4096#32) -- %c_50
  :: StableHlo.unary main_c_50 main_v228 (broadcastInDim S8192 ![] bcast_S_S8192 : (⟨S_, .i32⟩ : BufTy).Contents (Elt F) → (⟨S8192, .i32⟩ : BufTy).Contents (Elt F)) -- %228
  :: StableHlo.binary main_v1 main_v228 main_v229 (addi : (⟨S8192, .i32⟩ : BufTy).Contents (Elt F) → (⟨S8192, .i32⟩ : BufTy).Contents (Elt F) → (⟨S8192, .i32⟩ : BufTy).Contents (Elt F)) -- %229
  :: StableHlo.ternary main_v227 main_v229 main_v1 main_v230 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) -- %230
  :: StableHlo.unary main_v230 main_v231 (broadcastInDim S8192x1 ![0] bcast_S8192_S8192x1_0 : (⟨S8192, .i32⟩ : BufTy).Contents (Elt F) → (⟨S8192x1, .i32⟩ : BufTy).Contents (Elt F)) -- %231
  :: StableHlo.ternary main_v225 main_v231 main_v224 main_v232 ((fun x i u => Host.scatterAdd scatter_S4096x512_S8192x1_S8192x512_1_0_0_1 x i u) : (⟨S4096x512, .f32⟩ : BufTy).Contents (Elt F) → (⟨S8192x1, .i32⟩ : BufTy).Contents (Elt F) → (⟨S8192x512, .f32⟩ : BufTy).Contents (Elt F) → (⟨S4096x512, .f32⟩ : BufTy).Contents (Elt F)) -- %232
  :: StableHlo.unary main_v206 main_v233 (broadcastInDim S4096x1 ![0] bcast_S4096_S4096x1_0 : (⟨S4096, .f32⟩ : BufTy).Contents (Elt F) → (⟨S4096x1, .f32⟩ : BufTy).Contents (Elt F)) -- %233
  :: StableHlo.unary main_v233 main_v234 (broadcastInDim S4096x512 ![0, 1] bcast_S4096x1_S4096x512_0_1 : (⟨S4096x1, .f32⟩ : BufTy).Contents (Elt F) → (⟨S4096x512, .f32⟩ : BufTy).Contents (Elt F)) -- %234
  :: StableHlo.binary main_v232 main_v234 main_v235 (Host.divf : (⟨S4096x512, .f32⟩ : BufTy).Contents (Elt F) → (⟨S4096x512, .f32⟩ : BufTy).Contents (Elt F) → (⟨S4096x512, .f32⟩ : BufTy).Contents (Elt F)) -- %235
  :: StableHlo.unary main_arg3 main_v236 ((extractStridedSlice S1x1x512 ![2, 0, 0] · slices_S3x1x512_S1x1x512_2_0_0) : (⟨S3x1x512, .f32⟩ : BufTy).Contents (Elt F) → (⟨S1x1x512, .f32⟩ : BufTy).Contents (Elt F)) -- %236
  :: StableHlo.reshape main_v236 main_v237 rfl shapeCasts_S1x1x512_S1x512 -- %237
  :: StableHlo.unary main_v237 main_v238 (broadcastInDim S4096x512 ![0, 1] bcast_S1x512_S4096x512_0_1 : (⟨S1x512, .f32⟩ : BufTy).Contents (Elt F) → (⟨S4096x512, .f32⟩ : BufTy).Contents (Elt F)) -- %238
  :: StableHlo.binary main_v173 main_v238 main_v239 (mulf : (⟨S4096x512, .f32⟩ : BufTy).Contents (Elt F) → (⟨S4096x512, .f32⟩ : BufTy).Contents (Elt F) → (⟨S4096x512, .f32⟩ : BufTy).Contents (Elt F)) -- %239
  :: StableHlo.nullary main_c_51 (constantI S_ 32 0#32) -- %c_51
  :: StableHlo.unary main_c_51 main_v240 (broadcastInDim S8192 ![] bcast_S_S8192 : (⟨S_, .i32⟩ : BufTy).Contents (Elt F) → (⟨S8192, .i32⟩ : BufTy).Contents (Elt F)) -- %240
  :: StableHlo.binary main_v5 main_v240 main_v241 (cmpi .slt : (⟨S8192, .i32⟩ : BufTy).Contents (Elt F) → (⟨S8192, .i32⟩ : BufTy).Contents (Elt F) → (⟨S8192, .i1⟩ : BufTy).Contents (Elt F)) -- %241
  :: StableHlo.nullary main_c_52 (constantI S_ 32 4096#32) -- %c_52
  :: StableHlo.unary main_c_52 main_v242 (broadcastInDim S8192 ![] bcast_S_S8192 : (⟨S_, .i32⟩ : BufTy).Contents (Elt F) → (⟨S8192, .i32⟩ : BufTy).Contents (Elt F)) -- %242
  :: StableHlo.binary main_v5 main_v242 main_v243 (addi : (⟨S8192, .i32⟩ : BufTy).Contents (Elt F) → (⟨S8192, .i32⟩ : BufTy).Contents (Elt F) → (⟨S8192, .i32⟩ : BufTy).Contents (Elt F)) -- %243
  :: StableHlo.ternary main_v241 main_v243 main_v5 main_v244 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) -- %244
  :: [] )

set_option maxHeartbeats 40000000 in
/-- @main, window 5: 66 operations, in order. -/
abbrev ops5 : List (HloOp τ sig (Elt F)) :=
  ( StableHlo.unary main_v244 main_v245 (broadcastInDim S8192x1 ![0] bcast_S8192_S8192x1_0 : (⟨S8192, .i32⟩ : BufTy).Contents (Elt F) → (⟨S8192x1, .i32⟩ : BufTy).Contents (Elt F)) -- %245
  :: StableHlo.binary main_v239 main_v245 main_v246 ((fun x i => Host.gather gather_S4096x512_S8192x1_S8192x512_1_0_n_n_0_1_1512 x i) : (⟨S4096x512, .f32⟩ : BufTy).Contents (Elt F) → (⟨S8192x1, .i32⟩ : BufTy).Contents (Elt F) → (⟨S8192x512, .f32⟩ : BufTy).Contents (Elt F)) -- %246
  :: StableHlo.unary main_arg4 main_v247 ((extractStridedSlice S1x1x512x1 ![3, 0, 0, 0] · slices_S4x2x512x1_S1x1x512x1_3_0_0_0) : (⟨S4x2x512x1, .f32⟩ : BufTy).Contents (Elt F) → (⟨S1x1x512x1, .f32⟩ : BufTy).Contents (Elt F)) -- %247
  :: StableHlo.reshape main_v247 main_v248 rfl shapeCasts_S1x1x512x1_S512x1 -- %248
  :: StableHlo.binary main_v246 main_v248 main_v249 ((fun l r => Host.dotGeneral dot_S8192x512_S512x1_S8192x1_1_0_0_1_n_n none l r) : (⟨S8192x512, .f32⟩ : BufTy).Contents (Elt F) → (⟨S512x1, .f32⟩ : BufTy).Contents (Elt F) → (⟨S8192x1, .f32⟩ : BufTy).Contents (Elt F)) -- %249
  :: StableHlo.nullary main_c_53 (constantI S_ 32 0#32) -- %c_53
  :: StableHlo.unary main_c_53 main_v250 (broadcastInDim S8192 ![] bcast_S_S8192 : (⟨S_, .i32⟩ : BufTy).Contents (Elt F) → (⟨S8192, .i32⟩ : BufTy).Contents (Elt F)) -- %250
  :: StableHlo.binary main_v3 main_v250 main_v251 (cmpi .slt : (⟨S8192, .i32⟩ : BufTy).Contents (Elt F) → (⟨S8192, .i32⟩ : BufTy).Contents (Elt F) → (⟨S8192, .i1⟩ : BufTy).Contents (Elt F)) -- %251
  :: StableHlo.nullary main_c_54 (constantI S_ 32 8192#32) -- %c_54
  :: StableHlo.unary main_c_54 main_v252 (broadcastInDim S8192 ![] bcast_S_S8192 : (⟨S_, .i32⟩ : BufTy).Contents (Elt F) → (⟨S8192, .i32⟩ : BufTy).Contents (Elt F)) -- %252
  :: StableHlo.binary main_v3 main_v252 main_v253 (addi : (⟨S8192, .i32⟩ : BufTy).Contents (Elt F) → (⟨S8192, .i32⟩ : BufTy).Contents (Elt F) → (⟨S8192, .i32⟩ : BufTy).Contents (Elt F)) -- %253
  :: StableHlo.ternary main_v251 main_v253 main_v3 main_v254 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) -- %254
  :: StableHlo.unary main_v254 main_v255 (broadcastInDim S8192x1 ![0] bcast_S8192_S8192x1_0 : (⟨S8192, .i32⟩ : BufTy).Contents (Elt F) → (⟨S8192x1, .i32⟩ : BufTy).Contents (Elt F)) -- %255
  :: StableHlo.binary main_v41 main_v255 main_v256 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)) -- %256
  :: StableHlo.unary main_arg4 main_v257 ((extractStridedSlice S1x1x512x1 ![3, 1, 0, 0] · slices_S4x2x512x1_S1x1x512x1_3_1_0_0) : (⟨S4x2x512x1, .f32⟩ : BufTy).Contents (Elt F) → (⟨S1x1x512x1, .f32⟩ : BufTy).Contents (Elt F)) -- %257
  :: StableHlo.reshape main_v257 main_v258 rfl shapeCasts_S1x1x512x1_S512x1 -- %258
  :: StableHlo.binary main_v256 main_v258 main_v259 ((fun l r => Host.dotGeneral dot_S8192x512_S512x1_S8192x1_1_0_0_1_n_n none l r) : (⟨S8192x512, .f32⟩ : BufTy).Contents (Elt F) → (⟨S512x1, .f32⟩ : BufTy).Contents (Elt F) → (⟨S8192x1, .f32⟩ : BufTy).Contents (Elt F)) -- %259
  :: StableHlo.binary main_v249 main_v259 main_v260 (addf : (⟨S8192x1, .f32⟩ : BufTy).Contents (Elt F) → (⟨S8192x1, .f32⟩ : BufTy).Contents (Elt F) → (⟨S8192x1, .f32⟩ : BufTy).Contents (Elt F)) -- %260
  :: StableHlo.reshape main_v260 main_v261 rfl shapeCasts_S8192x1_S8192 -- %261
  :: StableHlo.nullary main_cst_55 (constant S_ .f32 0x3E4CCCCD#32) -- %cst_55
  :: StableHlo.TRef.nullary (.of main_call3_cst : StableHlo.TRef sig ⟨S_, .f32⟩) (constant S_ .f32 0x00000000#32) -- in the call printing %262: %cst
  :: StableHlo.TRef.unary (.of main_call3_cst : StableHlo.TRef sig ⟨S_, .f32⟩) (.of main_call3_v0 : StableHlo.TRef sig ⟨S8192, .f32⟩) (broadcastInDim S8192 ![] bcast_S_S8192) -- in the call printing %262: %0
  :: StableHlo.TRef.binary (.of main_v261 : StableHlo.TRef sig ⟨S8192, .f32⟩) (.of main_call3_v0 : StableHlo.TRef sig ⟨S8192, .f32⟩) (.of main_call3_v1 : StableHlo.TRef sig ⟨S8192, .i1⟩) (cmpf .oge) -- in the call printing %262: %1
  :: StableHlo.TRef.unary (.of main_cst_55 : StableHlo.TRef sig ⟨S_, .f32⟩) (.of main_call3_v2 : StableHlo.TRef sig ⟨S_, .f32⟩) id -- in the call printing %262: %2
  :: StableHlo.TRef.unary (.of main_call3_v2 : StableHlo.TRef sig ⟨S_, .f32⟩) (.of main_call3_v3 : StableHlo.TRef sig ⟨S8192, .f32⟩) (broadcastInDim S8192 ![] bcast_S_S8192) -- in the call printing %262: %3
  :: StableHlo.TRef.binary (.of main_call3_v3 : StableHlo.TRef sig ⟨S8192, .f32⟩) (.of main_v261 : StableHlo.TRef sig ⟨S8192, .f32⟩) (.of main_call3_v4 : StableHlo.TRef sig ⟨S8192, .f32⟩) mulf -- in the call printing %262: %4
  :: StableHlo.TRef.ternary (.of main_call3_v1 : StableHlo.TRef sig ⟨S8192, .i1⟩) (.of main_v261 : StableHlo.TRef sig ⟨S8192, .f32⟩) (.of main_call3_v4 : StableHlo.TRef sig ⟨S8192, .f32⟩) (.of main_v262 : StableHlo.TRef sig ⟨S8192, .f32⟩) select -- in the call printing %262, nested call printing %5: %0
  :: StableHlo.unary main_v262 main_v263 (Host.negf : (⟨S8192, .f32⟩ : BufTy).Contents (Elt F) → (⟨S8192, .f32⟩ : BufTy).Contents (Elt F)) -- %263
  :: StableHlo.unary main_v263 main_v264 (Host.exp : (⟨S8192, .f32⟩ : BufTy).Contents (Elt F) → (⟨S8192, .f32⟩ : BufTy).Contents (Elt F)) -- %264
  :: StableHlo.nullary main_cst_56 (constant S_ .f32 0x00000000#32) -- %cst_56
  :: StableHlo.unary main_cst_56 main_v265 (broadcastInDim S4096 ![] bcast_S_S4096 : (⟨S_, .f32⟩ : BufTy).Contents (Elt F) → (⟨S4096, .f32⟩ : BufTy).Contents (Elt F)) -- %265
  :: StableHlo.nullary main_c_57 (constantI S_ 32 0#32) -- %c_57
  :: StableHlo.unary main_c_57 main_v266 (broadcastInDim S8192 ![] bcast_S_S8192 : (⟨S_, .i32⟩ : BufTy).Contents (Elt F) → (⟨S8192, .i32⟩ : BufTy).Contents (Elt F)) -- %266
  :: StableHlo.binary main_v1 main_v266 main_v267 (cmpi .slt : (⟨S8192, .i32⟩ : BufTy).Contents (Elt F) → (⟨S8192, .i32⟩ : BufTy).Contents (Elt F) → (⟨S8192, .i1⟩ : BufTy).Contents (Elt F)) -- %267
  :: StableHlo.nullary main_c_58 (constantI S_ 32 4096#32) -- %c_58
  :: StableHlo.unary main_c_58 main_v268 (broadcastInDim S8192 ![] bcast_S_S8192 : (⟨S_, .i32⟩ : BufTy).Contents (Elt F) → (⟨S8192, .i32⟩ : BufTy).Contents (Elt F)) -- %268
  :: StableHlo.binary main_v1 main_v268 main_v269 (addi : (⟨S8192, .i32⟩ : BufTy).Contents (Elt F) → (⟨S8192, .i32⟩ : BufTy).Contents (Elt F) → (⟨S8192, .i32⟩ : BufTy).Contents (Elt F)) -- %269
  :: StableHlo.ternary main_v267 main_v269 main_v1 main_v270 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) -- %270
  :: StableHlo.unary main_v270 main_v271 (broadcastInDim S8192x1 ![0] bcast_S8192_S8192x1_0 : (⟨S8192, .i32⟩ : BufTy).Contents (Elt F) → (⟨S8192x1, .i32⟩ : BufTy).Contents (Elt F)) -- %271
  :: StableHlo.ternary main_v265 main_v271 main_v264 main_v272 ((fun x i u => Host.scatterAdd scatter_S4096_S8192x1_S8192_n_0_0_1 x i u) : (⟨S4096, .f32⟩ : BufTy).Contents (Elt F) → (⟨S8192x1, .i32⟩ : BufTy).Contents (Elt F) → (⟨S8192, .f32⟩ : BufTy).Contents (Elt F) → (⟨S4096, .f32⟩ : BufTy).Contents (Elt F)) -- %272
  :: StableHlo.nullary main_c_59 (constantI S_ 32 0#32) -- %c_59
  :: StableHlo.unary main_c_59 main_v273 (broadcastInDim S8192 ![] bcast_S_S8192 : (⟨S_, .i32⟩ : BufTy).Contents (Elt F) → (⟨S8192, .i32⟩ : BufTy).Contents (Elt F)) -- %273
  :: StableHlo.binary main_v5 main_v273 main_v274 (cmpi .slt : (⟨S8192, .i32⟩ : BufTy).Contents (Elt F) → (⟨S8192, .i32⟩ : BufTy).Contents (Elt F) → (⟨S8192, .i1⟩ : BufTy).Contents (Elt F)) -- %274
  :: StableHlo.nullary main_c_60 (constantI S_ 32 4096#32) -- %c_60
  :: StableHlo.unary main_c_60 main_v275 (broadcastInDim S8192 ![] bcast_S_S8192 : (⟨S_, .i32⟩ : BufTy).Contents (Elt F) → (⟨S8192, .i32⟩ : BufTy).Contents (Elt F)) -- %275
  :: StableHlo.binary main_v5 main_v275 main_v276 (addi : (⟨S8192, .i32⟩ : BufTy).Contents (Elt F) → (⟨S8192, .i32⟩ : BufTy).Contents (Elt F) → (⟨S8192, .i32⟩ : BufTy).Contents (Elt F)) -- %276
  :: StableHlo.ternary main_v274 main_v276 main_v5 main_v277 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) -- %277
  :: StableHlo.unary main_v277 main_v278 (broadcastInDim S8192x1 ![0] bcast_S8192_S8192x1_0 : (⟨S8192, .i32⟩ : BufTy).Contents (Elt F) → (⟨S8192x1, .i32⟩ : BufTy).Contents (Elt F)) -- %278
  :: StableHlo.binary main_v239 main_v278 main_v279 ((fun x i => Host.gather gather_S4096x512_S8192x1_S8192x512_1_0_n_n_0_1_1512 x i) : (⟨S4096x512, .f32⟩ : BufTy).Contents (Elt F) → (⟨S8192x1, .i32⟩ : BufTy).Contents (Elt F) → (⟨S8192x512, .f32⟩ : BufTy).Contents (Elt F)) -- %279
  :: StableHlo.nullary main_c_61 (constantI S_ 32 0#32) -- %c_61
  :: StableHlo.unary main_c_61 main_v280 (broadcastInDim S8192 ![] bcast_S_S8192 : (⟨S_, .i32⟩ : BufTy).Contents (Elt F) → (⟨S8192, .i32⟩ : BufTy).Contents (Elt F)) -- %280
  :: StableHlo.binary main_v3 main_v280 main_v281 (cmpi .slt : (⟨S8192, .i32⟩ : BufTy).Contents (Elt F) → (⟨S8192, .i32⟩ : BufTy).Contents (Elt F) → (⟨S8192, .i1⟩ : BufTy).Contents (Elt F)) -- %281
  :: StableHlo.nullary main_c_62 (constantI S_ 32 8192#32) -- %c_62
  :: StableHlo.unary main_c_62 main_v282 (broadcastInDim S8192 ![] bcast_S_S8192 : (⟨S_, .i32⟩ : BufTy).Contents (Elt F) → (⟨S8192, .i32⟩ : BufTy).Contents (Elt F)) -- %282
  :: StableHlo.binary main_v3 main_v282 main_v283 (addi : (⟨S8192, .i32⟩ : BufTy).Contents (Elt F) → (⟨S8192, .i32⟩ : BufTy).Contents (Elt F) → (⟨S8192, .i32⟩ : BufTy).Contents (Elt F)) -- %283
  :: StableHlo.ternary main_v281 main_v283 main_v3 main_v284 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) -- %284
  :: StableHlo.unary main_v284 main_v285 (broadcastInDim S8192x1 ![0] bcast_S8192_S8192x1_0 : (⟨S8192, .i32⟩ : BufTy).Contents (Elt F) → (⟨S8192x1, .i32⟩ : BufTy).Contents (Elt F)) -- %285
  :: StableHlo.binary main_v41 main_v285 main_v286 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)) -- %286
  :: StableHlo.binary main_v279 main_v286 main_v287 (subf : (⟨S8192x512, .f32⟩ : BufTy).Contents (Elt F) → (⟨S8192x512, .f32⟩ : BufTy).Contents (Elt F) → (⟨S8192x512, .f32⟩ : BufTy).Contents (Elt F)) -- %287
  :: StableHlo.unary main_v264 main_v288 (broadcastInDim S8192x1 ![0] bcast_S8192_S8192x1_0 : (⟨S8192, .f32⟩ : BufTy).Contents (Elt F) → (⟨S8192x1, .f32⟩ : BufTy).Contents (Elt F)) -- %288
  :: StableHlo.unary main_v288 main_v289 (broadcastInDim S8192x512 ![0, 1] bcast_S8192x1_S8192x512_0_1 : (⟨S8192x1, .f32⟩ : BufTy).Contents (Elt F) → (⟨S8192x512, .f32⟩ : BufTy).Contents (Elt F)) -- %289
  :: StableHlo.binary main_v287 main_v289 main_v290 (mulf : (⟨S8192x512, .f32⟩ : BufTy).Contents (Elt F) → (⟨S8192x512, .f32⟩ : BufTy).Contents (Elt F) → (⟨S8192x512, .f32⟩ : BufTy).Contents (Elt F)) -- %290
  :: StableHlo.nullary main_cst_63 (constant S_ .f32 0x00000000#32) -- %cst_63
  :: StableHlo.unary main_cst_63 main_v291 (broadcastInDim S4096x512 ![] bcast_S_S4096x512 : (⟨S_, .f32⟩ : BufTy).Contents (Elt F) → (⟨S4096x512, .f32⟩ : BufTy).Contents (Elt F)) -- %291
  :: StableHlo.nullary main_c_64 (constantI S_ 32 0#32) -- %c_64
  :: StableHlo.unary main_c_64 main_v292 (broadcastInDim S8192 ![] bcast_S_S8192 : (⟨S_, .i32⟩ : BufTy).Contents (Elt F) → (⟨S8192, .i32⟩ : BufTy).Contents (Elt F)) -- %292
  :: [] )

set_option maxHeartbeats 40000000 in
/-- @main, window 6: 15 operations, in order. -/
abbrev ops6 : List (HloOp τ sig (Elt F)) :=
  ( StableHlo.binary main_v1 main_v292 main_v293 (cmpi .slt : (⟨S8192, .i32⟩ : BufTy).Contents (Elt F) → (⟨S8192, .i32⟩ : BufTy).Contents (Elt F) → (⟨S8192, .i1⟩ : BufTy).Contents (Elt F)) -- %293
  :: StableHlo.nullary main_c_65 (constantI S_ 32 4096#32) -- %c_65
  :: StableHlo.unary main_c_65 main_v294 (broadcastInDim S8192 ![] bcast_S_S8192 : (⟨S_, .i32⟩ : BufTy).Contents (Elt F) → (⟨S8192, .i32⟩ : BufTy).Contents (Elt F)) -- %294
  :: StableHlo.binary main_v1 main_v294 main_v295 (addi : (⟨S8192, .i32⟩ : BufTy).Contents (Elt F) → (⟨S8192, .i32⟩ : BufTy).Contents (Elt F) → (⟨S8192, .i32⟩ : BufTy).Contents (Elt F)) -- %295
  :: StableHlo.ternary main_v293 main_v295 main_v1 main_v296 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) -- %296
  :: StableHlo.unary main_v296 main_v297 (broadcastInDim S8192x1 ![0] bcast_S8192_S8192x1_0 : (⟨S8192, .i32⟩ : BufTy).Contents (Elt F) → (⟨S8192x1, .i32⟩ : BufTy).Contents (Elt F)) -- %297
  :: StableHlo.ternary main_v291 main_v297 main_v290 main_v298 ((fun x i u => Host.scatterAdd scatter_S4096x512_S8192x1_S8192x512_1_0_0_1 x i u) : (⟨S4096x512, .f32⟩ : BufTy).Contents (Elt F) → (⟨S8192x1, .i32⟩ : BufTy).Contents (Elt F) → (⟨S8192x512, .f32⟩ : BufTy).Contents (Elt F) → (⟨S4096x512, .f32⟩ : BufTy).Contents (Elt F)) -- %298
  :: StableHlo.unary main_v272 main_v299 (broadcastInDim S4096x1 ![0] bcast_S4096_S4096x1_0 : (⟨S4096, .f32⟩ : BufTy).Contents (Elt F) → (⟨S4096x1, .f32⟩ : BufTy).Contents (Elt F)) -- %299
  :: StableHlo.unary main_v299 main_v300 (broadcastInDim S4096x512 ![0, 1] bcast_S4096x1_S4096x512_0_1 : (⟨S4096x1, .f32⟩ : BufTy).Contents (Elt F) → (⟨S4096x512, .f32⟩ : BufTy).Contents (Elt F)) -- %300
  :: StableHlo.binary main_v298 main_v300 main_v301 (Host.divf : (⟨S4096x512, .f32⟩ : BufTy).Contents (Elt F) → (⟨S4096x512, .f32⟩ : BufTy).Contents (Elt F) → (⟨S4096x512, .f32⟩ : BufTy).Contents (Elt F)) -- %301
  :: StableHlo.unary main_v103 main_v302 (broadcastInDim S1x4096x512 ![1, 2] bcast_S4096x512_S1x4096x512_1_2 : (⟨S4096x512, .f32⟩ : BufTy).Contents (Elt F) → (⟨S1x4096x512, .f32⟩ : BufTy).Contents (Elt F)) -- %302
  :: StableHlo.unary main_v169 main_v303 (broadcastInDim S1x4096x512 ![1, 2] bcast_S4096x512_S1x4096x512_1_2 : (⟨S4096x512, .f32⟩ : BufTy).Contents (Elt F) → (⟨S1x4096x512, .f32⟩ : BufTy).Contents (Elt F)) -- %303
  :: StableHlo.unary main_v235 main_v304 (broadcastInDim S1x4096x512 ![1, 2] bcast_S4096x512_S1x4096x512_1_2 : (⟨S4096x512, .f32⟩ : BufTy).Contents (Elt F) → (⟨S1x4096x512, .f32⟩ : BufTy).Contents (Elt F)) -- %304
  :: StableHlo.unary main_v301 main_v305 (broadcastInDim S1x4096x512 ![1, 2] bcast_S4096x512_S1x4096x512_1_2 : (⟨S4096x512, .f32⟩ : BufTy).Contents (Elt F) → (⟨S1x4096x512, .f32⟩ : BufTy).Contents (Elt F)) -- %305
  :: StableHlo.nary ![main_v302, main_v303, main_v304, main_v305] main_v306 (fun u => concatenate S4x4096x512 0 [⟨S1x4096x512, u 0⟩, ⟨S1x4096x512, u 1⟩, ⟨S1x4096x512, u 2⟩, ⟨S1x4096x512, u 3⟩] concatenates_S1x4096x512_S1x4096x512_S1x4096x512_S1x4096x512_S4x4096x512_d0) -- %306
  :: [] )

/-- Window 0: its three stretches in order. -/
abbrev ops0 : List (HloOp τ sig (Elt F)) := ops0a ++ ops0b ++ ops0c

/-- Everything after the second stretch of window 0. -/
abbrev tailOps : List (HloOp τ sig (Elt F)) := ops0c ++ ops1 ++ ops2 ++ ops3 ++ ops4 ++ ops5 ++ ops6

/-- @main's operations, in order: the windows' lists appended (left-nested). -/
abbrev ops : List (HloOp τ sig (Elt F)) := ops0 ++ ops1 ++ ops2 ++ ops3 ++ ops4 ++ ops5 ++ ops6

end Cert.ReferenceIdeal.Hand

end
-- ==== Proof.RI.Run.lean ====
import proofs.«422445_j52716428591540_1_alg».proof.Proof.RI.Ops
import proofs.«422445_j52716428591540_1_alg».proof.Proof.LibFrame
import proofs.«422445_j52716428591540_1_alg».proof.Defs
import proofs.«422445_j52716428591540_1_alg».proof.Proof.Gen.Pre_finite_inputs
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem main_part0_eq (c : Dev nD) : main_part0 (F := F) c = seq ops0 := rfl
set_option maxRecDepth 8192 in
theorem main_part1_eq (c : Dev nD) : main_part1 (F := F) c = seq ops1 := rfl
set_option maxRecDepth 8192 in
theorem main_part2_eq (c : Dev nD) : main_part2 (F := F) c = seq ops2 := rfl
set_option maxRecDepth 8192 in
theorem main_part3_eq (c : Dev nD) : main_part3 (F := F) c = seq ops3 := rfl
set_option maxRecDepth 8192 in
theorem main_part4_eq (c : Dev nD) : main_part4 (F := F) c = seq ops4 := rfl
set_option maxRecDepth 8192 in
theorem main_part5_eq (c : Dev nD) : main_part5 (F := F) c = seq ops5 := rfl
set_option maxRecDepth 8192 in
theorem main_part6_eq (c : Dev nD) : main_part6 (F := F) c = seq ops6 := rfl

theorem main_eq (c : Dev nD) : main (F := F) c = seq ops := by
  show (main_part0 c >>= fun _ => main_part1 c >>= fun _ => main_part2 c >>= fun _ => main_part3 c >>= fun _ =>
      main_part4 c >>= fun _ => main_part5 c >>= fun _ => main_part6 c) = seq ops
  rw [main_part0_eq, main_part1_eq, main_part2_eq, main_part3_eq, main_part4_eq, main_part5_eq, main_part6_eq]
  simp only [ops, ops0, seq_append, bind_assoc]

theorem ops_split : (ops : List (HloOp τ sig (Elt F))) = ops0a ++ (ops0b ++ tailOps) := by
  simp only [ops, ops0, tailOps, List.append_assoc]

macro "each_bufs_sub" : tactic => `(tactic| repeat' (first
  | refine ⟨?_, ?_⟩
  | (change HloOp.bufs _ ⊆ _
     first
     | with_reducible exact unary_bufs_sub .. | with_reducible exact binary_bufs_sub .. | with_reducible exact nullary_bufs_sub ..
     | with_reducible exact ternary_bufs_sub .. | with_reducible exact reshape_bufs_sub .. | with_reducible exact nary_bufs_sub ..)))

macro "each_fresh" : tactic => `(tactic| repeat' (first | refine ⟨?_, ?_⟩ | exact rfl))

theorem forall_app {p : HloOp τ sig (Elt F) → Prop} {l₁ l₂ : List (HloOp τ sig (Elt F))} (h₁ : l₁.Forall p) (h₂ : l₂.Forall p) :
    (l₁ ++ l₂).Forall p := List.forall_append.2 ⟨h₁, h₂⟩

theorem forall_ops {p : HloOp τ sig (Elt F) → Prop} (h0a : ops0a.Forall p) (h0b : ops0b.Forall p) (h0c : ops0c.Forall p)
    (h1 : ops1.Forall p) (h2 : ops2.Forall p) (h3 : ops3.Forall p) (h4 : ops4.Forall p) (h5 : ops5.Forall p) (h6 : ops6.Forall p) :
    (ops : List (HloOp τ sig (Elt F))).Forall p :=
  forall_app (forall_app (forall_app (forall_app (forall_app (forall_app (forall_app (forall_app h0a h0b) h0c) h1) h2) h3) h4) h5) h6

set_option maxRecDepth 8192 in
theorem ops_sub : (ops : List (HloOp τ sig (Elt F))).Forall fun op => op.bufs ⊆ tcRefs τ sig :=
  forall_ops (by each_bufs_sub) (by each_bufs_sub) (by each_bufs_sub) (by each_bufs_sub)
    (by each_bufs_sub) (by each_bufs_sub) (by each_bufs_sub) (by each_bufs_sub) (by each_bufs_sub)

set_option maxRecDepth 8192 in
theorem ops_fresh : ∀ op ∈ (ops : List (HloOp τ sig (Elt F))), op.fresh = ∅ :=
  List.forall_iff_forall_mem.1 (forall_ops (by each_fresh) (by each_fresh) (by each_fresh) (by each_fresh)
    (by each_fresh) (by each_fresh) (by each_fresh) (by each_fresh) (by each_fresh))

theorem scopedRefs_eq : (Finset.univ.filter fun b : Ref sig .tc => b.isScoped) = ∅ := by decide
theorem scopedSems_eq : (Finset.univ.filter fun sm : SemLoc sig => sm.isScoped .tc) = ∅ := by decide

macro "each_kept" : tactic => `(tactic| repeat' (first | exact ⟨_, by decide, rfl⟩ | refine ⟨?_, ?_⟩))

-- The reference's operations leave each argument's contents unchanged.
set_option maxRecDepth 8192 in
theorem arg_keep (V : Valuation τ sig (Elt F)) {b : Ref sig .tc}
    (hb : b ∈ ([main_arg0, main_arg1, main_arg2, main_arg3, main_arg4] : List (Ref sig .tc))) :
    after ops V (Proc.devRef .tc b) = V (Proc.devRef .tc b) :=
  Cert.LibFrame.after_keeps (forall_ops (by each_kept) (by each_kept) (by each_kept) (by each_kept)
    (by each_kept) (by each_kept) (by each_kept) (by each_kept) (by each_kept)) V hb

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v306) = after ops (launchContents m c) (Proc.devRef .tc main_v306)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨h c main_v306,
      (h c main_arg0).trans (arg_keep _ (by decide)), (h c main_arg1).trans (arg_keep _ (by decide)),
      (h c main_arg2).trans (arg_keep _ (by decide)), (h c main_arg3).trans (arg_keep _ (by decide)),
      (h c main_arg4).trans (arg_keep _ (by decide))⟩)
    (run_seq scopedRefs_eq scopedSems_eq defs main (fun _ => ops) main_eq (fun _ => ops_sub) m ρ (fun _ => ops_fresh))

theorem frame_ri : Cert.frame_ReferenceIdeal := fun m g _ =>
  (θ_run _ _ _).mono (fun _ h c => (h c).2) (run (F := Ideal) m g)

end Cert.ReferenceIdeal.Hand

end
-- ==== Proof.RI.Prefix.lean ====
import proofs.«422445_j52716428591540_1_alg».proof.Proof.KI.Prefix
import proofs.«422445_j52716428591540_1_alg».proof.Proof.RI.Ops
import Idealize.ShloMosaic.Lib.StableHlo.Run

set_option maxRecDepth 2816

noncomputable section

namespace Cert.ReferenceIdeal.Hand

open Idealize.ShloMosaic Idealize.SL.Sem
open Cert.ReferenceIdeal Cert.ReferenceIdeal.Gen

variable {F : FTy → Type} [FloatOps F]

variable (W : Valuation τ sig (Elt F))

theorem rpre_v1 : StableHlo.after ops0a W (Proc.devRef .tc main_v1)
    = Cert.KernelIdeal.Hand.dstRow (W (Proc.devRef .tc main_arg1)) := by
  after_results; rfl

theorem rpre_v3 : StableHlo.after ops0a W (Proc.devRef .tc main_v3)
    = Cert.KernelIdeal.Hand.relRow (W (Proc.devRef .tc main_arg1)) := by
  after_results; rfl

theorem rpre_v5 : StableHlo.after ops0a W (Proc.devRef .tc main_v5)
    = Cert.KernelIdeal.Hand.srcRow (W (Proc.devRef .tc main_arg1)) := by
  after_results; rfl

set_option maxHeartbeats 4000000 in
theorem rpre_v31 : StableHlo.after ops0a W (Proc.devRef .tc main_v31)
    = Cert.KernelIdeal.Hand.preI (W (Proc.devRef .tc main_arg0)) (W (Proc.devRef .tc main_arg1))
        (W (Proc.devRef .tc main_arg2)) := by
  after_results_simp
  rfl

set_option maxHeartbeats 4000000 in
theorem rpre_v34 : StableHlo.after ops0a W (Proc.devRef .tc main_v34)
    = Cert.KernelIdeal.Hand.preR (W (Proc.devRef .tc main_arg0)) (W (Proc.devRef .tc main_arg1))
        (W (Proc.devRef .tc main_arg2)) := by
  after_results_simp
  rfl

theorem rpre_keeps (b : Ref sig .tc)
    (hb : b = main_arg0 ∨ b = main_arg1 ∨ b = main_arg2 ∨ b = main_arg3 ∨ b = main_arg4) :
    StableHlo.after ops0a W (Proc.devRef .tc b) = W (Proc.devRef .tc b) := by
  rcases hb with rfl | rfl | rfl | rfl | rfl <;>
  exact StableHlo.after_of_forall_not_mem (b := Proc.devRef .tc _) _ _ (List.forall_iff_forall_mem.mp (by
    simp only [ops0a, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

end Cert.ReferenceIdeal.Hand

end
-- ==== Proof.RI.CoreFold.lean ====
import proofs.«422445_j52716428591540_1_alg».proof.Proof.RI.Core
import proofs.«422445_j52716428591540_1_alg».proof.Proof.RI.Ops
import Idealize.ShloMosaic.Lib.StableHlo.Run

set_option synthInstance.maxSize 4096

noncomputable section

namespace Cert.ReferenceIdeal.Hand

open Idealize.ShloMosaic Idealize.SL.Sem Cert.ReferenceIdeal Cert.ReferenceIdeal.Gen
open Idealize.ShloMosaic.StableHlo

variable {F : FTy → Type} [FloatOps F]

theorem core_v41 (W : Valuation τ sig (Elt F)) :
    StableHlo.after ops0b W (Proc.devRef .tc main_v41)
      = coreX (W (Proc.devRef .tc main_v34)) (W (Proc.devRef .tc main_v31)) := by
  after_results
  rfl

theorem core_keeps (W : Valuation τ sig (Elt F)) (b : Ref sig .tc)
    (hb : b ∈ [main_arg0, main_arg1, main_arg2, main_arg3, main_arg4, main_v1, main_v3, main_v5]) :
    StableHlo.after ops0b W (Proc.devRef .tc b) = W (Proc.devRef .tc b) := by
  simp only [List.mem_cons, List.not_mem_nil, or_false] at hb
  rcases hb with rfl | rfl | rfl | rfl | rfl | rfl | rfl | rfl <;> after_results

end Cert.ReferenceIdeal.Hand

end
-- ==== Proof.TailFn.lean ====
import proofs.«422445_j52716428591540_1_alg».proof.Proof.KI.Prefix
import proofs.«422445_j52716428591540_1_alg».proof.Proof.Gen.KernelIdeal.Launch

set_option maxRecDepth 2816

noncomputable section

namespace Cert.KernelIdeal.Hand

open Idealize.ShloMosaic Idealize.SL.Sem
open Cert.KernelIdeal Cert.KernelIdeal.Gen

variable {F : FTy → Type} [FloatOps F]

def gatherN (hc : FVec F S4096x512 .f32) (x : IVec S8192 32) : FVec F S8192x512 .f32 :=
  Host.gather gather_S4096x512_S8192x1_S8192x512_1_0_n_n_0_1_1512 hc (wrapCol4096 x)

def gatherR (X : FVec F S8192x512 .f32) (x : IVec S8192 32) : FVec F S8192x512 .f32 :=
  Host.gather gather_S8192x512_S8192x1_S8192x512_1_0_n_n_0_1_1512 X (wrapCol8192 x)

def aCol00 (a : FVec F S4x2x512x1 .f32) : FVec F S512x1 .f32 :=
  shapeCast S512x1 (extractStridedSlice S1x1x512x1 ![0, 0, 0, 0] a slices_S4x2x512x1_S1x1x512x1_0_0_0_0) shapeCasts_S1x1x512x1_S512x1
def aCol01 (a : FVec F S4x2x512x1 .f32) : FVec F S512x1 .f32 :=
  shapeCast S512x1 (extractStridedSlice S1x1x512x1 ![0, 1, 0, 0] a slices_S4x2x512x1_S1x1x512x1_0_1_0_0) shapeCasts_S1x1x512x1_S512x1
def aCol10 (a : FVec F S4x2x512x1 .f32) : FVec F S512x1 .f32 :=
  shapeCast S512x1 (extractStridedSlice S1x1x512x1 ![1, 0, 0, 0] a slices_S4x2x512x1_S1x1x512x1_1_0_0_0) shapeCasts_S1x1x512x1_S512x1
def aCol11 (a : FVec F S4x2x512x1 .f32) : FVec F S512x1 .f32 :=
  shapeCast S512x1 (extractStridedSlice S1x1x512x1 ![1, 1, 0, 0] a slices_S4x2x512x1_S1x1x512x1_1_1_0_0) shapeCasts_S1x1x512x1_S512x1
def aCol20 (a : FVec F S4x2x512x1 .f32) : FVec F S512x1 .f32 :=
  shapeCast S512x1 (extractStridedSlice S1x1x512x1 ![2, 0, 0, 0] a slices_S4x2x512x1_S1x1x512x1_2_0_0_0) shapeCasts_S1x1x512x1_S512x1
def aCol21 (a : FVec F S4x2x512x1 .f32) : FVec F S512x1 .f32 :=
  shapeCast S512x1 (extractStridedSlice S1x1x512x1 ![2, 1, 0, 0] a slices_S4x2x512x1_S1x1x512x1_2_1_0_0) shapeCasts_S1x1x512x1_S512x1
def aCol30 (a : FVec F S4x2x512x1 .f32) : FVec F S512x1 .f32 :=
  shapeCast S512x1 (extractStridedSlice S1x1x512x1 ![3, 0, 0, 0] a slices_S4x2x512x1_S1x1x512x1_3_0_0_0) shapeCasts_S1x1x512x1_S512x1
def aCol31 (a : FVec F S4x2x512x1 .f32) : FVec F S512x1 .f32 :=
  shapeCast S512x1 (extractStridedSlice S1x1x512x1 ![3, 1, 0, 0] a slices_S4x2x512x1_S1x1x512x1_3_1_0_0) shapeCasts_S1x1x512x1_S512x1

def wRow0 (w : FVec F S3x1x512 .f32) : FVec F S4096x512 .f32 :=
  broadcastInDim S4096x512 ![0, 1] bcast_S1x512_S4096x512_0_1
    (shapeCast S1x512 (extractStridedSlice S1x1x512 ![0, 0, 0] w slices_S3x1x512_S1x1x512_0_0_0) shapeCasts_S1x1x512_S1x512)
def wRow1 (w : FVec F S3x1x512 .f32) : FVec F S4096x512 .f32 :=
  broadcastInDim S4096x512 ![0, 1] bcast_S1x512_S4096x512_0_1
    (shapeCast S1x512 (extractStridedSlice S1x1x512 ![1, 0, 0] w slices_S3x1x512_S1x1x512_1_0_0) shapeCasts_S1x1x512_S1x512)
def wRow2 (w : FVec F S3x1x512 .f32) : FVec F S4096x512 .f32 :=
  broadcastInDim S4096x512 ![0, 1] bcast_S1x512_S4096x512_0_1
    (shapeCast S1x512 (extractStridedSlice S1x1x512 ![2, 0, 0] w slices_S3x1x512_S1x1x512_2_0_0) shapeCasts_S1x1x512_S1x512)

def score (hc : FVec F S4096x512 .f32) (s rl : IVec S8192 32) (a0 a1 : FVec F S512x1 .f32) (X : FVec F S8192x512 .f32) :
    FVec F S8192 .f32 :=
  shapeCast S8192
    (addf (Host.dotGeneral dot_S8192x512_S512x1_S8192x1_1_0_0_1_n_n none (gatherN hc s) a0)
          (Host.dotGeneral dot_S8192x512_S512x1_S8192x1_1_0_0_1_n_n none (gatherR X rl) a1))
    shapeCasts_S8192x1_S8192

def leakK : FVec F S_ .f32 := constant (F := F) S_ .f32 0x3E4CCCCD#32

def leaky (x : FVec F S8192 .f32) (k : FVec F S_ .f32) : FVec F S8192 .f32 :=
  select (cmpf .oge x (broadcastInDim S8192 ![] bcast_S_S8192 (constant (F := F) S_ .f32 0x00000000#32)))
    x (mulf (broadcastInDim S8192 ![] bcast_S_S8192 (id k)) x)

def edgeE (sc : FVec F S8192 .f32) (k : FVec F S_ .f32) : FVec F S8192 .f32 :=
  Host.exp (Host.negf (leaky sc k))

def rowSum (d : IVec S8192 32) (e : FVec F S8192 .f32) : FVec F S4096 .f32 :=
  Host.scatterAdd scatter_S4096_S8192x1_S8192_n_0_0_1
    (broadcastInDim S4096 ![] bcast_S_S4096 (constant (F := F) S_ .f32 0x00000000#32)) (wrapCol4096 d) e

def edgeFeat (hc : FVec F S4096x512 .f32) (s rl : IVec S8192 32) (X : FVec F S8192x512 .f32) (e : FVec F S8192 .f32) :
    FVec F S8192x512 .f32 :=
  mulf (subf (gatherN hc s) (gatherR X rl))
    (broadcastInDim S8192x512 ![0, 1] bcast_S8192x1_S8192x512_0_1 (broadcastInDim S8192x1 ![0] bcast_S8192_S8192x1_0 e))

def hPrime (d : IVec S8192 32) (ft : FVec F S8192x512 .f32) : FVec F S4096x512 .f32 :=
  Host.scatterAdd scatter_S4096x512_S8192x1_S8192x512_1_0_0_1
    (broadcastInDim S4096x512 ![] bcast_S_S4096x512 (constant (F := F) S_ .f32 0x00000000#32)) (wrapCol4096 d) ft

def headPost (sc : FVec F S8192 .f32) (k : FVec F S_ .f32) (hc : FVec F S4096x512 .f32) (d rl s : IVec S8192 32)
    (X : FVec F S8192x512 .f32) : FVec F S4096x512 .f32 :=
  Host.divf (hPrime d (edgeFeat hc s rl X (edgeE sc k)))
    (broadcastInDim S4096x512 ![0, 1] bcast_S4096x1_S4096x512_0_1
      (broadcastInDim S4096x1 ![0] bcast_S4096_S4096x1_0 (rowSum d (edgeE sc k))))

def headOut (hc : FVec F S4096x512 .f32) (d rl s : IVec S8192 32) (a0 a1 : FVec F S512x1 .f32) (X : FVec F S8192x512 .f32) :
    FVec F S4096x512 .f32 :=
  headPost (score hc s rl a0 a1 X) leakK hc d rl s X

def slab (o : FVec F S4096x512 .f32) : FVec F S1x4096x512 .f32 :=
  broadcastInDim S1x4096x512 ![1, 2] bcast_S4096x512_S1x4096x512_1_2 o

def stack4 (o0 o1 o2 o3 : FVec F S1x4096x512 .f32) : FVec F S4x4096x512 .f32 :=
  concatenate S4x4096x512 0 [⟨S1x4096x512, o0⟩, ⟨S1x4096x512, o1⟩, ⟨S1x4096x512, o2⟩, ⟨S1x4096x512, o3⟩]
    concatenates_S1x4096x512_S1x4096x512_S1x4096x512_S1x4096x512_S4x4096x512_d0

def tailT (h : FVec F S4096x512 .f32) (d rl s : IVec S8192 32) (w : FVec F S3x1x512 .f32) (a : FVec F S4x2x512x1 .f32)
    (X : FVec F S8192x512 .f32) : FVec F S4x4096x512 .f32 :=
  stack4
    (slab (headOut h d rl s (aCol00 a) (aCol01 a) X))
    (slab (headOut (mulf h (wRow0 w)) d rl s (aCol10 a) (aCol11 a) X))
    (slab (headOut (mulf (mulf h (wRow0 w)) (wRow1 w)) d rl s (aCol20 a) (aCol21 a) X))
    (slab (headOut (mulf (mulf (mulf h (wRow0 w)) (wRow1 w)) (wRow2 w)) d rl s (aCol30 a) (aCol31 a) X))

end Cert.KernelIdeal.Hand

end
-- ==== Proof.TailK.lean ====
import proofs.«422445_j52716428591540_1_alg».proof.Proof.TailFn
import Idealize.ShloMosaic.Lib.StableHlo.Run

set_option maxRecDepth 2816

noncomputable section

namespace Cert.KernelIdeal.Hand

open Idealize.ShloMosaic Idealize.SL.Sem
open Cert.KernelIdeal Cert.KernelIdeal.Gen

variable {F : FTy → Type} [FloatOps F]

variable (W : Valuation τ sig (Elt F))

abbrev afterA : Valuation τ sig (Elt F) :=
  StableHlo.after main_part2_ops0 (StableHlo.after main_part1_ops2 (StableHlo.after main_part1_ops1
    (StableHlo.after main_part1_ops0 (StableHlo.after main_part0_ops2 W))))

abbrev afterB : Valuation τ sig (Elt F) :=
  StableHlo.after main_part3_ops0 (StableHlo.after main_part2_ops2 (StableHlo.after main_part2_ops1 W))

abbrev afterC : Valuation τ sig (Elt F) :=
  StableHlo.after main_part5_ops0 (StableHlo.after main_part4_ops0 (StableHlo.after main_part3_ops2
    (StableHlo.after main_part3_ops1 W)))

abbrev afterD : Valuation τ sig (Elt F) :=
  StableHlo.after main_part6_ops0 (StableHlo.after main_part5_ops2 (StableHlo.after main_part5_ops1 W))

set_option maxHeartbeats 8000000 in
theorem A_out0 : afterA W (Proc.devRef .tc main_v100)
    = headOut (W (Proc.devRef .tc main_arg0)) (W (Proc.devRef .tc main_v1)) (W (Proc.devRef .tc main_v3)) (W (Proc.devRef .tc main_v5))
        (aCol00 (W (Proc.devRef .tc main_arg4))) (aCol01 (W (Proc.devRef .tc main_arg4))) (W (Proc.devRef .tc main_v38)) := by
  unfold afterA
  after_results_simp
  rfl

set_option maxHeartbeats 8000000 in
theorem A_hc1 : afterA W (Proc.devRef .tc main_v104)
    = mulf (W (Proc.devRef .tc main_arg0)) (wRow0 (W (Proc.devRef .tc main_arg3))) := by
  unfold afterA
  after_results_simp
  rfl

set_option maxHeartbeats 8000000 in
theorem A_sc1 : afterA W (Proc.devRef .tc main_v126)
    = score (mulf (W (Proc.devRef .tc main_arg0)) (wRow0 (W (Proc.devRef .tc main_arg3))))
        (W (Proc.devRef .tc main_v5)) (W (Proc.devRef .tc main_v3))
        (aCol10 (W (Proc.devRef .tc main_arg4))) (aCol11 (W (Proc.devRef .tc main_arg4))) (W (Proc.devRef .tc main_v38)) := by
  unfold afterA
  after_results_simp
  rfl

set_option maxHeartbeats 8000000 in
theorem A_k1 : afterA W (Proc.devRef .tc main_cst_24) = leakK := by
  unfold afterA
  after_results_simp
  rfl

set_option maxHeartbeats 8000000 in
theorem A_keeps : List.Forall (fun b => afterA W (Proc.devRef .tc b) = W (Proc.devRef .tc b))
    [main_v1, main_v3, main_v5, main_arg3, main_arg4, main_v38] := by
  simp only [List.Forall]
  refine ⟨?_, ?_, ?_, ?_, ?_, ?_⟩ <;> (unfold afterA; after_results_simp)

set_option maxHeartbeats 8000000 in
theorem B_out1 : afterB W (Proc.devRef .tc main_v166)
    = headPost (W (Proc.devRef .tc main_v126)) (W (Proc.devRef .tc main_cst_24)) (W (Proc.devRef .tc main_v104))
        (W (Proc.devRef .tc main_v1)) (W (Proc.devRef .tc main_v3)) (W (Proc.devRef .tc main_v5)) (W (Proc.devRef .tc main_v38)) := by
  unfold afterB
  after_results_simp
  rfl

set_option maxHeartbeats 8000000 in
theorem B_hc2 : afterB W (Proc.devRef .tc main_v170)
    = mulf (W (Proc.devRef .tc main_v104)) (wRow1 (W (Proc.devRef .tc main_arg3))) := by
  unfold afterB
  after_results_simp
  rfl

set_option maxHeartbeats 8000000 in
theorem B_sc2 : afterB W (Proc.devRef .tc main_v192)
    = score (mulf (W (Proc.devRef .tc main_v104)) (wRow1 (W (Proc.devRef .tc main_arg3))))
        (W (Proc.devRef .tc main_v5)) (W (Proc.devRef .tc main_v3))
        (aCol20 (W (Proc.devRef .tc main_arg4))) (aCol21 (W (Proc.devRef .tc main_arg4))) (W (Proc.devRef .tc main_v38)) := by
  unfold afterB
  after_results_simp
  rfl

set_option maxHeartbeats 8000000 in
theorem B_k2 : afterB W (Proc.devRef .tc main_cst_39) = leakK := by
  unfold afterB
  after_results_simp
  rfl

set_option maxHeartbeats 8000000 in
theorem B_keeps : List.Forall (fun b => afterB W (Proc.devRef .tc b) = W (Proc.devRef .tc b))
    [main_v1, main_v3, main_v5, main_arg3, main_arg4, main_v38, main_v100] := by
  simp only [List.Forall]
  refine ⟨?_, ?_, ?_, ?_, ?_, ?_, ?_⟩ <;> (unfold afterB; after_results_simp)

set_option maxHeartbeats 8000000 in
theorem C_out2 : afterC W (Proc.devRef .tc main_v232)
    = headPost (W (Proc.devRef .tc main_v192)) (W (Proc.devRef .tc main_cst_39)) (W (Proc.devRef .tc main_v170))
        (W (Proc.devRef .tc main_v1)) (W (Proc.devRef .tc main_v3)) (W (Proc.devRef .tc main_v5)) (W (Proc.devRef .tc main_v38)) := by
  unfold afterC
  after_results_simp
  rfl

set_option maxHeartbeats 8000000 in
theorem C_hc3 : afterC W (Proc.devRef .tc main_v236)
    = mulf (W (Proc.devRef .tc main_v170)) (wRow2 (W (Proc.devRef .tc main_arg3))) := by
  unfold afterC
  after_results_simp
  rfl

set_option maxHeartbeats 8000000 in
theorem C_sc3 : afterC W (Proc.devRef .tc main_v258)
    = score (mulf (W (Proc.devRef .tc main_v170)) (wRow2 (W (Proc.devRef .tc main_arg3))))
        (W (Proc.devRef .tc main_v5)) (W (Proc.devRef .tc main_v3))
        (aCol30 (W (Proc.devRef .tc main_arg4))) (aCol31 (W (Proc.devRef .tc main_arg4))) (W (Proc.devRef .tc main_v38)) := by
  unfold afterC
  after_results_simp
  rfl

set_option maxHeartbeats 8000000 in
theorem C_k3 : afterC W (Proc.devRef .tc main_cst_54) = leakK := by
  unfold afterC
  after_results_simp
  rfl

set_option maxHeartbeats 8000000 in
theorem C_keeps : List.Forall (fun b => afterC W (Proc.devRef .tc b) = W (Proc.devRef .tc b))
    [main_v1, main_v3, main_v5, main_v38, main_v100, main_v166] := by
  simp only [List.Forall]
  refine ⟨?_, ?_, ?_, ?_, ?_, ?_⟩ <;> (unfold afterC; after_results_simp)

set_option maxHeartbeats 8000000 in
theorem D_fin : afterD W (Proc.devRef .tc main_v303)
    = stack4 (slab (W (Proc.devRef .tc main_v100))) (slab (W (Proc.devRef .tc main_v166))) (slab (W (Proc.devRef .tc main_v232)))
        (slab (headPost (W (Proc.devRef .tc main_v258)) (W (Proc.devRef .tc main_cst_54)) (W (Proc.devRef .tc main_v236))
          (W (Proc.devRef .tc main_v1)) (W (Proc.devRef .tc main_v3)) (W (Proc.devRef .tc main_v5)) (W (Proc.devRef .tc main_v38)))) := by
  unfold afterD
  after_results_simp
  rfl

-- The four stretches compose: each later stretch reads only what the earlier ones named or left unchanged.
theorem tail_K : afterD (afterC (afterB (afterA W))) (Proc.devRef .tc main_v303)
    = tailT (W (Proc.devRef .tc main_arg0)) (W (Proc.devRef .tc main_v1)) (W (Proc.devRef .tc main_v3)) (W (Proc.devRef .tc main_v5))
        (W (Proc.devRef .tc main_arg3)) (W (Proc.devRef .tc main_arg4)) (W (Proc.devRef .tc main_v38)) := by
  obtain ⟨a1, a3, a5, aa3, aa4, a38⟩ := A_keeps W
  obtain ⟨b1, b3, b5, ba3, ba4, b38, b100⟩ := B_keeps (afterA W)
  obtain ⟨c1, c3, c5, c38, c100, c166⟩ := C_keeps (afterB (afterA W))
  rw [D_fin, c100, c166, C_out2, C_sc3, C_k3, C_hc3, c1, c3, c5, c38,
    b100, B_out1, B_sc2, B_k2, B_hc2, b1, b3, b5, ba3, ba4, b38,
    A_out0, A_sc1, A_k1, A_hc1, a1, a3, a5, aa3, aa4, a38]
  rfl

end Cert.KernelIdeal.Hand

end
-- ==== Proof.TailR.lean ====
import proofs.«422445_j52716428591540_1_alg».proof.Proof.TailFn
import proofs.«422445_j52716428591540_1_alg».proof.Proof.RI.Ops
import proofs.«422445_j52716428591540_1_alg».proof.Proof.LibFrame
import Idealize.ShloMosaic.Lib.StableHlo.Run

set_option maxRecDepth 2816

noncomputable section

namespace Cert.ReferenceIdeal.Hand

open Idealize.ShloMosaic Idealize.SL.Sem
open Cert.ReferenceIdeal Cert.ReferenceIdeal.Gen
open Cert.KernelIdeal.Hand (aCol00 aCol01 aCol10 aCol11 aCol20 aCol21 aCol30 aCol31 wRow0 wRow1 wRow2 score leakK headPost headOut
  slab stack4 tailT)

variable {F : FTy → Type} [FloatOps F]

theorem after_take_drop (k : ℕ) (ops : List (HloOp τ sig (Elt F))) (V : Valuation τ sig (Elt F)) :
    StableHlo.after ops V = StableHlo.after (ops.drop k) (StableHlo.after (ops.take k) V) := by
  rw [← Cert.LibFrame.after_append, List.take_append_drop]

variable (W : Valuation τ sig (Elt F))

abbrev afterRA : Valuation τ sig (Elt F) :=
  StableHlo.after (ops2.take 38) (StableHlo.after ops1 (StableHlo.after ops0c W))

abbrev afterRB : Valuation τ sig (Elt F) :=
  StableHlo.after (ops3.take 59) (StableHlo.after (ops2.drop 38) W)

abbrev afterRC : Valuation τ sig (Elt F) :=
  StableHlo.after (ops5.take 20) (StableHlo.after ops4 (StableHlo.after (ops3.drop 59) W))

abbrev afterRD : Valuation τ sig (Elt F) :=
  StableHlo.after ops6 (StableHlo.after (ops5.drop 20) W)

theorem tail_split : StableHlo.after tailOps W = afterRD (afterRC (afterRB (afterRA W))) := by
  unfold tailOps afterRD afterRC afterRB afterRA
  simp only [Cert.LibFrame.after_append]
  rw [after_take_drop 38 ops2, after_take_drop 59 ops3, after_take_drop 20 ops5]

set_option maxHeartbeats 8000000 in
theorem RA_out0 : afterRA W (Proc.devRef .tc main_v103)
    = headOut (W (Proc.devRef .tc main_arg0)) (W (Proc.devRef .tc main_v1)) (W (Proc.devRef .tc main_v3)) (W (Proc.devRef .tc main_v5))
        (aCol00 (W (Proc.devRef .tc main_arg4))) (aCol01 (W (Proc.devRef .tc main_arg4))) (W (Proc.devRef .tc main_v41)) := by
  unfold afterRA
  simp only [ops2, List.take_succ_cons, List.take_zero]
  after_results_simp
  rfl

set_option maxHeartbeats 8000000 in
theorem RA_hc1 : afterRA W (Proc.devRef .tc main_v107)
    = mulf (W (Proc.devRef .tc main_arg0)) (wRow0 (W (Proc.devRef .tc main_arg3))) := by
  unfold afterRA
  simp only [ops2, List.take_succ_cons, List.take_zero]
  after_results_simp
  rfl

set_option maxHeartbeats 8000000 in
theorem RA_sc1 : afterRA W (Proc.devRef .tc main_v129)
    = score (mulf (W (Proc.devRef .tc main_arg0)) (wRow0 (W (Proc.devRef .tc main_arg3))))
        (W (Proc.devRef .tc main_v5)) (W (Proc.devRef .tc main_v3))
        (aCol10 (W (Proc.devRef .tc main_arg4))) (aCol11 (W (Proc.devRef .tc main_arg4))) (W (Proc.devRef .tc main_v41)) := by
  unfold afterRA
  simp only [ops2, List.take_succ_cons, List.take_zero]
  after_results_simp
  rfl

set_option maxHeartbeats 8000000 in
theorem RA_k1 : afterRA W (Proc.devRef .tc main_cst_25) = leakK := by
  unfold afterRA
  simp only [ops2, List.take_succ_cons, List.take_zero]
  after_results_simp
  rfl

set_option maxHeartbeats 8000000 in
theorem RA_keeps : List.Forall (fun b => afterRA W (Proc.devRef .tc b) = W (Proc.devRef .tc b))
    [main_v1, main_v3, main_v5, main_arg3, main_arg4, main_v41] := by
  simp only [List.Forall]
  refine ⟨?_, ?_, ?_, ?_, ?_, ?_⟩ <;>
    (unfold afterRA; simp only [ops2, List.take_succ_cons, List.take_zero]; after_results_simp)

set_option maxHeartbeats 8000000 in
theorem RB_out1 : afterRB W (Proc.devRef .tc main_v169)
    = headPost (W (Proc.devRef .tc main_v129)) (W (Proc.devRef .tc main_cst_25)) (W (Proc.devRef .tc main_v107))
        (W (Proc.devRef .tc main_v1)) (W (Proc.devRef .tc main_v3)) (W (Proc.devRef .tc main_v5)) (W (Proc.devRef .tc main_v41)) := by
  unfold afterRB
  simp only [ops2, ops3, List.take_succ_cons, List.take_zero, List.drop_succ_cons, List.drop_zero]
  after_results_simp
  rfl

set_option maxHeartbeats 8000000 in
theorem RB_hc2 : afterRB W (Proc.devRef .tc main_v173)
    = mulf (W (Proc.devRef .tc main_v107)) (wRow1 (W (Proc.devRef .tc main_arg3))) := by
  unfold afterRB
  simp only [ops2, ops3, List.take_succ_cons, List.take_zero, List.drop_succ_cons, List.drop_zero]
  after_results_simp
  rfl

set_option maxHeartbeats 8000000 in
theorem RB_sc2 : afterRB W (Proc.devRef .tc main_v195)
    = score (mulf (W (Proc.devRef .tc main_v107)) (wRow1 (W (Proc.devRef .tc main_arg3))))
        (W (Proc.devRef .tc main_v5)) (W (Proc.devRef .tc main_v3))
        (aCol20 (W (Proc.devRef .tc main_arg4))) (aCol21 (W (Proc.devRef .tc main_arg4))) (W (Proc.devRef .tc main_v41)) := by
  unfold afterRB
  simp only [ops2, ops3, List.take_succ_cons, List.take_zero, List.drop_succ_cons, List.drop_zero]
  after_results_simp
  rfl

set_option maxHeartbeats 8000000 in
theorem RB_k2 : afterRB W (Proc.devRef .tc main_cst_40) = leakK := by
  unfold afterRB
  simp only [ops2, ops3, List.take_succ_cons, List.take_zero, List.drop_succ_cons, List.drop_zero]
  after_results_simp
  rfl

set_option maxHeartbeats 8000000 in
theorem RB_keeps : List.Forall (fun b => afterRB W (Proc.devRef .tc b) = W (Proc.devRef .tc b))
    [main_v1, main_v3, main_v5, main_arg3, main_arg4, main_v41, main_v103] := by
  simp only [List.Forall]
  refine ⟨?_, ?_, ?_, ?_, ?_, ?_, ?_⟩ <;>
    (unfold afterRB; simp only [ops2, ops3, List.take_succ_cons, List.take_zero, List.drop_succ_cons, List.drop_zero]; after_results_simp)

set_option maxHeartbeats 8000000 in
theorem RC_out2 : afterRC W (Proc.devRef .tc main_v235)
    = headPost (W (Proc.devRef .tc main_v195)) (W (Proc.devRef .tc main_cst_40)) (W (Proc.devRef .tc main_v173))
        (W (Proc.devRef .tc main_v1)) (W (Proc.devRef .tc main_v3)) (W (Proc.devRef .tc main_v5)) (W (Proc.devRef .tc main_v41)) := by
  unfold afterRC
  simp only [ops3, ops5, List.take_succ_cons, List.take_zero, List.drop_succ_cons, List.drop_zero]
  after_results_simp
  rfl

set_option maxHeartbeats 8000000 in
theorem RC_hc3 : afterRC W (Proc.devRef .tc main_v239)
    = mulf (W (Proc.devRef .tc main_v173)) (wRow2 (W (Proc.devRef .tc main_arg3))) := by
  unfold afterRC
  simp only [ops3, ops5, List.take_succ_cons, List.take_zero, List.drop_succ_cons, List.drop_zero]
  after_results_simp
  rfl

set_option maxHeartbeats 8000000 in
theorem RC_sc3 : afterRC W (Proc.devRef .tc main_v261)
    = score (mulf (W (Proc.devRef .tc main_v173)) (wRow2 (W (Proc.devRef .tc main_arg3))))
        (W (Proc.devRef .tc main_v5)) (W (Proc.devRef .tc main_v3))
        (aCol30 (W (Proc.devRef .tc main_arg4))) (aCol31 (W (Proc.devRef .tc main_arg4))) (W (Proc.devRef .tc main_v41)) := by
  unfold afterRC
  simp only [ops3, ops5, List.take_succ_cons, List.take_zero, List.drop_succ_cons, List.drop_zero]
  after_results_simp
  rfl

set_option maxHeartbeats 8000000 in
theorem RC_k3 : afterRC W (Proc.devRef .tc main_cst_55) = leakK := by
  unfold afterRC
  simp only [ops3, ops5, List.take_succ_cons, List.take_zero, List.drop_succ_cons, List.drop_zero]
  after_results_simp
  rfl

set_option maxHeartbeats 8000000 in
theorem RC_keeps : List.Forall (fun b => afterRC W (Proc.devRef .tc b) = W (Proc.devRef .tc b))
    [main_v1, main_v3, main_v5, main_v41, main_v103, main_v169] := by
  simp only [List.Forall]
  refine ⟨?_, ?_, ?_, ?_, ?_, ?_⟩ <;>
    (unfold afterRC; simp only [ops3, ops5, List.take_succ_cons, List.take_zero, List.drop_succ_cons, List.drop_zero]; after_results_simp)

set_option maxHeartbeats 8000000 in
theorem RD_fin : afterRD W (Proc.devRef .tc main_v306)
    = stack4 (slab (W (Proc.devRef .tc main_v103))) (slab (W (Proc.devRef .tc main_v169))) (slab (W (Proc.devRef .tc main_v235)))
        (slab (headPost (W (Proc.devRef .tc main_v261)) (W (Proc.devRef .tc main_cst_55)) (W (Proc.devRef .tc main_v239))
          (W (Proc.devRef .tc main_v1)) (W (Proc.devRef .tc main_v3)) (W (Proc.devRef .tc main_v5)) (W (Proc.devRef .tc main_v41)))) := by
  unfold afterRD
  simp only [ops5, List.drop_succ_cons, List.drop_zero]
  after_results_simp
  rfl

-- The reference's tail is the same function: the same four stretches over its own buffer names.
theorem tail_R :
    StableHlo.after tailOps W (Proc.devRef .tc main_v306)
    = tailT (W (Proc.devRef .tc main_arg0)) (W (Proc.devRef .tc main_v1)) (W (Proc.devRef .tc main_v3)) (W (Proc.devRef .tc main_v5))
        (W (Proc.devRef .tc main_arg3)) (W (Proc.devRef .tc main_arg4)) (W (Proc.devRef .tc main_v41)) := by
  refine (congrFun (tail_split W) (Proc.devRef .tc main_v306)).trans ?_
  obtain ⟨a_v1, a_v3, a_v5, a_arg3, a_arg4, a_v41⟩ := RA_keeps W
  obtain ⟨b_v1, b_v3, b_v5, b_arg3, b_arg4, b_v41, b_v103⟩ := RB_keeps (afterRA W)
  obtain ⟨c_v1, c_v3, c_v5, c_v41, c_v103, c_v169⟩ := RC_keeps (afterRB (afterRA W))
  rw [RD_fin, c_v103, c_v169, RC_out2, RC_sc3, RC_k3, RC_hc3, c_v1, c_v3, c_v5, c_v41,
    b_v103, RB_out1, RB_sc2, RB_k2, RB_hc2, b_v1, b_v3, b_v5, b_arg3, b_arg4, b_v41,
    RA_out0, RA_sc1, RA_k1, RA_hc1, a_v1, a_v3, a_v5, a_arg3, a_arg4, a_v41]
  rfl

end Cert.ReferenceIdeal.Hand

end
-- ==== Proof.PreDecode.lean ====
import proofs.«422445_j52716428591540_1_alg».proof.Pre_finite_inputs
import proofs.«422445_j52716428591540_1_alg».proof.Proof.KI.Prefix
import proofs.«422445_j52716428591540_1_alg».proof.Proof.RI.Core
import proofs.«422445_j52716428591540_1_alg».proof.Proof.Gen.ReferenceIdeal
import proofs.«422445_j52716428591540_1_alg».proof.Proof.Gen.Pre_finite_inputs
import Idealize.ShloMosaic.Lib.ReduceAll
import Idealize.ShloMosaic.Lib.StableHlo.Predicate
import Idealize.ShloMosaic.PureOps.Ideal.Laws
import Idealize.ShloMosaic.Lib.ValueIdx

noncomputable section

namespace Cert.Pre_finite_inputs.Hand

open Idealize.ShloMosaic Cert.Pre_finite_inputs Cert.Pre_finite_inputs.Facts

instance : Subsingleton S_.Idx := ⟨fun a b => funext fun d => d.elim0⟩

def AllReal {S : Shape} (x : FVec Ideal S .f32) : Prop := ∀ i, ∃ y : ℝ, x i = (y : EReal)

theorem ofBits_inf_f32 : Ideal.ofBits .f32 0x7F800000#32 = (⊤ : EReal) := by
  simp [Ideal.ofBits, Ideal.ieee]

theorem real_of_abs_lt_inf (x : EReal)
    (e : Ideal.cmp .olt (max x (-x)) (Ideal.ofBits .f32 0x7F800000#32) = 1#1) : ∃ y : ℝ, x = (y : EReal) := by
  rw [ofBits_inf_f32] at e
  induction x using EReal.rec with
  | bot => simp [Ideal.cmp] at e
  | top => simp [Ideal.cmp] at e
  | coe y => exact ⟨y, rfl⟩

theorem ne_zero_of_une (x : EReal)
    (e : Ideal.cmp .une x (Ideal.ofBits .f32 0x00000000#32) = 1#1) : x ≠ 0 := by
  rw [Ideal.ofBits_zero_f32] at e
  intro hx
  simp [Ideal.cmp, hx] at e

theorem allReal_of_all {S : Shape} {axes : List (Fin S.rank)} (x : FVec Ideal S .f32)
    (hb : S_.BroadcastsInDim S (![] : Fin 0 → Fin S.rank)) (hr : S.ReducesTo axes S_) (hu : 0 < S_.numel)
    (e : Host.reduce IntOp.andi
          (cmpf .olt (Host.absf x) (broadcastInDim S ![] hb (constant S_ .f32 0x7F800000#32)))
          (constantI S_ 1 1#1) hr hu ValueIdx.ix0 = 1#1) : AllReal x := by
  intro i
  have hi := Host.reduce_andi_all _ _ hr hu ValueIdx.ix0 e i
  exact real_of_abs_lt_inf (x i) hi

theorem ne_zero_of_all {S : Shape} {axes : List (Fin S.rank)} (x : FVec Ideal S .f32)
    (hb : S_.BroadcastsInDim S (![] : Fin 0 → Fin S.rank)) (hr : S.ReducesTo axes S_) (hu : 0 < S_.numel)
    (e : Host.reduce IntOp.andi
          (cmpf .une x (broadcastInDim S ![] hb (constant S_ .f32 0x00000000#32)))
          (constantI S_ 1 1#1) hr hu ValueIdx.ix0 = 1#1) : ∀ i, x i ≠ 0 := by
  intro i
  have hi := Host.reduce_andi_all _ _ hr hu ValueIdx.ix0 e i
  exact ne_zero_of_une (x i) hi

-- The predicate being all ones gives, conjunct by conjunct: every float input real, no edge count zero, no row sum of R·Rᵀ zero.
theorem decode (h : FVec Ideal S4096x512 .f32) (A : IVec S3x8192 32) (r : FVec Ideal S8192 .f32)
    (w : FVec Ideal S3x1x512 .f32) (a : FVec Ideal S4x2x512x1 .f32)
    (hpre : fn (F := Ideal) h A r w a = fun _ => 1#1) :
    AllReal h ∧ AllReal r ∧ AllReal w ∧ AllReal a ∧ (∀ e, r e ≠ 0) ∧ (∀ j, Cert.ReferenceIdeal.Hand.rowsum (F := Ideal) (Cert.KernelIdeal.Hand.preR (F := Ideal) h A r) j ≠ 0) := by
  have h0 := congrFun hpre ValueIdx.ix0
  dsimp only [fn, fn_part1, fn_part2, fn_part3, andi] at h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h1, h2⟩ := IntOp.andi_eq_one.1 h0
  exact ⟨allReal_of_all h _ _ _ h1, allReal_of_all r _ _ _ h2, allReal_of_all w _ _ _ h3, allReal_of_all a _ _ _ h4,
    ne_zero_of_all r _ _ _ h5, ne_zero_of_all (Cert.ReferenceIdeal.Hand.rowsum (F := Ideal) (Cert.KernelIdeal.Hand.preR (F := Ideal) h A r)) _ _ _ h6⟩

end Cert.Pre_finite_inputs.Hand

end
-- ==== Proof.lean ====
import proofs.«422445_j52716428591540_1_alg».proof.Defs
import proofs.«422445_j52716428591540_1_alg».proof.Proof.Gen.Kernel
import proofs.«422445_j52716428591540_1_alg».proof.Proof.Gen.KernelIdeal
import proofs.«422445_j52716428591540_1_alg».proof.Proof.Gen.ReferenceIdeal
import proofs.«422445_j52716428591540_1_alg».proof.Proof.Gen.Pre_finite_inputs
import proofs.«422445_j52716428591540_1_alg».proof.Proof.KB.Run
import proofs.«422445_j52716428591540_1_alg».proof.Proof.KI.Run
import proofs.«422445_j52716428591540_1_alg».proof.Proof.KI.Glue
import proofs.«422445_j52716428591540_1_alg».proof.Proof.KI.CoreEq
import proofs.«422445_j52716428591540_1_alg».proof.Proof.RI.Run
import proofs.«422445_j52716428591540_1_alg».proof.Proof.RI.Prefix
import proofs.«422445_j52716428591540_1_alg».proof.Proof.RI.CoreFold
import proofs.«422445_j52716428591540_1_alg».proof.Proof.TailK
import proofs.«422445_j52716428591540_1_alg».proof.Proof.TailR
import proofs.«422445_j52716428591540_1_alg».proof.Proof.PreDecode
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_p : Cert.frame_Kernel := fun m ρ _ =>
  (θ_run _ _ _).mono (fun _ h c => (h c).2) (Cert.Kernel.Hand.run_val (F := Bits) m ρ)

theorem frame_pi : Cert.frame_KernelIdeal := fun m ρ _ =>
  (θ_run _ _ _).mono (fun _ h c => (h c).2) (Cert.KernelIdeal.Hand.run_val (F := Ideal) m ρ)

theorem frame_ri : Cert.frame_ReferenceIdeal := Cert.ReferenceIdeal.Hand.frame_ri

theorem preserves : Cert.preserves_Kernel_KernelIdeal := trivial

-- The reference's result: the shared tail at the arguments, the prefix's index rows, and the reference's core at the prefix's two arrays.
theorem ref_result (V : Valuation Cert.ReferenceIdeal.τ Cert.ReferenceIdeal.sig (Elt Ideal)) :
    StableHlo.after Cert.ReferenceIdeal.Hand.ops V (Proc.devRef .tc Cert.ReferenceIdeal.main_v306)
      = Cert.KernelIdeal.Hand.tailT (F := Ideal) (V (Proc.devRef .tc Cert.ReferenceIdeal.main_arg0))
          (Cert.KernelIdeal.Hand.dstRow (V (Proc.devRef .tc Cert.ReferenceIdeal.main_arg1)))
          (Cert.KernelIdeal.Hand.relRow (V (Proc.devRef .tc Cert.ReferenceIdeal.main_arg1)))
          (Cert.KernelIdeal.Hand.srcRow (V (Proc.devRef .tc Cert.ReferenceIdeal.main_arg1)))
          (V (Proc.devRef .tc Cert.ReferenceIdeal.main_arg3)) (V (Proc.devRef .tc Cert.ReferenceIdeal.main_arg4))
          (Cert.ReferenceIdeal.Hand.coreX
            (Cert.KernelIdeal.Hand.preR (F := Ideal) (V (Proc.devRef .tc Cert.ReferenceIdeal.main_arg0)) (V (Proc.devRef .tc Cert.ReferenceIdeal.main_arg1)) (V (Proc.devRef .tc Cert.ReferenceIdeal.main_arg2)))
            (Cert.KernelIdeal.Hand.preI (F := Ideal) (V (Proc.devRef .tc Cert.ReferenceIdeal.main_arg0)) (V (Proc.devRef .tc Cert.ReferenceIdeal.main_arg1)) (V (Proc.devRef .tc Cert.ReferenceIdeal.main_arg2)))) := by
  rw [Cert.ReferenceIdeal.Hand.ops_split, Cert.LibFrame.after_append, Cert.LibFrame.after_append, Cert.ReferenceIdeal.Hand.tail_R,
    Cert.ReferenceIdeal.Hand.core_v41,
    Cert.ReferenceIdeal.Hand.core_keeps _ Cert.ReferenceIdeal.main_arg0 (by simp),
    Cert.ReferenceIdeal.Hand.core_keeps _ Cert.ReferenceIdeal.main_arg3 (by simp),
    Cert.ReferenceIdeal.Hand.core_keeps _ Cert.ReferenceIdeal.main_arg4 (by simp),
    Cert.ReferenceIdeal.Hand.core_keeps _ Cert.ReferenceIdeal.main_v1 (by simp),
    Cert.ReferenceIdeal.Hand.core_keeps _ Cert.ReferenceIdeal.main_v3 (by simp),
    Cert.ReferenceIdeal.Hand.core_keeps _ Cert.ReferenceIdeal.main_v5 (by simp),
    Cert.ReferenceIdeal.Hand.rpre_v1, Cert.ReferenceIdeal.Hand.rpre_v3, Cert.ReferenceIdeal.Hand.rpre_v5,
    Cert.ReferenceIdeal.Hand.rpre_v31, Cert.ReferenceIdeal.Hand.rpre_v34,
    Cert.ReferenceIdeal.Hand.rpre_keeps _ Cert.ReferenceIdeal.main_arg0 (Or.inl rfl),
    Cert.ReferenceIdeal.Hand.rpre_keeps _ Cert.ReferenceIdeal.main_arg3 (Or.inr (Or.inr (Or.inr (Or.inl rfl)))),
    Cert.ReferenceIdeal.Hand.rpre_keeps _ Cert.ReferenceIdeal.main_arg4 (Or.inr (Or.inr (Or.inr (Or.inr rfl))))]

-- Both programs end with the shared tail applied to one core array: the two cores agree on real inputs by exchanging finite sums.
theorem algebraic : Cert.algebraic_KernelIdeal_ReferenceIdeal := by
  intro m g m' g' hpre hagree
  refine ⟨fun c => Cert.KernelIdeal.Hand.tailT (F := Ideal) (m ((c.tc : Thread Cert.KernelIdeal.nD Cert.KernelIdeal.τ).loc Cert.KernelIdeal.main_arg0))
      (Cert.KernelIdeal.Hand.dstRow (m ((c.tc : Thread Cert.KernelIdeal.nD Cert.KernelIdeal.τ).loc Cert.KernelIdeal.main_arg1)))
      (Cert.KernelIdeal.Hand.relRow (m ((c.tc : Thread Cert.KernelIdeal.nD Cert.KernelIdeal.τ).loc Cert.KernelIdeal.main_arg1)))
      (Cert.KernelIdeal.Hand.srcRow (m ((c.tc : Thread Cert.KernelIdeal.nD Cert.KernelIdeal.τ).loc Cert.KernelIdeal.main_arg1)))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (Cert.KernelIdeal.Hand.X2 (Cert.KernelIdeal.Hand.V4 m g) c), ?_, ?_⟩
  · refine (θ_run _ _ _).mono (fun r h c => ⟨(h c).1.trans ?_, (h c).2⟩) (Cert.KernelIdeal.Hand.run_val (F := Ideal) m g)
    obtain ⟨e1, e3, e5⟩ := Cert.KernelIdeal.Hand.W5_rows m g c
    refine (Cert.KernelIdeal.Hand.tail_K (F := Ideal) (Cert.KernelIdeal.Hand.W5 m g c)).trans ?_
    rw [e1, e3, e5, Cert.KernelIdeal.Hand.W5_v38,
      Cert.KernelIdeal.Hand.W5_arg m g c _ (Or.inl rfl),
      Cert.KernelIdeal.Hand.W5_arg m g c _ (Or.inr (Or.inr (Or.inr (Or.inl rfl)))),
      Cert.KernelIdeal.Hand.W5_arg m g c _ (Or.inr (Or.inr (Or.inr (Or.inr rfl))))]
  · refine (θ_run _ _ _).mono (fun r h c => ⟨(h c).1.trans ?_, (h c).2⟩) (Cert.ReferenceIdeal.Hand.run (F := Ideal) m' g')
    obtain ⟨a0, a1, a2, a3, a4⟩ := hagree c
    obtain ⟨hh, hr, _, _, hr0, hs0⟩ := Cert.Pre_finite_inputs.Hand.decode _ _ _ _ _ (hpre c)
    have b0 : StableHlo.launchContents m' c (Proc.devRef .tc Cert.ReferenceIdeal.main_arg0)
        = m ((c.tc : Thread Cert.KernelIdeal.nD Cert.KernelIdeal.τ).loc Cert.KernelIdeal.main_arg0) := a0
    have b1 : StableHlo.launchContents m' c (Proc.devRef .tc Cert.ReferenceIdeal.main_arg1)
        = m ((c.tc : Thread Cert.KernelIdeal.nD Cert.KernelIdeal.τ).loc Cert.KernelIdeal.main_arg1) := a1
    have b2 : StableHlo.launchContents m' c (Proc.devRef .tc Cert.ReferenceIdeal.main_arg2)
        = m ((c.tc : Thread Cert.KernelIdeal.nD Cert.KernelIdeal.τ).loc Cert.KernelIdeal.main_arg2) := a2
    have b3 : StableHlo.launchContents m' c (Proc.devRef .tc Cert.ReferenceIdeal.main_arg3)
        = m ((c.tc : Thread Cert.KernelIdeal.nD Cert.KernelIdeal.τ).loc Cert.KernelIdeal.main_arg3) := a3
    have b4 : StableHlo.launchContents m' c (Proc.devRef .tc Cert.ReferenceIdeal.main_arg4)
        = m ((c.tc : Thread Cert.KernelIdeal.nD Cert.KernelIdeal.τ).loc Cert.KernelIdeal.main_arg4) := a4
    rw [ref_result, b0, b1, b2, b3, b4]
    refine congrArg (Cert.KernelIdeal.Hand.tailT (F := Ideal) _ _ _ _ _ _) ?_
    refine (Cert.KernelIdeal.Hand.core_eq m g c _ _ _ rfl rfl rfl (fun i => hh i) (fun i => hr i) hr0 (fun j => ?_)).symm
    exact hs0 (ix1 j)

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
